-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S16x64 : Shape := ⟨2, ![16, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x320 : Shape := ⟨2, ![64, 320]⟩
abbrev S1x64 : Shape := ⟨2, ![1, 64]⟩
abbrev S1 : Shape := ⟨1, ![1]⟩
abbrev S50000 : Shape := ⟨1, ![50000]⟩
abbrev S2x800000 : Shape := ⟨2, ![2, 800000]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x320 : S_.BroadcastsInDim S64x320 (![] : Fin 0 → Fin S64x320.rank)
  reducesTo_S64x320_S_d0_1 : S64x320.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part8 {F : FTy → Type} [FloatOps F] (main_arg27 : IVec S50000 32) (main_v132 : IVec S_ 1) (main_v135 : IVec S_ 1) : IVec S_ 1 :=
  let main_v136 : IVec S_ 1 := andi main_v132 main_v135
  let main_c_54 : IVec S_ 32 := constantI S_ 32 0#32
  let main_v137 : IVec S50000 32 := broadcastInDim S50000 ![] bcast_S_S50000 main_c_54
  let main_v138 : IVec S50000 1 := cmpi .sge main_arg27 main_v137
  let main_c_55 : IVec S_ 1 := constantI S_ 1 1#1
  let main_v139 : IVec S_ 1 := (fun x v => Host.reduce IntOp.andi x v reducesTo_S50000_S_d0 h_S_) main_v138 main_c_55
  let main_v140 : IVec S_ 1 := andi main_v136 main_v139
  let main_c_56 : IVec S_ 32 := constantI S_ 32 16#32
  let main_v141 : IVec S50000 32 := broadcastInDim S50000 ![] bcast_S_S50000 main_c_56
  let main_v142 : IVec S50000 1 := cmpi .slt main_arg27 main_v141
  let main_c_57 : IVec S_ 1 := constantI S_ 1 1#1
  let main_v143 : IVec S_ 1 := (fun x v => Host.reduce IntOp.andi x v reducesTo_S50000_S_d0 h_S_) main_v142 main_c_57
  let main_v144 : IVec S_ 1 := andi main_v140 main_v143
  main_v144

def fn_part7 {F : FTy → Type} [FloatOps F] (main_arg25 : FVec F S1 .f32) (main_arg26 : IVec S50000 32) (main_arg27 : IVec S50000 32) (main_v118 : IVec S_ 1) (main_v119 : FVec F S1x64 .f32) : IVec S_ 1 :=
  let main_cst_46 : FVec F S_ .f32 := constant S_ .f32 0x7F800000#32
  let main_v120 : FVec F S1x64 .f32 := broadcastInDim S1x64 ![] bcast_S_S1x64 main_cst_46
  let main_v121 : IVec S1x64 1 := cmpf .olt main_v119 main_v120
  let main_c_47 : IVec S_ 1 := constantI S_ 1 1#1
  let main_v122 : IVec S_ 1 := (fun x v => Host.reduce IntOp.andi x v reducesTo_S1x64_S_d0_1 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_c_50 : IVec S_ 32 := constantI S_ 32 0#32
  let main_v129 : IVec S50000 32 := broadcastInDim S50000 ![] bcast_S_S50000 main_c_50
  let main_v130 : IVec S50000 1 := cmpi .sge main_arg26 main_v129
  let main_c_51 : IVec S_ 1 := constantI S_ 1 1#1
  let main_v131 : IVec S_ 1 := (fun x v => Host.reduce IntOp.andi x v reducesTo_S50000_S_d0 h_S_) main_v130 main_c_51
  let main_v132 : IVec S_ 1 := andi main_v128 main_v131
  let main_c_52 : IVec S_ 32 := constantI S_ 32 64#32
  let main_v133 : IVec S50000 32 := broadcastInDim S50000 ![] bcast_S_S50000 main_c_52
  let main_v134 : IVec S50000 1 := cmpi .slt main_arg26 main_v133
  let main_c_53 : IVec S_ 1 := constantI S_ 1 1#1
  let main_v135 : IVec S_ 1 := (fun x v => Host.reduce IntOp.andi x v reducesTo_S50000_S_d0 h_S_) main_v134 main_c_53
  fn_part8 (F := F) main_arg27 main_v132 main_v135

def fn_part6 {F : FTy → Type} [FloatOps F] (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_v98 : IVec S_ 1) (main_v101 : IVec S64x320 1) (main_c_39 : IVec S_ 1) : IVec S_ 1 :=
  let main_v102 : IVec S_ 1 := (fun x v => Host.reduce IntOp.andi x v reducesTo_S64x320_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S1x64 .f32 := Host.absf main_arg24
  fn_part7 (F := F) main_arg25 main_arg26 main_arg27 main_v118 main_v119

def fn_part5 {F : FTy → Type} [FloatOps F] (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x320 .f32 := Host.absf main_arg20
  let main_cst_38 : FVec F S_ .f32 := constant S_ .f32 0x7F800000#32
  let main_v100 : FVec F S64x320 .f32 := broadcastInDim S64x320 ![] bcast_S_S64x320 main_cst_38
  let main_v101 : IVec S64x320 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S64x128 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S64x64 .f32) (main_arg1 : FVec F S16x64 .f32) (main_arg2 : FVec F S128x128 .f32) (main_arg3 : FVec F S128 .f32) (main_arg4 : FVec F S64x128 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_arg28 : IVec S2x800000 32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S64x64 : Shape := ⟨2, ![64, 64]⟩
abbrev S16x64 : Shape := ⟨2, ![16, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x320 : Shape := ⟨2, ![64, 320]⟩
abbrev S1x64 : Shape := ⟨2, ![1, 64]⟩
abbrev S1 : Shape := ⟨1, ![1]⟩
abbrev S50000 : Shape := ⟨1, ![50000]⟩
abbrev S2x800000 : Shape := ⟨2, ![2, 800000]⟩
abbrev S1x800000 : Shape := ⟨2, ![1, 800000]⟩
abbrev S800000 : Shape := ⟨1, ![800000]⟩
abbrev S50000x1 : Shape := ⟨2, ![50000, 1]⟩
abbrev S50000x128 : Shape := ⟨2, ![50000, 128]⟩
abbrev S5000x1 : Shape := ⟨2, ![5000, 1]⟩
abbrev S5000x128 : Shape := ⟨2, ![5000, 128]⟩
abbrev S5000x64 : Shape := ⟨2, ![5000, 64]⟩
abbrev S5000x16 : Shape := ⟨2, ![5000, 16]⟩
abbrev S_ : Shape := ⟨0, ![]⟩
abbrev S800000x1 : Shape := ⟨2, ![800000, 1]⟩
abbrev S800000x128 : Shape := ⟨2, ![800000, 128]⟩
abbrev S128x64 : Shape := ⟨2, ![128, 64]⟩
abbrev S1x128 : Shape := ⟨2, ![1, 128]⟩
abbrev S50000x64 : Shape := ⟨2, ![50000, 64]⟩
abbrev S800000x64 : Shape := ⟨2, ![800000, 64]⟩
abbrev S50000x320 : Shape := ⟨2, ![50000, 320]⟩
abbrev S320x64 : Shape := ⟨2, ![320, 64]⟩
abbrev S5000x320 : Shape := ⟨2, ![5000, 320]⟩
abbrev S64x1 : Shape := ⟨2, ![64, 1]⟩
abbrev S1x1 : Shape := ⟨2, ![1, 1]⟩

abbrev nBuf : Space → Nat
  | .hbm => 229
  | .vmem => 78
  | .smem => 0
  | _ => 0

abbrev hbmTy0_0 (i : Nat) : BufTy := match i % 128 with
  | 0 => ⟨S64x64, .f32⟩
  | 1 => ⟨S16x64, .f32⟩
  | 2 => ⟨S128x128, .f32⟩
  | 3 => ⟨S128, .f32⟩
  | 4 => ⟨S64x128, .f32⟩
  | 5 => ⟨S64, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S64x320, .f32⟩
  | 21 => ⟨S64, .f32⟩
  | 22 => ⟨S64, .f32⟩
  | 23 => ⟨S64, .f32⟩
  | 24 => ⟨S1x64, .f32⟩
  | 25 => ⟨S1, .f32⟩
  | 26 => ⟨S50000, .i32⟩
  | 27 => ⟨S50000, .i32⟩
  | 28 => ⟨S2x800000, .i32⟩
  | 29 => ⟨S1x800000, .i32⟩
  | 30 => ⟨S800000, .i32⟩
  | 31 => ⟨S1x800000, .i32⟩
  | 32 => ⟨S800000, .i32⟩
  | 33 => ⟨S50000x1, .i32⟩
  | 34 => ⟨S50000x1, .i32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S128x128, .f32⟩
  | 50 => ⟨S128x64, .f32⟩
  | 51 => ⟨S1x128, .f32⟩
  | 52 => ⟨S1x64, .f32⟩
  | 53 => ⟨S50000x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S50000x64, .f32⟩
  | 67 => ⟨S50000x64, .f32⟩
  | 68 => ⟨S50000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S1x64, .f32⟩
  | 84 => ⟨S1x64, .f32⟩
  | 85 => ⟨S1x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S64x64, .f32⟩
  | 101 => ⟨S64x64, .f32⟩
  | 102 => ⟨S1x64, .f32⟩
  | 103 => ⟨S1x64, .f32⟩
  | 104 => ⟨S50000x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S50000x64, .f32⟩
  | 118 => ⟨S50000x64, .f32⟩
  | 119 => ⟨S50000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S64x64, .f32⟩

abbrev hbmTy0_1 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S1x64, .f32⟩
  | 7 => ⟨S1x64, .f32⟩
  | 8 => ⟨S1x64, .f32⟩
  | 9 => ⟨S50000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S64x64, .f32⟩
  | 24 => ⟨S64x64, .f32⟩
  | 25 => ⟨S1x64, .f32⟩
  | 26 => ⟨S1x64, .f32⟩
  | 27 => ⟨S50000x64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S50000x64, .f32⟩
  | 41 => ⟨S50000x64, .f32⟩
  | 42 => ⟨S50000x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S1x64, .f32⟩
  | 58 => ⟨S1x64, .f32⟩
  | 59 => ⟨S1x64, .f32⟩
  | 60 => ⟨S50000x64, .f32⟩
  | 61 => ⟨S50000x320, .f32⟩
  | 62 => ⟨S320x64, .f32⟩
  | 63 => ⟨S1x64, .f32⟩
  | 64 => ⟨S50000x64, .f32⟩
  | 65 => ⟨S_, .f32⟩
  | 66 => ⟨S64, .f32⟩
  | 67 => ⟨S_, .f32⟩
  | 68 => ⟨S64, .f32⟩
  | 69 => ⟨S64, .f32⟩
  | 70 => ⟨S_, .i32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S50000x64, .f32⟩
  | 78 => ⟨S50000x64, .f32⟩
  | 79 => ⟨S50000x64, .f32⟩
  | 80 => ⟨S_, .f32⟩
  | 81 => ⟨S_, .f32⟩
  | 82 => ⟨S_, .f32⟩
  | 83 => ⟨S_, .f32⟩
  | 84 => ⟨S64, .f32⟩
  | 85 => ⟨S64, .f32⟩
  | 86 => ⟨S64, .f32⟩
  | 87 => ⟨S_, .f32⟩
  | 88 => ⟨S_, .i1⟩
  | 89 => ⟨S_, .f32⟩
  | 90 => ⟨S_, .f32⟩
  | 91 => ⟨S64, .f32⟩
  | 92 => ⟨S64, .f32⟩
  | 93 => ⟨S64x1, .f32⟩
  | 94 => ⟨S1x64, .f32⟩
  | 95 => ⟨S1x64, .f32⟩
  | 96 => ⟨S1x64, .f32⟩
  | 97 => ⟨S1x64, .f32⟩
  | 98 => ⟨S1x1, .f32⟩
  | 99 => ⟨S50000x1, .f32⟩
  | 100 => ⟨S50000, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | .local _ .vmem, ⟨0, _⟩ => ⟨S5000x1, .i32⟩
  | .local _ .vmem, ⟨1, _⟩ => ⟨S5000x1, .i32⟩
  | .local _ .vmem, ⟨2, _⟩ => ⟨S5000x1, .i32⟩
  | .local _ .vmem, ⟨3, _⟩ => ⟨S5000x1, .i32⟩
  | .local _ .vmem, ⟨4, _⟩ => ⟨S64x64, .f32⟩
  | .local _ .vmem, ⟨5, _⟩ => ⟨S16x64, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x320, .f32⟩
  | .local _ .vmem, ⟨63, _⟩ => ⟨S5000x320, .f32⟩
  | .local _ .vmem, ⟨64, _⟩ => ⟨S320x64, .f32⟩
  | .local _ .vmem, ⟨65, _⟩ => ⟨S1x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S1x64, .f32⟩
  | .local _ .vmem, ⟨71, _⟩ => ⟨S1x64, .f32⟩
  | .local _ .vmem, ⟨72, _⟩ => ⟨S1x64, .f32⟩
  | .local _ .vmem, ⟨73, _⟩ => ⟨S1x64, .f32⟩
  | .local _ .vmem, ⟨74, _⟩ => ⟨S64x1, .f32⟩
  | .local _ .vmem, ⟨75, _⟩ => ⟨S1x1, .f32⟩
  | .local _ .vmem, ⟨76, _⟩ => ⟨S5000x1, .f32⟩
  | .local _ .vmem, ⟨77, _⟩ => ⟨S5000x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c : Ref sig .tc := ⟨.hbm, 36, rfl⟩
abbrev main_v7 : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_c_3 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_cst_3 : Ref sig .tc := ⟨.hbm, 76, rfl⟩
abbrev main_call0_v12 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_4 : Ref sig .tc := ⟨.hbm, 87, rfl⟩
abbrev main_v31 : Ref sig .tc := ⟨.hbm, 88, rfl⟩
abbrev main_v32 : Ref sig .tc := ⟨.hbm, 89, rfl⟩
abbrev main_c_5 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_6 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_7 : Ref sig .tc := ⟨.hbm, 105, rfl⟩
abbrev main_v46 : Ref sig .tc := ⟨.hbm, 106, rfl⟩
abbrev main_cst_8 : Ref sig .tc := ⟨.hbm, 107, rfl⟩
abbrev main_v47 : Ref sig .tc := ⟨.hbm, 108, rfl⟩
abbrev main_v48 : Ref sig .tc := ⟨.hbm, 109, rfl⟩
abbrev main_c_9 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_cst_3 : Ref sig .tc := ⟨.hbm, 127, rfl⟩
abbrev main_call1_v12 : Ref sig .tc := ⟨.hbm, 128, rfl⟩
abbrev main_call1_cst_4 : Ref sig .tc := ⟨.hbm, 129, rfl⟩
abbrev main_call1_call0_v0 : Ref sig .tc := ⟨.hbm, 130, rfl⟩
abbrev main_call1_call0_v1 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_c_10 : Ref sig .tc := ⟨.hbm, 138, rfl⟩
abbrev main_v55 : Ref sig .tc := ⟨.hbm, 139, rfl⟩
abbrev main_v56 : Ref sig .tc := ⟨.hbm, 140, rfl⟩
abbrev main_c_11 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_cst_12 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_13 : Ref sig .tc := ⟨.hbm, 156, rfl⟩
abbrev main_v70 : Ref sig .tc := ⟨.hbm, 157, rfl⟩
abbrev main_cst_14 : Ref sig .tc := ⟨.hbm, 158, rfl⟩
abbrev main_v71 : Ref sig .tc := ⟨.hbm, 159, rfl⟩
abbrev main_v72 : Ref sig .tc := ⟨.hbm, 160, rfl⟩
abbrev main_c_15 : Ref sig .tc := ⟨.hbm, 161, rfl⟩
abbrev main_call2_cst : Ref sig .tc := ⟨.hbm, 162, rfl⟩
abbrev main_call2_v0 : Ref sig .tc := ⟨.hbm, 163, rfl⟩
abbrev main_call2_v1 : Ref sig .tc := ⟨.hbm, 164, rfl⟩
abbrev main_call2_cst_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_call2_v6 : Ref sig .tc := ⟨.hbm, 170, rfl⟩
abbrev main_call2_v7 : Ref sig .tc := ⟨.hbm, 171, rfl⟩
abbrev main_call2_cst_1 : Ref sig .tc := ⟨.hbm, 172, rfl⟩
abbrev main_call2_v8 : Ref sig .tc := ⟨.hbm, 173, rfl⟩
abbrev main_call2_cst_2 : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_call2_cst_3 : Ref sig .tc := ⟨.hbm, 178, rfl⟩
abbrev main_call2_v12 : Ref sig .tc := ⟨.hbm, 179, rfl⟩
abbrev main_call2_cst_4 : Ref sig .tc := ⟨.hbm, 180, rfl⟩
abbrev main_call2_call0_v0 : Ref sig .tc := ⟨.hbm, 181, rfl⟩
abbrev main_call2_call0_v1 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_cst_16 : Ref sig .tc := ⟨.hbm, 193, rfl⟩
abbrev main_v83 : Ref sig .tc := ⟨.hbm, 194, rfl⟩
abbrev main_cst_17 : Ref sig .tc := ⟨.hbm, 195, rfl⟩
abbrev main_v84 : Ref sig .tc := ⟨.hbm, 196, rfl⟩
abbrev main_v85 : Ref sig .tc := ⟨.hbm, 197, rfl⟩
abbrev main_c_18 : Ref sig .tc := ⟨.hbm, 198, rfl⟩
abbrev main_call3_cst : Ref sig .tc := ⟨.hbm, 199, rfl⟩
abbrev main_call3_v0 : Ref sig .tc := ⟨.hbm, 200, rfl⟩
abbrev main_call3_v1 : Ref sig .tc := ⟨.hbm, 201, rfl⟩
abbrev main_call3_cst_0 : Ref sig .tc := ⟨.hbm, 202, rfl⟩
abbrev main_call3_v2 : Ref sig .tc := ⟨.hbm, 203, rfl⟩
abbrev main_call3_v3 : Ref sig .tc := ⟨.hbm, 204, rfl⟩
abbrev main_call3_v4 : Ref sig .tc := ⟨.hbm, 205, rfl⟩
abbrev main_call3_v5 : Ref sig .tc := ⟨.hbm, 206, rfl⟩
abbrev main_call3_v6 : Ref sig .tc := ⟨.hbm, 207, rfl⟩
abbrev main_call3_v7 : Ref sig .tc := ⟨.hbm, 208, rfl⟩
abbrev main_call3_cst_1 : Ref sig .tc := ⟨.hbm, 209, rfl⟩
abbrev main_call3_v8 : Ref sig .tc := ⟨.hbm, 210, rfl⟩
abbrev main_call3_cst_2 : Ref sig .tc := ⟨.hbm, 211, rfl⟩
abbrev main_call3_v9 : Ref sig .tc := ⟨.hbm, 212, rfl⟩
abbrev main_call3_v10 : Ref sig .tc := ⟨.hbm, 213, rfl⟩
abbrev main_call3_v11 : Ref sig .tc := ⟨.hbm, 214, rfl⟩
abbrev main_call3_cst_3 : Ref sig .tc := ⟨.hbm, 215, rfl⟩
abbrev main_call3_v12 : Ref sig .tc := ⟨.hbm, 216, rfl⟩
abbrev main_call3_cst_4 : Ref sig .tc := ⟨.hbm, 217, rfl⟩
abbrev main_call3_call0_v0 : Ref sig .tc := ⟨.hbm, 218, rfl⟩
abbrev main_call3_call0_v1 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg4_0 : Ref sig .tc := ⟨.vmem, 73, rfl⟩
abbrev cc8_stg5_0 : Ref sig .tc := ⟨.vmem, 74, rfl⟩
abbrev cc8_stg6_0 : Ref sig .tc := ⟨.vmem, 75, rfl⟩
abbrev cc8_stg7_0 : Ref sig .tc := ⟨.vmem, 76, rfl⟩
abbrev cc8_stg7_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem4_0 : DmaSem sig := 73
abbrev cc8_sem5_0 : DmaSem sig := 74
abbrev cc8_sem6_0 : DmaSem sig := 75
abbrev cc8_sem7_0 : DmaSem sig := 76
abbrev cc8_sem7_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x320 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S320x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x1 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  bitsLt_bf16_f32 : FTy.bits .bf16 < FTy.bits .f32
  iota_S5000x16_d1_w32 : S5000x16.Iotas .tc 32 [1]
  broadcasts_S5000x1_S5000x16 : S5000x1.Broadcasts S5000x16
  inb_S64x64_S64x64_0_0 : ∀ a, (![0, 0] : Fin 2 → Nat) a + S64x64.size a ≤ S64x64.size a
  h_S64x64 : 0 < S64x64.numel
  inb_S16x64_S16x64_0_0 : ∀ a, (![0, 0] : Fin 2 → Nat) a + S16x64.size a ≤ S16x64.size a
  h_S16x64 : 0 < S16x64.numel
  inb_S5000x128_S5000x64_0_0 : ∀ a, (![0, 0] : Fin 2 → Nat) a + S5000x64.size a ≤ S5000x128.size a
  h_S5000x64 : 0 < S5000x64.numel
  inb_S5000x128_S5000x64_0_64 : ∀ a, (![0, 64] : Fin 2 → Nat) a + S5000x64.size a ≤ S5000x128.size a
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S5000x64_S5000x64 : S5000x64.ShapeCasts S5000x64
  bcast_S_S50000x64 : S_.BroadcastsInDim S50000x64 (![] : Fin 0 → Fin S50000x64.rank)
  transposes_S64x64_S64x64_1_0 : S64x64.Transposes [1, 0] S64x64
  shapeCasts_S64x64_S64x64 : S64x64.ShapeCasts S64x64
  concatenates_S50000x128_S50000x64_S50000x64_S50000x64_S50000x320_d1 : Shape.Concatenates [S50000x128, S50000x64, S50000x64, S50000x64] S50000x320 1
  transposes_S64x320_S320x64_1_0 : S64x320.Transposes [1, 0] S320x64
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  inb_S320x64_S320x64_0_0 : ∀ a, (![0, 0] : Fin 2 → Nat) a + S320x64.size a ≤ S320x64.size a
  h_S320x64 : 0 < S320x64.numel
  shapeCasts_S320x64_S320x64 : S320x64.ShapeCasts S320x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  dot_S5000x64_S64x64_S5000x64_1_0_0_1_n_n_wf : DotDims.WF S5000x64 S64x64 S5000x64 [1] [0] [0] [1] [] []
  dot_S5000x16_S16x64_S5000x64_1_0_0_1_n_n_wf : DotDims.WF S5000x16 S16x64 S5000x64 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x320_S320x64_S5000x64_1_0_0_1_n_n_wf : DotDims.WF S5000x320 S320x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .i32 = 32 ∨ (Rect.block (s := S50000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x320.size a ≤ S50000x320.size a
  hwx7_0 : ∀ i : grid7.Coords, EltTy.bits .f32 = 32 ∨ (Rect.block (s := S50000x320) S5000x320.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S320x64.size a ≤ S320x64.size a
  hwx7_1 : ∀ i : grid7.Coords, EltTy.bits .f32 = 32 ∨ (Rect.block (s := S320x64) S320x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x1.size a ≤ S64x1.size a
  hwx8_5 : ∀ i : grid8.Coords, EltTy.bits .f32 = 32 ∨ (Rect.block (s := S64x1) S64x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x1.size a ≤ S1x1.size a
  hwx8_6 : ∀ i : grid8.Coords, EltTy.bits .f32 = 32 ∨ (Rect.block (s := S1x1) S1x1.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x1.size a ≤ S50000x1.size a
  hwx8_7 : ∀ i : grid8.Coords, EltTy.bits .f32 = 32 ∨ (Rect.block (s := S50000x1) S5000x1.size (cc8_transform_7 i) (hinb8_7 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x320_S320x64_S5000x64_1_0_0_1_n_n : DotDims S5000x320 S320x64 S5000x64 where
  lhsContracting := [1]
  rhsContracting := [0]
  lhsNonContracting := [0]
  rhsNonContracting := [1]
  lhsBatch := []
  rhsBatch := []
  wf := dot_S5000x320_S320x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v4) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v54) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v69) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v69) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v76) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v79) S5000x320.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S320x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v82) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v91) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v87) S64x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v92) S1x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v93) S5000x1.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S64x64 : Shape := ⟨2, ![64, 64]⟩
abbrev S16x64 : Shape := ⟨2, ![16, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x320 : Shape := ⟨2, ![64, 320]⟩
abbrev S1x64 : Shape := ⟨2, ![1, 64]⟩
abbrev S1 : Shape := ⟨1, ![1]⟩
abbrev S50000 : Shape := ⟨1, ![50000]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S50000x128 : Shape := ⟨2, ![50000, 128]⟩
abbrev S800000x1 : Shape := ⟨2, ![800000, 1]⟩
abbrev S800000x128 : Shape := ⟨2, ![800000, 128]⟩
abbrev S1x128 : Shape := ⟨2, ![1, 128]⟩
abbrev S128x64 : Shape := ⟨2, ![128, 64]⟩
abbrev S800000x64 : Shape := ⟨2, ![800000, 64]⟩
abbrev S50000x320 : Shape := ⟨2, ![50000, 320]⟩
abbrev S320x64 : Shape := ⟨2, ![320, 64]⟩
abbrev S64x1 : Shape := ⟨2, ![64, 1]⟩
abbrev S1x1 : Shape := ⟨2, ![1, 1]⟩

abbrev nBuf : Space → Nat
  | .hbm => 369
  | .vmem => 0
  | .smem => 0
  | _ => 0

abbrev hbmTy0_0 (i : Nat) : BufTy := match i % 128 with
  | 0 => ⟨S64x64, .f32⟩
  | 1 => ⟨S16x64, .f32⟩
  | 2 => ⟨S128x128, .f32⟩
  | 3 => ⟨S128, .f32⟩
  | 4 => ⟨S64x128, .f32⟩
  | 5 => ⟨S64, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S64x320, .f32⟩
  | 21 => ⟨S64, .f32⟩
  | 22 => ⟨S64, .f32⟩
  | 23 => ⟨S64, .f32⟩
  | 24 => ⟨S1x64, .f32⟩
  | 25 => ⟨S1, .f32⟩
  | 26 => ⟨S50000, .i32⟩
  | 27 => ⟨S50000, .i32⟩
  | 28 => ⟨S2x800000, .i32⟩
  | 29 => ⟨S1x800000, .i32⟩
  | 30 => ⟨S800000, .i32⟩
  | 31 => ⟨S1x800000, .i32⟩
  | 32 => ⟨S800000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x64, .f32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x64, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x128, .f32⟩
  | 66 => ⟨S128x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S_, .f32⟩
  | 75 => ⟨S50000x128, .f32⟩
  | 76 => ⟨S50000x128, .f32⟩
  | 77 => ⟨S50000x128, .f32⟩
  | 78 => ⟨S128x64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S50000x64, .f32⟩
  | 96 => ⟨S50000x64, .f32⟩
  | 97 => ⟨S50000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S_, .f32⟩
  | 115 => ⟨S64, .f32⟩
  | 116 => ⟨S64, .f32⟩
  | 117 => ⟨S64, .f32⟩
  | 118 => ⟨S1x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S64x64, .f32⟩

abbrev hbmTy0_1 (i : Nat) : BufTy := match i % 128 with
  | 0 => ⟨S50000x64, .f32⟩
  | 1 => ⟨S50000x64, .i1⟩
  | 2 => ⟨S_, .f32⟩
  | 3 => ⟨S50000x64, .f32⟩
  | 4 => ⟨S50000x64, .f32⟩
  | 5 => ⟨S50000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S50000x64, .f32⟩
  | 20 => ⟨S64x64, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .i1⟩
  | 28 => ⟨S_, .f32⟩
  | 29 => ⟨S50000x64, .f32⟩
  | 30 => ⟨S50000x64, .f32⟩
  | 31 => ⟨S50000x64, .f32⟩
  | 32 => ⟨S64x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S64, .f32⟩
  | 39 => ⟨S_, .f32⟩
  | 40 => ⟨S64, .f32⟩
  | 41 => ⟨S64, .f32⟩
  | 42 => ⟨S_, .i32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S50000x64, .f32⟩
  | 50 => ⟨S50000x64, .f32⟩
  | 51 => ⟨S50000x64, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S64, .f32⟩
  | 59 => ⟨S_, .f32⟩
  | 60 => ⟨S_, .i1⟩
  | 61 => ⟨S_, .f32⟩
  | 62 => ⟨S_, .f32⟩
  | 63 => ⟨S64, .f32⟩
  | 64 => ⟨S64, .f32⟩
  | 65 => ⟨S1x64, .f32⟩
  | 66 => ⟨S50000x64, .f32⟩
  | 67 => ⟨S50000x64, .f32⟩
  | 68 => ⟨S_, .f32⟩
  | 69 => ⟨S64, .f32⟩
  | 70 => ⟨S64, .f32⟩
  | 71 => ⟨S64, .f32⟩
  | 72 => ⟨S1x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .i1⟩
  | 84 => ⟨S_, .f32⟩
  | 85 => ⟨S50000x64, .f32⟩
  | 86 => ⟨S50000x64, .f32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S50000x64, .f32⟩
  | 102 => ⟨S64x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .i1⟩
  | 110 => ⟨S_, .f32⟩
  | 111 => ⟨S50000x64, .f32⟩
  | 112 => ⟨S50000x64, .f32⟩
  | 113 => ⟨S50000x64, .f32⟩
  | 114 => ⟨S64x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S64, .f32⟩
  | 121 => ⟨S_, .f32⟩
  | 122 => ⟨S64, .f32⟩
  | 123 => ⟨S64, .f32⟩
  | 124 => ⟨S_, .i32⟩
  | 125 => ⟨S_, .f32⟩
  | 126 => ⟨S64, .f32⟩
  | 127 => ⟨S1x64, .f32⟩
  | _ => ⟨S64x64, .f32⟩

abbrev hbmTy0_2 (i : Nat) : BufTy := match i % 128 with
  | 0 => ⟨S_, .f32⟩
  | 1 => ⟨S1x64, .f32⟩
  | 2 => ⟨S1x64, .f32⟩
  | 3 => ⟨S50000x64, .f32⟩
  | 4 => ⟨S50000x64, .f32⟩
  | 5 => ⟨S50000x64, .f32⟩
  | 6 => ⟨S_, .f32⟩
  | 7 => ⟨S_, .f32⟩
  | 8 => ⟨S_, .f32⟩
  | 9 => ⟨S_, .f32⟩
  | 10 => ⟨S64, .f32⟩
  | 11 => ⟨S64, .f32⟩
  | 12 => ⟨S64, .f32⟩
  | 13 => ⟨S_, .f32⟩
  | 14 => ⟨S_, .i1⟩
  | 15 => ⟨S_, .f32⟩
  | 16 => ⟨S_, .f32⟩
  | 17 => ⟨S64, .f32⟩
  | 18 => ⟨S64, .f32⟩
  | 19 => ⟨S1x64, .f32⟩
  | 20 => ⟨S50000x64, .f32⟩
  | 21 => ⟨S50000x64, .f32⟩
  | 22 => ⟨S_, .f32⟩
  | 23 => ⟨S64, .f32⟩
  | 24 => ⟨S64, .f32⟩
  | 25 => ⟨S64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .i1⟩
  | 38 => ⟨S_, .f32⟩
  | 39 => ⟨S50000x64, .f32⟩
  | 40 => ⟨S50000x64, .f32⟩
  | 41 => ⟨S50000x64, .f32⟩
  | 42 => ⟨S50000x320, .f32⟩
  | 43 => ⟨S320x64, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S50000x64, .f32⟩
  | 61 => ⟨S50000x64, .f32⟩
  | 62 => ⟨S50000x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S_, .f32⟩
  | 80 => ⟨S64, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .i1⟩
  | 95 => ⟨S_, .f32⟩
  | 96 => ⟨S50000x64, .f32⟩
  | 97 => ⟨S50000x64, .f32⟩
  | 98 => ⟨S50000x64, .f32⟩
  | 99 => ⟨S64x1, .f32⟩
  | 100 => ⟨S50000x1, .f32⟩
  | 101 => ⟨S1x1, .f32⟩
  | 102 => ⟨S50000x1, .f32⟩
  | 103 => ⟨S50000x1, .f32⟩
  | 104 => ⟨S50000x1, .f32⟩
  | 105 => ⟨S50000x1, .f32⟩
  | 106 => ⟨S_, .f32⟩
  | 107 => ⟨S50000x1, .f32⟩
  | 108 => ⟨S50000x1, .f32⟩
  | 109 => ⟨S_, .f32⟩
  | 110 => ⟨S50000x1, .f32⟩
  | 111 => ⟨S50000x1, .f32⟩
  | 112 => ⟨S50000, .f32⟩
  | _ => ⟨S64x64, .f32⟩

abbrev hbmTy (i : Nat) : BufTy := match i / 128 with
  | 0 => hbmTy0_0 i
  | 1 => hbmTy0_1 i
  | 2 => hbmTy0_2 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_3 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev main_cst_6 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_7 : Ref sig .tc := ⟨.hbm, 83, rfl⟩
abbrev main_v45 : Ref sig .tc := ⟨.hbm, 84, rfl⟩
abbrev main_cst_8 : Ref sig .tc := ⟨.hbm, 85, rfl⟩
abbrev main_v46 : Ref sig .tc := ⟨.hbm, 86, rfl⟩
abbrev main_v47 : Ref sig .tc := ⟨.hbm, 87, rfl⟩
abbrev main_c_9 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_cst_3 : Ref sig .tc := ⟨.hbm, 105, rfl⟩
abbrev main_call1_v12 : Ref sig .tc := ⟨.hbm, 106, rfl⟩
abbrev main_call1_cst_4 : Ref sig .tc := ⟨.hbm, 107, rfl⟩
abbrev main_call1_call0_v0 : Ref sig .tc := ⟨.hbm, 108, rfl⟩
abbrev main_call1_call0_v1 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_cst_10 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_cst_11 : Ref sig .tc := ⟨.hbm, 127, rfl⟩
abbrev main_v64 : Ref sig .tc := ⟨.hbm, 128, rfl⟩
abbrev main_v65 : Ref sig .tc := ⟨.hbm, 129, rfl⟩
abbrev main_cst_12 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_c_13 : Ref sig .tc := ⟨.hbm, 134, rfl⟩
abbrev main_v69 : Ref sig .tc := ⟨.hbm, 135, rfl⟩
abbrev main_v70 : Ref sig .tc := ⟨.hbm, 136, rfl⟩
abbrev main_c_14 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_15 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_16 : Ref sig .tc := ⟨.hbm, 153, rfl⟩
abbrev main_v85 : Ref sig .tc := ⟨.hbm, 154, rfl⟩
abbrev main_v86 : Ref sig .tc := ⟨.hbm, 155, rfl⟩
abbrev main_cst_17 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_18 : Ref sig .tc := ⟨.hbm, 165, rfl⟩
abbrev main_v95 : Ref sig .tc := ⟨.hbm, 166, rfl⟩
abbrev main_cst_19 : Ref sig .tc := ⟨.hbm, 167, rfl⟩
abbrev main_v96 : Ref sig .tc := ⟨.hbm, 168, rfl⟩
abbrev main_v97 : Ref sig .tc := ⟨.hbm, 169, rfl⟩
abbrev main_c_20 : Ref sig .tc := ⟨.hbm, 170, rfl⟩
abbrev main_call4_cst : Ref sig .tc := ⟨.hbm, 171, rfl⟩
abbrev main_call4_v0 : Ref sig .tc := ⟨.hbm, 172, rfl⟩
abbrev main_call4_v1 : Ref sig .tc := ⟨.hbm, 173, rfl⟩
abbrev main_call4_cst_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_v6 : Ref sig .tc := ⟨.hbm, 179, rfl⟩
abbrev main_call4_v7 : Ref sig .tc := ⟨.hbm, 180, rfl⟩
abbrev main_call4_cst_1 : Ref sig .tc := ⟨.hbm, 181, rfl⟩
abbrev main_call4_v8 : Ref sig .tc := ⟨.hbm, 182, rfl⟩
abbrev main_call4_cst_2 : Ref sig .tc := ⟨.hbm, 183, rfl⟩
abbrev main_call4_v9 : Ref sig .tc := ⟨.hbm, 184, rfl⟩
abbrev main_call4_v10 : Ref sig .tc := ⟨.hbm, 185, rfl⟩
abbrev main_call4_v11 : Ref sig .tc := ⟨.hbm, 186, rfl⟩
abbrev main_call4_cst_3 : Ref sig .tc := ⟨.hbm, 187, rfl⟩
abbrev main_call4_v12 : Ref sig .tc := ⟨.hbm, 188, rfl⟩
abbrev main_call4_cst_4 : Ref sig .tc := ⟨.hbm, 189, rfl⟩
abbrev main_call4_call0_v0 : Ref sig .tc := ⟨.hbm, 190, rfl⟩
abbrev main_call4_call0_v1 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_cst_21 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_cst_22 : Ref sig .tc := ⟨.hbm, 209, rfl⟩
abbrev main_v114 : Ref sig .tc := ⟨.hbm, 210, rfl⟩
abbrev main_v115 : Ref sig .tc := ⟨.hbm, 211, rfl⟩
abbrev main_cst_23 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_c_24 : Ref sig .tc := ⟨.hbm, 216, rfl⟩
abbrev main_v119 : Ref sig .tc := ⟨.hbm, 217, rfl⟩
abbrev main_v120 : Ref sig .tc := ⟨.hbm, 218, rfl⟩
abbrev main_c_25 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_cst_26 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_cst_27 : Ref sig .tc := ⟨.hbm, 235, rfl⟩
abbrev main_v135 : Ref sig .tc := ⟨.hbm, 236, rfl⟩
abbrev main_v136 : Ref sig .tc := ⟨.hbm, 237, rfl⟩
abbrev main_cst_28 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_cst_29 : Ref sig .tc := ⟨.hbm, 247, rfl⟩
abbrev main_v145 : Ref sig .tc := ⟨.hbm, 248, rfl⟩
abbrev main_cst_30 : Ref sig .tc := ⟨.hbm, 249, rfl⟩
abbrev main_v146 : Ref sig .tc := ⟨.hbm, 250, rfl⟩
abbrev main_v147 : Ref sig .tc := ⟨.hbm, 251, rfl⟩
abbrev main_c_31 : Ref sig .tc := ⟨.hbm, 252, rfl⟩
abbrev main_call7_cst : Ref sig .tc := ⟨.hbm, 253, rfl⟩
abbrev main_call7_v0 : Ref sig .tc := ⟨.hbm, 254, rfl⟩
abbrev main_call7_v1 : Ref sig .tc := ⟨.hbm, 255, rfl⟩
abbrev main_call7_cst_0 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_call7_v5 : Ref sig .tc := ⟨.hbm, 260, rfl⟩
abbrev main_call7_v6 : Ref sig .tc := ⟨.hbm, 261, rfl⟩
abbrev main_call7_v7 : Ref sig .tc := ⟨.hbm, 262, rfl⟩
abbrev main_call7_cst_1 : Ref sig .tc := ⟨.hbm, 263, rfl⟩
abbrev main_call7_v8 : Ref sig .tc := ⟨.hbm, 264, rfl⟩
abbrev main_call7_cst_2 : Ref sig .tc := ⟨.hbm, 265, rfl⟩
abbrev main_call7_v9 : Ref sig .tc := ⟨.hbm, 266, rfl⟩
abbrev main_call7_v10 : Ref sig .tc := ⟨.hbm, 267, rfl⟩
abbrev main_call7_v11 : Ref sig .tc := ⟨.hbm, 268, rfl⟩
abbrev main_call7_cst_3 : Ref sig .tc := ⟨.hbm, 269, rfl⟩
abbrev main_call7_v12 : Ref sig .tc := ⟨.hbm, 270, rfl⟩
abbrev main_call7_cst_4 : Ref sig .tc := ⟨.hbm, 271, rfl⟩
abbrev main_call7_call0_v0 : Ref sig .tc := ⟨.hbm, 272, rfl⟩
abbrev main_call7_call0_v1 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_cst_32 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_cst_33 : Ref sig .tc := ⟨.hbm, 291, rfl⟩
abbrev main_v164 : Ref sig .tc := ⟨.hbm, 292, rfl⟩
abbrev main_v165 : Ref sig .tc := ⟨.hbm, 293, rfl⟩
abbrev main_cst_34 : Ref sig .tc := ⟨.hbm, 294, rfl⟩
abbrev main_v166 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_v173 : Ref sig .tc := ⟨.hbm, 302, rfl⟩
abbrev main_v174 : Ref sig .tc := ⟨.hbm, 303, rfl⟩
abbrev main_cst_35 : Ref sig .tc := ⟨.hbm, 304, rfl⟩
abbrev main_v175 : Ref sig .tc := ⟨.hbm, 305, rfl⟩
abbrev main_cst_36 : Ref sig .tc := ⟨.hbm, 306, rfl⟩
abbrev main_v176 : Ref sig .tc := ⟨.hbm, 307, rfl⟩
abbrev main_v177 : Ref sig .tc := ⟨.hbm, 308, rfl⟩
abbrev main_c_37 : Ref sig .tc := ⟨.hbm, 309, rfl⟩
abbrev main_call9_cst : Ref sig .tc := ⟨.hbm, 310, rfl⟩
abbrev main_call9_v0 : Ref sig .tc := ⟨.hbm, 311, rfl⟩
abbrev main_call9_v1 : Ref sig .tc := ⟨.hbm, 312, rfl⟩
abbrev main_call9_cst_0 : Ref sig .tc := ⟨.hbm, 313, rfl⟩
abbrev main_call9_v2 : Ref sig .tc := ⟨.hbm, 314, rfl⟩
abbrev main_call9_v3 : Ref sig .tc := ⟨.hbm, 315, rfl⟩
abbrev main_call9_v4 : Ref sig .tc := ⟨.hbm, 316, rfl⟩
abbrev main_call9_v5 : Ref sig .tc := ⟨.hbm, 317, rfl⟩
abbrev main_call9_v6 : Ref sig .tc := ⟨.hbm, 318, rfl⟩
abbrev main_call9_v7 : Ref sig .tc := ⟨.hbm, 319, rfl⟩
abbrev main_call9_cst_1 : Ref sig .tc := ⟨.hbm, 320, rfl⟩
abbrev main_call9_v8 : Ref sig .tc := ⟨.hbm, 321, rfl⟩
abbrev main_call9_cst_2 : Ref sig .tc := ⟨.hbm, 322, rfl⟩
abbrev main_call9_v9 : Ref sig .tc := ⟨.hbm, 323, rfl⟩
abbrev main_call9_v10 : Ref sig .tc := ⟨.hbm, 324, rfl⟩
abbrev main_call9_v11 : Ref sig .tc := ⟨.hbm, 325, rfl⟩
abbrev main_call9_cst_3 : Ref sig .tc := ⟨.hbm, 326, rfl⟩
abbrev main_call9_v12 : Ref sig .tc := ⟨.hbm, 327, rfl⟩
abbrev main_call9_cst_4 : Ref sig .tc := ⟨.hbm, 328, rfl⟩
abbrev main_call9_call0_v0 : Ref sig .tc := ⟨.hbm, 329, rfl⟩
abbrev main_call9_call0_v1 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_cst_38 : Ref sig .tc := ⟨.hbm, 335, rfl⟩
abbrev main_v182 : Ref sig .tc := ⟨.hbm, 336, rfl⟩
abbrev main_v183 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_v188 : Ref sig .tc := ⟨.hbm, 342, rfl⟩
abbrev main_v189 : Ref sig .tc := ⟨.hbm, 343, rfl⟩
abbrev main_v190 : Ref sig .tc := ⟨.hbm, 344, rfl⟩
abbrev main_v191 : Ref sig .tc := ⟨.hbm, 345, rfl⟩
abbrev main_v192 : Ref sig .tc := ⟨.hbm, 346, rfl⟩
abbrev main_v193 : Ref sig .tc := ⟨.hbm, 347, rfl⟩
abbrev main_cst_39 : Ref sig .tc := ⟨.hbm, 348, rfl⟩
abbrev main_v194 : Ref sig .tc := ⟨.hbm, 349, rfl⟩
abbrev main_v195 : Ref sig .tc := ⟨.hbm, 350, rfl⟩
abbrev main_cst_40 : Ref sig .tc := ⟨.hbm, 351, rfl⟩
abbrev main_v196 : Ref sig .tc := ⟨.hbm, 352, rfl⟩
abbrev main_v197 : Ref sig .tc := ⟨.hbm, 353, rfl⟩
abbrev main_v198 : Ref sig .tc := ⟨.hbm, 354, rfl⟩
abbrev main_v199 : Ref sig .tc := ⟨.hbm, 355, rfl⟩
abbrev main_v200 : Ref sig .tc := ⟨.hbm, 356, rfl⟩
abbrev main_v201 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_cst_41 : Ref sig .tc := ⟨.hbm, 362, rfl⟩
abbrev main_v206 : Ref sig .tc := ⟨.hbm, 363, rfl⟩
abbrev main_v207 : Ref sig .tc := ⟨.hbm, 364, rfl⟩
abbrev main_cst_42 : Ref sig .tc := ⟨.hbm, 365, rfl⟩
abbrev main_v208 : Ref sig .tc := ⟨.hbm, 366, rfl⟩
abbrev main_v209 : Ref sig .tc := ⟨.hbm, 367, rfl⟩
abbrev main_v210 : Ref sig .tc := ⟨.hbm, 368, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  transposes_S64x64_S64x64_1_0 : S64x64.Transposes [1, 0] S64x64
  concatenates_S50000x128_S50000x64_S50000x64_S50000x64_S50000x320_d1 : Shape.Concatenates [S50000x128, S50000x64, S50000x64, S50000x64] S50000x320 1
  transposes_S64x320_S320x64_1_0 : S64x320.Transposes [1, 0] S320x64
  transposes_S1x64_S64x1_1_0 : S1x64.Transposes [1, 0] S64x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  gather_S64x64_S50000x1_S50000x64_1_0_n_n_0_1_164_wf : GatherDims.WF S64x64 S50000x1 S50000x64 [1] [0] [] [0] [] 1 ![1, 64]
  gather_S16x64_S50000x1_S50000x64_1_0_n_n_0_1_164_wf : GatherDims.WF S16x64 S50000x1 S50000x64 [1] [0] [] [0] [] 1 ![1, 64]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x320_S320x64_S50000x64_1_0_0_1_n_n_wf : DotDims.WF S50000x320 S320x64 S50000x64 [1] [0] [0] [1] [] []
  dot_S50000x64_S64x1_S50000x1_1_0_0_1_n_n_wf : DotDims.WF S50000x64 S64x1 S50000x1 [1] [0] [0] [1] [] []

variable [Facts₀]

def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def gather_S16x64_S50000x1_S50000x64_1_0_n_n_0_1_164 : GatherDims S16x64 S50000x1 S50000x64 where
  offsetDims := [1]
  collapsedSliceDims := [0]
  operandBatchingDims := []
  startIndicesBatchingDims := []
  startIndexMap := [0]
  indexVectorDim := 1
  sliceSizes := ![1, 64]
  wf := gather_S16x64_S50000x1_S50000x64_1_0_n_n_0_1_164_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x320_S320x64_S50000x64_1_0_0_1_n_n : DotDims S50000x320 S320x64 S50000x64 where
  lhsContracting := [1]
  rhsContracting := [0]
  lhsNonContracting := [0]
  rhsNonContracting := [1]
  lhsBatch := []
  rhsBatch := []
  wf := dot_S50000x320_S320x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.PreFacts.lean ====
import proofs.«431052_j82222853914919_1_alg».proof.Pre_finite_inputs
import proofs.«431052_j82222853914919_1_alg».proof.Proof.Gen.Pre_finite_inputs
import Idealize.ShloMosaic.Lib.ReduceAll
import Idealize.ShloMosaic.Lib.ValueIdx

namespace Cert.Proof.PreFacts

open Idealize.ShloMosaic Cert.Pre_finite_inputs

variable [Cert.Pre_finite_inputs.Facts] {F : FTy → Type} [FloatOps F]

instance : Subsingleton S_.Idx := ⟨fun a b => funext fun d => d.elim0⟩

-- The predicate ends in a conjunction of four all-reductions of signed comparisons, two on each index array.
theorem part7 (main_arg25 : FVec F S1 .f32) (main_arg26 main_arg27 : IVec S50000 32) (main_v118 : IVec S_ 1) (main_v119 : FVec F S1x64 .f32)
    (h : fn_part7 (F := F) main_arg25 main_arg26 main_arg27 main_v118 main_v119 = fun _ => 1#1) :
    (∀ i, 0 ≤ (main_arg26 i).toInt ∧ (main_arg26 i).toInt < 64) ∧ ∀ i, 0 ≤ (main_arg27 i).toInt ∧ (main_arg27 i).toInt < 16 := by
  obtain ⟨e1, e143⟩ := IntOp.andi_eq_one.mp (congrFun h ValueIdx.ix0)
  obtain ⟨e2, e139⟩ := IntOp.andi_eq_one.mp e1
  obtain ⟨e3, e135⟩ := IntOp.andi_eq_one.mp e2
  obtain ⟨-, e131⟩ := IntOp.andi_eq_one.mp e3
  exact ⟨fun i => ⟨IntOp.cmpi_sge.mp (Host.reduce_andi_all _ _ _ _ _ e131 i), IntOp.cmpi_slt.mp (Host.reduce_andi_all _ _ _ _ _ e135 i)⟩,
    fun i => ⟨IntOp.cmpi_sge.mp (Host.reduce_andi_all _ _ _ _ _ e139 i), IntOp.cmpi_slt.mp (Host.reduce_andi_all _ _ _ _ _ e143 i)⟩⟩

theorem ranges (main_arg0 : FVec F S64x64 .f32) (main_arg1 : FVec F S16x64 .f32) (main_arg2 : FVec F S128x128 .f32) (main_arg3 : FVec F S128 .f32) (main_arg4 : FVec F S64x128 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S64x320 .f32) (main_arg21 : FVec F S64 .f32) (main_arg22 : FVec F S64 .f32) (main_arg23 : FVec F S64 .f32) (main_arg24 : FVec F S1x64 .f32) (main_arg25 : FVec F S1 .f32) (main_arg26 : IVec S50000 32) (main_arg27 : IVec S50000 32) (main_arg28 : IVec S2x800000 32) (h : fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 = fun _ => 1#1) :
    ((∀ i, 0 ≤ (main_arg26 i).toInt ∧ (main_arg26 i).toInt < 64) ∧ (∀ i, 0 ≤ (main_arg27 i).toInt ∧ (main_arg27 i).toInt < 16)) :=
  part7 _ _ _ _ _ h

end Cert.Proof.PreFacts
-- ==== Proof.KB.Body0.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Ring
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x1 := Rect.unit (s := S5000x1) ![0, 0] S5000x1.size inb_S5000x1_S5000x1_0_0
abbrev r0_1 : Rect S64x64 := Rect.unit (s := S64x64) ![0, 0] S64x64.size inb_S64x64_S64x64_0_0
abbrev r0_2 : Rect S16x64 := Rect.unit (s := S16x64) ![0, 0] S16x64.size inb_S16x64_S16x64_0_0
abbrev r0_3 : Rect S5000x128 := Rect.unit (s := S5000x128) ![0, 0] S5000x64.size inb_S5000x128_S5000x64_0_0
abbrev r0_4 : Rect S5000x128 := Rect.unit (s := S5000x128) ![0, 64] S5000x64.size inb_S5000x128_S5000x64_0_64

def out0_4 (x0 : Vec F S5000x1 .i32) (x1 : Vec F S5000x1 .i32) (x2 : Vec F S64x64 .f32) (x3 : Vec F S16x64 .f32) : Vec F S5000x128 .f32 :=
  View.canon [⟨r0_4, k0_pay2 (View.ld x1 r0_0) (View.ld x3 r0_2)⟩,
    ⟨r0_3, k0_pay1 (View.ld x0 r0_0) (View.ld x2 r0_1)⟩]

theorem cover0_4 (p0 : Vec F S5000x64 .f32) (p1 : Vec F S5000x64 .f32) (y : S5000x128.Idx) :
    ∃ pc ∈ ([⟨r0_4, p0⟩, ⟨r0_3, p1⟩] : List (View.Piece (Elt F) S5000x128 .f32)), y ∈ pc.1.set :=
  View.cover_of_tiled [⟨r0_4, p0⟩, ⟨r0_3, p1⟩] S5000x64.size (by rfl) y

-- By running the body: four whole-block loads, two stores tiling the output block.
theorem sound_kernel0 {c : Dev nD} {E i arg1 harg1 arg2 harg2 arg3 harg3 arg4 harg4 arg5 harg5 x0 x1 x2 x3 d} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare d
        -∗ (owns c.tc arg1 fullShare x0 ∗ owns c.tc arg2 fullShare x1 ∗ owns c.tc arg3 fullShare x2 ∗ owns c.tc arg4 fullShare x3 ∗ owns c.tc arg5 fullShare (out0_4 x0 x1 x2 x3) -∗ K ⟨⟩)
        -∗ wp frame (wpE (defs₀ (F := F)) Variants.none c none) E (cc0__embed_kernel i arg1 harg1 arg2 harg2 arg3 harg3 arg4 harg4 arg5 harg5) K) := by
  simp only [cc0__embed_kernel_eq_skeleton, owns_eq_rep c.tc arg1, owns_eq_rep c.tc arg2, owns_eq_rep c.tc arg3, owns_eq_rep c.tc arg4]; unfold cc0__embed_kernel_skel owns
  iintro H0 H1 H2 H3 ⟨%f4, -, H4⟩ Hk
  sl_exec
  sl_step
  iapply Hk
  iframe H0 H1 H2 H3
  iexists _; isplitr
  swap; · iexact H4
  ipureintro
  simp only [View.readAt_rep]
  exact View.read_writes_eq_canon _ _ _ (cover0_4 _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = out0_4 (iblk0 V c 0 t) (iblk0 V c 1 t) (iblk0 V c 2 t) (iblk0 V c 3 t) := by dsimp only [dat0]

-- The body leaves an input window's block in place, so what it finds there is what it leaves.
theorem before0 (c : Dev nD) : ∀ w, (cfg0.win w).isOut = false → ∀ t d, (dat0 V c).before w t d = (dat0 V c).after w t
  | 0, h, t, d | 1, h, t, d | 2, h, t, d | 3, h, t, d =>
    (dat0 V c).before_in_eq_fetched _ h (fun _ => rfl) (fun _ _ _ => rfl) (fun _ => rfl) t d
  | 4, h, _, _ => nomatch h

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl, before0 V c 3 rfl]
  show (iprop(?R ∗ ?S ∗ _) : sProp 𝕄) ⊢ wp _ _ _ (bodyAt0 (F := F) t) fun _ => iprop(?R ∗ ?S ∗ _)
  rw [show (dat0 V c).after 4 t = out0_4 ((dat0 V c).after 0 t) ((dat0 V c).after 1 t) ((dat0 V c).after 2 t) ((dat0 V c).after 3 t) by dsimp only [dat0]]
  iintro ⟨HΦ, Ho, ⟨%d0, H0⟩, ⟨%d1, H1⟩, ⟨%d2, H2⟩, ⟨%d3, H3⟩, %d4, H4⟩
  iapply sound_kernel0 $$ H0 H1 H2 H3 H4
  iintro ⟨H0, H1, H2, H3, H4⟩
  iframe

end Cert.Proof.KB
-- ==== Proof.KB.Body1.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S5000x64 := Rect.unit (s := S5000x64) ![0, 0] S5000x64.size inb_S5000x64_S5000x64_0_0

def out1_6 (x0 : Vec F S5000x128 .f32) (x1 : Vec F S5000x128 .f32) (x2 : Vec F S128x128 .f32) (x3 : Vec F S1x128 .f32)
    (x4 : Vec F S128x64 .f32) (x5 : Vec F S1x64 .f32) : Vec F S5000x64 .f32 :=
  View.canon [⟨r1_5, k1_pay1 (View.ld x0 r1_0) (View.ld x1 r1_0) (View.ld x2 r1_1) (View.ld x3 r1_2) (View.ld x4 r1_3) (View.ld x5 r1_4)⟩]

set_option maxHeartbeats 1000000 in
-- the body only reads its inputs, and its one store covers the whole output, which therefore reads as that store's payload
theorem sound_kernel1 {c : Dev nD} {E : Set ℕ} {i : grid1.Coords} {arg1 arg2 : Memref sig .tc .vmem S5000x128 .f32} {arg3 : Memref sig .tc .vmem S128x128 .f32}
    {arg4 : Memref sig .tc .vmem S1x128 .f32} {arg5 : Memref sig .tc .vmem S128x64 .f32} {arg6 : Memref sig .tc .vmem S1x64 .f32} {arg7 : Memref sig .tc .vmem S5000x64 .f32}
    {harg1 : arg1.IsWhole} {harg2 : arg2.IsWhole} {harg3 : arg3.IsWhole} {harg4 : arg4.IsWhole} {harg5 : arg5.IsWhole} {harg6 : arg6.IsWhole} {harg7 : arg7.IsWhole}
    {x0 x1 : Vec F S5000x128 .f32} {x2 : Vec F S128x128 .f32} {x3 : Vec F S1x128 .f32} {x4 : Vec F S128x64 .f32} {x5 : Vec F S1x64 .f32} {d : Vec F S5000x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out1_6 x0 x1 x2 x3 x4 x5) -∗ K ⟨⟩)
        -∗ wp frame (wpE (defs₀ (F := F)) Variants.none c none) E (cc1__mlp_kernel i arg1 harg1 arg2 harg2 arg3 harg3 arg4 harg4 arg5 harg5 arg6 harg6 arg7 harg7) K) := by
  simp only [owns_eq_rep c.tc arg1, owns_eq_rep c.tc arg2, owns_eq_rep c.tc arg3, owns_eq_rep c.tc arg4, owns_eq_rep c.tc arg5, owns_eq_rep c.tc arg6]
  unfold owns; simp only [cc1__mlp_kernel_eq_skeleton]; unfold cc1__mlp_kernel_skel
  iintro H0 H1 H2 H3 H4 H5 ⟨%f6, -, H6⟩ Hk
  sl_exec
  sl_step
  iapply Hk
  iframe H0 H1 H2 H3 H4 H5
  iexists _; isplitr
  swap; · iexact H6
  ipureintro
  simp only [View.readAt_rep]
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- one case per input window; in each, both sides reduce to the same block of the entry array
theorem before1 (c : Dev nD) : ∀ w, (cfg1.win w).isOut = false → ∀ t d, (dat1 V c).before w t d = (dat1 V c).after w t
  | 0, h, t, d | 1, h, t, d | 2, h, t, d | 3, h, t, d | 4, h, t, d | 5, h, t, d =>
    ((dat1 V c).before_in_eq_fetched _ h (fun _ => rfl) (fun _ _ _ => rfl) (fun _ => rfl) t d).trans rfl
  | 6, h, _, _ => nomatch h

theorem body_obligation1 (c : Dev nD) : BodyObligation (dat1 (F := F) V c) (defs₀ (F := F)) Variants.none () Set.univ := fun t => by
  rw [bigSep_W1, bigSep_W1]
  simp (disch := decide) only [before1 V c]
  show (iprop(?R ∗ ?S ∗ _) : sProp 𝕄) ⊢ wp _ _ _ (bodyAt1 (F := F) t) fun _ => iprop(?R ∗ ?S ∗ _)
  rw [show (dat1 V c).after 6 t = out1_6 ((dat1 V c).after 0 t) ((dat1 V c).after 1 t) ((dat1 V c).after 2 t) ((dat1 V c).after 3 t) ((dat1 V c).after 4 t) ((dat1 V c).after 5 t) by dsimp only [dat1]]
  iintro ⟨HΦ, Ho, ⟨%d0, H0⟩, ⟨%d1, H1⟩, ⟨%d2, H2⟩, ⟨%d3, H3⟩, ⟨%d4, H4⟩, ⟨%d5, H5⟩, %d6, H6⟩
  iapply sound_kernel1 $$ H0 H1 H2 H3 H4 H5 H6
  iintro ⟨H0, H1, H2, H3, H4, H5, H6⟩
  iframe

end Cert.Proof.KB
-- ==== Proof.KB.Body2.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

def out2_5 (x0 : Vec F S5000x64 .f32) (x1 : Vec F S1x64 .f32) (x2 : Vec F S1x64 .f32) (x3 : Vec F S1x64 .f32) (x4 : Vec F S1x64 .f32) : Vec F S5000x64 .f32 :=
  View.canon [⟨r2_0, k2_pay1 (View.ld x0 r2_0) (View.ld x1 r2_1) (View.ld x2 r2_1) (View.ld x3 r2_1) (View.ld x4 r2_1)⟩]

-- the body only reads its inputs, and its one store covers the whole output, which therefore reads as that store's payload
theorem sound_kernel2 {c : Dev nD} {E : Set ℕ} {i : grid2.Coords} {arg1 arg6 : Memref sig .tc .vmem S5000x64 .f32} {arg2 arg3 arg4 arg5 : Memref sig .tc .vmem S1x64 .f32}
    {harg1 : arg1.IsWhole} {harg2 : arg2.IsWhole} {harg3 : arg3.IsWhole} {harg4 : arg4.IsWhole} {harg5 : arg5.IsWhole} {harg6 : arg6.IsWhole}
    {x0 d : Vec F S5000x64 .f32} {x1 x2 x3 x4 : Vec F S1x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare (out2_5 x0 x1 x2 x3 x4) -∗ K ⟨⟩)
        -∗ wp frame (wpE (defs₀ (F := F)) Variants.none c none) E (cc2__bn_lrelu_kernel i arg1 harg1 arg2 harg2 arg3 harg3 arg4 harg4 arg5 harg5 arg6 harg6) K) := by
  simp only [owns_eq_rep c.tc arg1, owns_eq_rep c.tc arg2, owns_eq_rep c.tc arg3, owns_eq_rep c.tc arg4, owns_eq_rep c.tc arg5]
  unfold owns; simp only [cc2__bn_lrelu_kernel_eq_skeleton]; unfold cc2__bn_lrelu_kernel_skel
  iintro H0 H1 H2 H3 H4 ⟨%f5, -, H5⟩ Hk
  sl_exec
  sl_step
  iapply Hk
  iframe H0 H1 H2 H3 H4
  iexists _; isplitr
  swap; · iexact H5
  ipureintro
  simp only [View.readAt_rep]
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

-- one case per input window; in each, both sides reduce to the same block of the entry array
theorem before2 (c : Dev nD) : ∀ w, (cfg2.win w).isOut = false → ∀ t d, (dat2 V c).before w t d = (dat2 V c).after w t
  | 0, h, t, d | 1, h, t, d | 2, h, t, d | 3, h, t, d | 4, h, t, d =>
    ((dat2 V c).before_in_eq_fetched _ h (fun _ => rfl) (fun _ _ _ => rfl) (fun _ => rfl) t d).trans rfl
  | 5, h, _, _ => nomatch h

theorem body_obligation2 (c : Dev nD) : BodyObligation (dat2 (F := F) V c) (defs₀ (F := F)) Variants.none () Set.univ := fun t => by
  rw [bigSep_W2, bigSep_W2]
  simp (disch := decide) only [before2 V c]
  show (iprop(?R ∗ ?S ∗ _) : sProp 𝕄) ⊢ wp _ _ _ (bodyAt2 (F := F) t) fun _ => iprop(?R ∗ ?S ∗ _)
  rw [show (dat2 V c).after 5 t = out2_5 ((dat2 V c).after 0 t) ((dat2 V c).after 1 t) ((dat2 V c).after 2 t) ((dat2 V c).after 3 t) ((dat2 V c).after 4 t) by dsimp only [dat2]]
  iintro ⟨HΦ, Ho, ⟨%d0, H0⟩, ⟨%d1, H1⟩, ⟨%d2, H2⟩, ⟨%d3, H3⟩, ⟨%d4, H4⟩, %d5, H5⟩
  iapply sound_kernel2 $$ H0 H1 H2 H3 H4 H5
  iintro ⟨H0, H1, H2, H3, H4, H5⟩
  iframe

end Cert.Proof.KB
-- ==== Proof.KB.Body3.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S5000x64 := Rect.unit (s := S5000x64) ![0, 0] S5000x64.size inb_S5000x64_S5000x64_0_0

def out3_6 (x0 : Vec F S5000x64 .f32) (x1 : Vec F S5000x64 .f32) (x2 : Vec F S64x64 .f32) (x3 : Vec F S1x64 .f32)
    (x4 : Vec F S64x64 .f32) (x5 : Vec F S1x64 .f32) : Vec F S5000x64 .f32 :=
  View.canon [⟨r3_5, k3_pay1 (View.ld x0 r3_0) (View.ld x1 r3_0) (View.ld x2 r3_1) (View.ld x3 r3_2) (View.ld x4 r3_3) (View.ld x5 r3_4)⟩]

set_option maxHeartbeats 1000000 in
-- the body only reads its inputs, and its one store covers the whole output, which therefore reads as that store's payload
theorem sound_kernel3 {c : Dev nD} {E : Set ℕ} {i : grid3.Coords} {arg1 arg2 : Memref sig .tc .vmem S5000x64 .f32} {arg3 : Memref sig .tc .vmem S64x64 .f32}
    {arg4 : Memref sig .tc .vmem S1x64 .f32} {arg5 : Memref sig .tc .vmem S64x64 .f32} {arg6 : Memref sig .tc .vmem S1x64 .f32} {arg7 : Memref sig .tc .vmem S5000x64 .f32}
    {harg1 : arg1.IsWhole} {harg2 : arg2.IsWhole} {harg3 : arg3.IsWhole} {harg4 : arg4.IsWhole} {harg5 : arg5.IsWhole} {harg6 : arg6.IsWhole} {harg7 : arg7.IsWhole}
    {x0 x1 : Vec F S5000x64 .f32} {x2 : Vec F S64x64 .f32} {x3 : Vec F S1x64 .f32} {x4 : Vec F S64x64 .f32} {x5 : Vec F S1x64 .f32} {d : Vec F S5000x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out3_6 x0 x1 x2 x3 x4 x5) -∗ K ⟨⟩)
        -∗ wp frame (wpE (defs₀ (F := F)) Variants.none c none) E (cc3__mlp_kernel i arg1 harg1 arg2 harg2 arg3 harg3 arg4 harg4 arg5 harg5 arg6 harg6 arg7 harg7) K) := by
  simp only [owns_eq_rep c.tc arg1, owns_eq_rep c.tc arg2, owns_eq_rep c.tc arg3, owns_eq_rep c.tc arg4, owns_eq_rep c.tc arg5, owns_eq_rep c.tc arg6]
  unfold owns; simp only [cc3__mlp_kernel_eq_skeleton]; unfold cc3__mlp_kernel_skel
  iintro H0 H1 H2 H3 H4 H5 ⟨%f6, -, H6⟩ Hk
  sl_exec
  sl_step
  iapply Hk
  iframe H0 H1 H2 H3 H4 H5
  iexists _; isplitr
  swap; · iexact H6
  ipureintro
  simp only [View.readAt_rep]
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

-- one case per input window; in each, both sides reduce to the same block of the entry array
theorem before3 (c : Dev nD) : ∀ w, (cfg3.win w).isOut = false → ∀ t d, (dat3 V c).before w t d = (dat3 V c).after w t
  | 0, h, t, d | 1, h, t, d | 2, h, t, d | 3, h, t, d | 4, h, t, d | 5, h, t, d =>
    ((dat3 V c).before_in_eq_fetched _ h (fun _ => rfl) (fun _ _ _ => rfl) (fun _ => rfl) t d).trans rfl
  | 6, h, _, _ => nomatch h

theorem body_obligation3 (c : Dev nD) : BodyObligation (dat3 (F := F) V c) (defs₀ (F := F)) Variants.none () Set.univ := fun t => by
  rw [bigSep_W3, bigSep_W3]
  simp (disch := decide) only [before3 V c]
  show (iprop(?R ∗ ?S ∗ _) : sProp 𝕄) ⊢ wp _ _ _ (bodyAt3 (F := F) t) fun _ => iprop(?R ∗ ?S ∗ _)
  rw [show (dat3 V c).after 6 t = out3_6 ((dat3 V c).after 0 t) ((dat3 V c).after 1 t) ((dat3 V c).after 2 t) ((dat3 V c).after 3 t) ((dat3 V c).after 4 t) ((dat3 V c).after 5 t) by dsimp only [dat3]]
  iintro ⟨HΦ, Ho, ⟨%d0, H0⟩, ⟨%d1, H1⟩, ⟨%d2, H2⟩, ⟨%d3, H3⟩, ⟨%d4, H4⟩, ⟨%d5, H5⟩, %d6, H6⟩
  iapply sound_kernel3 $$ H0 H1 H2 H3 H4 H5 H6
  iintro ⟨H0, H1, H2, H3, H4, H5, H6⟩
  iframe

end Cert.Proof.KB
-- ==== Proof.KB.Body4.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

def out4_5 (x0 : Vec F S5000x64 .f32) (x1 : Vec F S1x64 .f32) (x2 : Vec F S1x64 .f32) (x3 : Vec F S1x64 .f32) (x4 : Vec F S1x64 .f32) : Vec F S5000x64 .f32 :=
  View.canon [⟨r4_0, k4_pay1 (View.ld x0 r4_0) (View.ld x1 r4_1) (View.ld x2 r4_1) (View.ld x3 r4_1) (View.ld x4 r4_1)⟩]

-- the body only reads its inputs, and its one store covers the whole output, which therefore reads as that store's payload
theorem sound_kernel4 {c : Dev nD} {E : Set ℕ} {i : grid4.Coords} {arg1 arg6 : Memref sig .tc .vmem S5000x64 .f32} {arg2 arg3 arg4 arg5 : Memref sig .tc .vmem S1x64 .f32}
    {harg1 : arg1.IsWhole} {harg2 : arg2.IsWhole} {harg3 : arg3.IsWhole} {harg4 : arg4.IsWhole} {harg5 : arg5.IsWhole} {harg6 : arg6.IsWhole}
    {x0 d : Vec F S5000x64 .f32} {x1 x2 x3 x4 : Vec F S1x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare (out4_5 x0 x1 x2 x3 x4) -∗ K ⟨⟩)
        -∗ wp frame (wpE (defs₀ (F := F)) Variants.none c none) E (cc4__bn_lrelu_kernel i arg1 harg1 arg2 harg2 arg3 harg3 arg4 harg4 arg5 harg5 arg6 harg6) K) := by
  simp only [owns_eq_rep c.tc arg1, owns_eq_rep c.tc arg2, owns_eq_rep c.tc arg3, owns_eq_rep c.tc arg4, owns_eq_rep c.tc arg5]
  unfold owns; simp only [cc4__bn_lrelu_kernel_eq_skeleton]; unfold cc4__bn_lrelu_kernel_skel
  iintro H0 H1 H2 H3 H4 ⟨%f5, -, H5⟩ Hk
  sl_exec
  sl_step
  iapply Hk
  iframe H0 H1 H2 H3 H4
  iexists _; isplitr
  swap; · iexact H5
  ipureintro
  simp only [View.readAt_rep]
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

-- one case per input window; in each, both sides reduce to the same block of the entry array
theorem before4 (c : Dev nD) : ∀ w, (cfg4.win w).isOut = false → ∀ t d, (dat4 V c).before w t d = (dat4 V c).after w t
  | 0, h, t, d | 1, h, t, d | 2, h, t, d | 3, h, t, d | 4, h, t, d =>
    ((dat4 V c).before_in_eq_fetched _ h (fun _ => rfl) (fun _ _ _ => rfl) (fun _ => rfl) t d).trans rfl
  | 5, h, _, _ => nomatch h

theorem body_obligation4 (c : Dev nD) : BodyObligation (dat4 (F := F) V c) (defs₀ (F := F)) Variants.none () Set.univ := fun t => by
  rw [bigSep_W4, bigSep_W4]
  simp (disch := decide) only [before4 V c]
  show (iprop(?R ∗ ?S ∗ _) : sProp 𝕄) ⊢ wp _ _ _ (bodyAt4 (F := F) t) fun _ => iprop(?R ∗ ?S ∗ _)
  rw [show (dat4 V c).after 5 t = out4_5 ((dat4 V c).after 0 t) ((dat4 V c).after 1 t) ((dat4 V c).after 2 t) ((dat4 V c).after 3 t) ((dat4 V c).after 4 t) by dsimp only [dat4]]
  iintro ⟨HΦ, Ho, ⟨%d0, H0⟩, ⟨%d1, H1⟩, ⟨%d2, H2⟩, ⟨%d3, H3⟩, ⟨%d4, H4⟩, %d5, H5⟩
  iapply sound_kernel4 $$ H0 H1 H2 H3 H4 H5
  iintro ⟨H0, H1, H2, H3, H4, H5⟩
  iframe

end Cert.Proof.KB
-- ==== Proof.KB.Body5.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S64x64 := Rect.unit (s := S64x64) ![0, 0] S64x64.size inb_S64x64_S64x64_0_0
abbrev r5_4 : Rect S1x64 := Rect.unit (s := S1x64) ![0, 0] S1x64.size inb_S1x64_S1x64_0_0
abbrev r5_5 : Rect S5000x64 := Rect.unit (s := S5000x64) ![0, 0] S5000x64.size inb_S5000x64_S5000x64_0_0

def out5_6 (x0 : Vec F S5000x64 .f32) (x1 : Vec F S5000x64 .f32) (x2 : Vec F S64x64 .f32) (x3 : Vec F S1x64 .f32)
    (x4 : Vec F S64x64 .f32) (x5 : Vec F S1x64 .f32) : Vec F S5000x64 .f32 :=
  View.canon [⟨r5_5, k5_pay1 (View.ld x0 r5_0) (View.ld x1 r5_0) (View.ld x2 r5_1) (View.ld x3 r5_2) (View.ld x4 r5_3) (View.ld x5 r5_4)⟩]

set_option maxHeartbeats 1000000 in
-- the body only reads its inputs, and its one store covers the whole output, which therefore reads as that store's payload
theorem sound_kernel5 {c : Dev nD} {E : Set ℕ} {i : grid5.Coords} {arg1 arg2 : Memref sig .tc .vmem S5000x64 .f32} {arg3 : Memref sig .tc .vmem S64x64 .f32}
    {arg4 : Memref sig .tc .vmem S1x64 .f32} {arg5 : Memref sig .tc .vmem S64x64 .f32} {arg6 : Memref sig .tc .vmem S1x64 .f32} {arg7 : Memref sig .tc .vmem S5000x64 .f32}
    {harg1 : arg1.IsWhole} {harg2 : arg2.IsWhole} {harg3 : arg3.IsWhole} {harg4 : arg4.IsWhole} {harg5 : arg5.IsWhole} {harg6 : arg6.IsWhole} {harg7 : arg7.IsWhole}
    {x0 x1 : Vec F S5000x64 .f32} {x2 : Vec F S64x64 .f32} {x3 : Vec F S1x64 .f32} {x4 : Vec F S64x64 .f32} {x5 : Vec F S1x64 .f32} {d : Vec F S5000x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out5_6 x0 x1 x2 x3 x4 x5) -∗ K ⟨⟩)
        -∗ wp frame (wpE (defs₀ (F := F)) Variants.none c none) E (cc5__mlp_kernel i arg1 harg1 arg2 harg2 arg3 harg3 arg4 harg4 arg5 harg5 arg6 harg6 arg7 harg7) K) := by
  simp only [owns_eq_rep c.tc arg1, owns_eq_rep c.tc arg2, owns_eq_rep c.tc arg3, owns_eq_rep c.tc arg4, owns_eq_rep c.tc arg5, owns_eq_rep c.tc arg6]
  unfold owns; simp only [cc5__mlp_kernel_eq_skeleton]; unfold cc5__mlp_kernel_skel
  iintro H0 H1 H2 H3 H4 H5 ⟨%f6, -, H6⟩ Hk
  sl_exec
  sl_step
  iapply Hk
  iframe H0 H1 H2 H3 H4 H5
  iexists _; isplitr
  swap; · iexact H6
  ipureintro
  simp only [View.readAt_rep]
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

-- one case per input window; in each, both sides reduce to the same block of the entry array
theorem before5 (c : Dev nD) : ∀ w, (cfg5.win w).isOut = false → ∀ t d, (dat5 V c).before w t d = (dat5 V c).after w t
  | 0, h, t, d | 1, h, t, d | 2, h, t, d | 3, h, t, d | 4, h, t, d | 5, h, t, d =>
    ((dat5 V c).before_in_eq_fetched _ h (fun _ => rfl) (fun _ _ _ => rfl) (fun _ => rfl) t d).trans rfl
  | 6, h, _, _ => nomatch h

theorem body_obligation5 (c : Dev nD) : BodyObligation (dat5 (F := F) V c) (defs₀ (F := F)) Variants.none () Set.univ := fun t => by
  rw [bigSep_W5, bigSep_W5]
  simp (disch := decide) only [before5 V c]
  show (iprop(?R ∗ ?S ∗ _) : sProp 𝕄) ⊢ wp _ _ _ (bodyAt5 (F := F) t) fun _ => iprop(?R ∗ ?S ∗ _)
  rw [show (dat5 V c).after 6 t = out5_6 ((dat5 V c).after 0 t) ((dat5 V c).after 1 t) ((dat5 V c).after 2 t) ((dat5 V c).after 3 t) ((dat5 V c).after 4 t) ((dat5 V c).after 5 t) by dsimp only [dat5]]
  iintro ⟨HΦ, Ho, ⟨%d0, H0⟩, ⟨%d1, H1⟩, ⟨%d2, H2⟩, ⟨%d3, H3⟩, ⟨%d4, H4⟩, ⟨%d5, H5⟩, %d6, H6⟩
  iapply sound_kernel5 $$ H0 H1 H2 H3 H4 H5 H6
  iintro ⟨H0, H1, H2, H3, H4, H5, H6⟩
  iframe

end Cert.Proof.KB
-- ==== Proof.KB.Body6.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x64 := Rect.unit (s := S5000x64) ![0, 0] S5000x64.size inb_S5000x64_S5000x64_0_0
abbrev r6_1 : Rect S1x64 := Rect.unit (s := S1x64) ![0, 0] S1x64.size inb_S1x64_S1x64_0_0

def out6_5 (x0 : Vec F S5000x64 .f32) (x1 : Vec F S1x64 .f32) (x2 : Vec F S1x64 .f32) (x3 : Vec F S1x64 .f32) (x4 : Vec F S1x64 .f32) : Vec F S5000x64 .f32 :=
  View.canon [⟨r6_0, k6_pay1 (View.ld x0 r6_0) (View.ld x1 r6_1) (View.ld x2 r6_1) (View.ld x3 r6_1) (View.ld x4 r6_1)⟩]

-- the body only reads its inputs, and its one store covers the whole output, which therefore reads as that store's payload
theorem sound_kernel6 {c : Dev nD} {E : Set ℕ} {i : grid6.Coords} {arg1 arg6 : Memref sig .tc .vmem S5000x64 .f32} {arg2 arg3 arg4 arg5 : Memref sig .tc .vmem S1x64 .f32}
    {harg1 : arg1.IsWhole} {harg2 : arg2.IsWhole} {harg3 : arg3.IsWhole} {harg4 : arg4.IsWhole} {harg5 : arg5.IsWhole} {harg6 : arg6.IsWhole}
    {x0 d : Vec F S5000x64 .f32} {x1 x2 x3 x4 : Vec F S1x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare (out6_5 x0 x1 x2 x3 x4) -∗ K ⟨⟩)
        -∗ wp frame (wpE (defs₀ (F := F)) Variants.none c none) E (cc6__bn_lrelu_kernel i arg1 harg1 arg2 harg2 arg3 harg3 arg4 harg4 arg5 harg5 arg6 harg6) K) := by
  simp only [owns_eq_rep c.tc arg1, owns_eq_rep c.tc arg2, owns_eq_rep c.tc arg3, owns_eq_rep c.tc arg4, owns_eq_rep c.tc arg5]
  unfold owns; simp only [cc6__bn_lrelu_kernel_eq_skeleton]; unfold cc6__bn_lrelu_kernel_skel
  iintro H0 H1 H2 H3 H4 ⟨%f5, -, H5⟩ Hk
  sl_exec
  sl_step
  iapply Hk
  iframe H0 H1 H2 H3 H4
  iexists _; isplitr
  swap; · iexact H5
  ipureintro
  simp only [View.readAt_rep]
  exact View.read_writes_eq_canon _ _ _ (View.cover_of_tiled _ S5000x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

-- one case per input window; in each, both sides reduce to the same block of the entry array
theorem before6 (c : Dev nD) : ∀ w, (cfg6.win w).isOut = false → ∀ t d, (dat6 V c).before w t d = (dat6 V c).after w t
  | 0, h, t, d | 1, h, t, d | 2, h, t, d | 3, h, t, d | 4, h, t, d =>
    ((dat6 V c).before_in_eq_fetched _ h (fun _ => rfl) (fun _ _ _ => rfl) (fun _ => rfl) t d).trans rfl
  | 5, h, _, _ => nomatch h

theorem body_obligation6 (c : Dev nD) : BodyObligation (dat6 (F := F) V c) (defs₀ (F := F)) Variants.none () Set.univ := fun t => by
  rw [bigSep_W6, bigSep_W6]
  simp (disch := decide) only [before6 V c]
  show (iprop(?R ∗ ?S ∗ _) : sProp 𝕄) ⊢ wp _ _ _ (bodyAt6 (F := F) t) fun _ => iprop(?R ∗ ?S ∗ _)
  rw [show (dat6 V c).after 5 t = out6_5 ((dat6 V c).after 0 t) ((dat6 V c).after 1 t) ((dat6 V c).after 2 t) ((dat6 V c).after 3 t) ((dat6 V c).after 4 t) by dsimp only [dat6]]
  iintro ⟨HΦ, Ho, ⟨%d0, H0⟩, ⟨%d1, H1⟩, ⟨%d2, H2⟩, ⟨%d3, H3⟩, ⟨%d4, H4⟩, %d5, H5⟩
  iapply sound_kernel6 $$ H0 H1 H2 H3 H4 H5
  iintro ⟨H0, H1, H2, H3, H4, H5⟩
  iframe

end Cert.Proof.KB
-- ==== Proof.KB.Body7.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x320 := Rect.unit ![0, 0] S5000x320.size inb_S5000x320_S5000x320_0_0
abbrev r7_1 : Rect S320x64 := Rect.unit ![0, 0] S320x64.size inb_S320x64_S320x64_0_0
abbrev r7_2 : Rect S1x64 := Rect.unit ![0, 0] S1x64.size inb_S1x64_S1x64_0_0
abbrev r7_3 : Rect S5000x64 := Rect.unit ![0, 0] S5000x64.size inb_S5000x64_S5000x64_0_0

def out7_3 (x0 : Vec F S5000x320 .f32) (x1 : Vec F S320x64 .f32) (x2 : Vec F S1x64 .f32) : Vec F S5000x64 .f32 :=
  View.canon [⟨r7_3, k7_pay1 (View.ld x0 r7_0) (View.ld x1 r7_1) (View.ld x2 r7_2)⟩]

-- By running the body: three whole-block loads, one store covering the output block.
theorem sound_kernel7 {c : Dev nD} {E i arg1 harg1 arg2 harg2 arg3 harg3 arg4 harg4 x0 x1 x2 d} {K : PUnit → sProp 𝕄} :
    ⊢ iprop(owns c.tc arg1 fullShare x0 -∗ owns c.tc arg2 fullShare x1 -∗ owns c.tc arg3 fullShare x2 -∗ owns c.tc arg4 fullShare d
        -∗ (owns c.tc arg1 fullShare x0 ∗ owns c.tc arg2 fullShare x1 ∗ owns c.tc arg3 fullShare x2 ∗ owns c.tc arg4 fullShare (out7_3 x0 x1 x2) -∗ K ⟨⟩)
        -∗ wp frame (wpE (defs₀ (F := F)) Variants.none c none) E (cc7__linear_kernel i arg1 harg1 arg2 harg2 arg3 harg3 arg4 harg4) K) := by
  simp only [cc7__linear_kernel_eq_skeleton, owns_eq_rep c.tc arg1, owns_eq_rep c.tc arg2, owns_eq_rep c.tc arg3]; unfold cc7__linear_kernel_skel owns
  iintro H0 H1 H2 ⟨%f3, -, H3⟩ Hk
  sl_exec
  sl_step
  iapply Hk
  iframe H0 H1 H2
  iexists _; isplitr
  swap; · iexact H3
  ipureintro
  simp only [View.readAt_rep]
  exact View.read_writes_eq_canon _ _ _ (View.cover_of_tiled _ S5000x64.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) : (dat7 V c).after 3 t = out7_3 (iblk7 V c 0 t) (iblk7 V c 1 t) (iblk7 V c 2 t) := by dsimp only [dat7]

-- The body leaves an input window's block in place, so what it finds there is what it leaves.
theorem before7 (c : Dev nD) : ∀ w, (cfg7.win w).isOut = false → ∀ t d, (dat7 V c).before w t d = (dat7 V c).after w t
  | 0, h, t, d | 1, h, t, d | 2, h, t, d =>
    (dat7 V c).before_in_eq_fetched _ h (fun _ => rfl) (fun _ _ _ => rfl) (fun _ => rfl) t d
  | 3, h, _, _ => nomatch h

theorem body_obligation7 (c : Dev nD) : BodyObligation (dat7 (F := F) V c) (defs₀ (F := F)) Variants.none () Set.univ := fun t => by
  rw [bigSep_W7, bigSep_W7]
  simp only [before7 V c 0 rfl, before7 V c 1 rfl, before7 V c 2 rfl]
  show (iprop(?R ∗ ?S ∗ _) : sProp 𝕄) ⊢ wp _ _ _ (bodyAt7 (F := F) t) fun _ => iprop(?R ∗ ?S ∗ _)
  rw [show (dat7 V c).after 3 t = out7_3 ((dat7 V c).after 0 t) ((dat7 V c).after 1 t) ((dat7 V c).after 2 t) by dsimp only [dat7]]
  iintro ⟨HΦ, Ho, ⟨%d0, H0⟩, ⟨%d1, H1⟩, ⟨%d2, H2⟩, %d3, H3⟩
  iapply sound_kernel7 $$ H0 H1 H2 H3
  iintro ⟨H0, H1, H2, H3⟩
  iframe

end Cert.Proof.KB
-- ==== Proof.KB.Body8.lean ====
import proofs.«431052_j82222853914919_1_alg».proof.Proof.Gen.Kernel.Launch
import proofs.«431052_j82222853914919_1_alg».proof.Proof.Gen.Kernel.Skeleton
import proofs.«431052_j82222853914919_1_alg».proof.Proof.Gen.Kernel.Points
import Idealize.ShloMosaic.Lib.Pipeline.FrameBody
import Idealize.ShloMosaic.Lib.Pipeline.TableIdle
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x64 := Rect.unit ![0, 0] S5000x64.size inb_S5000x64_S5000x64_0_0
abbrev r8_1 : Rect S1x64 := Rect.unit ![0, 0] S1x64.size inb_S1x64_S1x64_0_0
abbrev r8_2 : Rect S64x1 := Rect.unit ![0, 0] S64x1.size inb_S64x1_S64x1_0_0
abbrev r8_3 : Rect S1x1 := Rect.unit ![0, 0] S1x1.size inb_S1x1_S1x1_0_0
abbrev r8_4 : Rect S5000x1 := Rect.unit ![0, 0] S5000x1.size inb_S5000x1_S5000x1_0_0

def out8_7 (x0 : Vec F S5000x64 .f32) (x1 : Vec F S1x64 .f32) (x2 : Vec F S1x64 .f32) (x3 : Vec F S1x64 .f32) (x4 : Vec F S1x64 .f32) (x5 : Vec F S64x1 .f32) (x6 : Vec F S1x1 .f32) : Vec F S5000x1 .f32 :=
  View.canon [⟨r8_4, k8_pay1 (View.ld x0 r8_0) (View.ld x1 r8_1) (View.ld x2 r8_1) (View.ld x3 r8_1) (View.ld x4 r8_1) (View.ld x5 r8_2) (View.ld x6 r8_3)⟩]

-- By running the body: seven whole-block loads, one store covering the output block.
theorem sound_kernel8 {c : Dev nD} {E i arg1 harg1 arg2 harg2 arg3 harg3 arg4 harg4 arg5 harg5 arg6 harg6 arg7 harg7 arg8 harg8 x0 x1 x2 x3 x4 x5 x6 d} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare x6 -∗ owns c.tc arg8 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare (out8_7 x0 x1 x2 x3 x4 x5 x6) -∗ K ⟨⟩)
        -∗ wp frame (wpE (defs₀ (F := F)) Variants.none c none) E (cc8__fc_bn_sigmoid_kernel i arg1 harg1 arg2 harg2 arg3 harg3 arg4 harg4 arg5 harg5 arg6 harg6 arg7 harg7 arg8 harg8) K) := by
  simp only [cc8__fc_bn_sigmoid_kernel_eq_skeleton, owns_eq_rep c.tc arg1, owns_eq_rep c.tc arg2, owns_eq_rep c.tc arg3, owns_eq_rep c.tc arg4, owns_eq_rep c.tc arg5, owns_eq_rep c.tc arg6, owns_eq_rep c.tc arg7]; unfold cc8__fc_bn_sigmoid_kernel_skel owns
  iintro H0 H1 H2 H3 H4 H5 H6 ⟨%f7, -, H7⟩ Hk
  sl_exec
  sl_step
  iapply Hk
  iframe H0 H1 H2 H3 H4 H5 H6
  iexists _; isplitr
  swap; · iexact H7
  ipureintro
  simp only [View.readAt_rep]
  exact View.read_writes_eq_canon _ _ _ (View.cover_of_tiled _ S5000x1.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := rfl

theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

-- The body leaves an input window's block in place, so what it finds there is what it leaves.
theorem before8 (c : Dev nD) : ∀ w, (cfg8.win w).isOut = false → ∀ t d, (dat8 V c).before w t d = (dat8 V c).after w t
  | 0, h, t, d | 1, h, t, d | 2, h, t, d | 3, h, t, d | 4, h, t, d | 5, h, t, d | 6, h, t, d =>
    (dat8 V c).before_in_eq_fetched _ h (fun _ => rfl) (fun _ _ _ => rfl) (fun _ => rfl) t d
  | 7, h, _, _ => nomatch h

theorem body_obligation8 (c : Dev nD) : BodyObligation (dat8 (F := F) V c) (defs₀ (F := F)) Variants.none () Set.univ := fun t => by
  rw [bigSep_W8, bigSep_W8]
  simp only [before8 V c 0 rfl, before8 V c 1 rfl, before8 V c 2 rfl, before8 V c 3 rfl, before8 V c 4 rfl, before8 V c 5 rfl, before8 V c 6 rfl]
  show (iprop(?R ∗ ?S ∗ _) : sProp 𝕄) ⊢ wp _ _ _ (bodyAt8 (F := F) t) fun _ => iprop(?R ∗ ?S ∗ _)
  rw [show (dat8 V c).after 7 t = out8_7 ((dat8 V c).after 0 t) ((dat8 V c).after 1 t) ((dat8 V c).after 2 t) ((dat8 V c).after 3 t) ((dat8 V c).after 4 t) ((dat8 V c).after 5 t) ((dat8 V c).after 6 t) by dsimp only [dat8]]
  iintro ⟨HΦ, Ho, ⟨%d0, H0⟩, ⟨%d1, H1⟩, ⟨%d2, H2⟩, ⟨%d3, H3⟩, ⟨%d4, H4⟩, ⟨%d5, H5⟩, ⟨%d6, H6⟩, %d7, H7⟩
  iapply sound_kernel8 $$ H0 H1 H2 H3 H4 H5 H6 H7
  iintro ⟨H0, H1, H2, H3, H4, H5, H6, H7⟩
  iframe

end Cert.Proof.KB
-- ==== Proof.KB.Run.lean ====
import proofs.«431052_j82222853914919_1_alg».proof.Proof.Gen.Kernel.Regions
import proofs.«431052_j82222853914919_1_alg».proof.Proof.KB.Body0
import proofs.«431052_j82222853914919_1_alg».proof.Proof.KB.Body1
import proofs.«431052_j82222853914919_1_alg».proof.Proof.KB.Body2
import proofs.«431052_j82222853914919_1_alg».proof.Proof.KB.Body3
import proofs.«431052_j82222853914919_1_alg».proof.Proof.KB.Body4
import proofs.«431052_j82222853914919_1_alg».proof.Proof.KB.Body5
import proofs.«431052_j82222853914919_1_alg».proof.Proof.KB.Body6
import proofs.«431052_j82222853914919_1_alg».proof.Proof.KB.Body7
import proofs.«431052_j82222853914919_1_alg».proof.Proof.KB.Body8
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
section

variable (c : Dev nD)

def W1 : Valuation τ sig (Elt F) := StableHlo.after hostOps0 (Gen.V0 m c)
def o2 : Buf (Elt F) ((c : Thread nD τ).loc main_v6) := (dat0 (fun c b => W1 m c b) c).arrAt 4 cfg0.N
def W2 : Valuation τ sig (Elt F) := Function.update (W1 m c) main_v6 (o2 m c)
def W3 : Valuation τ sig (Elt F) := StableHlo.after hostOps1 (W2 m c)
def o4 : Buf (Elt F) ((c : Thread nD τ).loc main_v21) := (dat1 (fun c b => W3 m c b) c).arrAt 6 cfg1.N
def W4 : Valuation τ sig (Elt F) := Function.update (W3 m c) main_v21 (o4 m c)
def W7 : Valuation τ sig (Elt F) := StableHlo.after hostOps2_2 (StableHlo.after hostOps2_1 (StableHlo.after hostOps2 (W4 m c)))
def W8 : Valuation τ sig (Elt F) := Function.update (W7 m c) main_v30 ((dat2 (fun c b => W7 m c b) c).arrAt 5 cfg2.N)
def W9 : Valuation τ sig (Elt F) := StableHlo.after hostOps3 (W8 m c)
def W10 : Valuation τ sig (Elt F) := Function.update (W9 m c) main_v45 ((dat3 (fun c b => W9 m c b) c).arrAt 6 cfg3.N)
def W13 : Valuation τ sig (Elt F) := StableHlo.after hostOps4_2 (StableHlo.after hostOps4_1 (StableHlo.after hostOps4 (W10 m c)))
def W14 : Valuation τ sig (Elt F) := Function.update (W13 m c) main_v54 ((dat4 (fun c b => W13 m c b) c).arrAt 5 cfg4.N)
def W15 : Valuation τ sig (Elt F) := StableHlo.after hostOps5 (W14 m c)
def W16 : Valuation τ sig (Elt F) := Function.update (W15 m c) main_v69 ((dat5 (fun c b => W15 m c b) c).arrAt 6 cfg5.N)
def W19 : Valuation τ sig (Elt F) := StableHlo.after hostOps6_2 (StableHlo.after hostOps6_1 (StableHlo.after hostOps6 (W16 m c)))
def W20 : Valuation τ sig (Elt F) := Function.update (W19 m c) main_v78 ((dat6 (fun c b => W19 m c b) c).arrAt 5 cfg6.N)
def W21 : Valuation τ sig (Elt F) := StableHlo.after hostOps7 (W20 m c)
def W22 : Valuation τ sig (Elt F) := Function.update (W21 m c) main_v82 ((dat7 (fun c b => W21 m c b) c).arrAt 3 cfg7.N)
def W25 : Valuation τ sig (Elt F) := StableHlo.after hostOps8_2 (StableHlo.after hostOps8_1 (StableHlo.after hostOps8 (W22 m c)))
def W26 : Valuation τ sig (Elt F) := Function.update (W25 m c) main_v93 ((dat8 (fun c b => W25 m c b) c).arrAt 7 cfg8.N)

def outs : Gen.Outs (F := F) := fun J r c =>
  match J with
  | 2 => W2 m c r
  | 4 => W4 m c r
  | 8 => W8 m c r
  | 10 => W10 m c r
  | 14 => W14 m c r
  | 16 => W16 m c r
  | 20 => W20 m c r
  | 22 => W22 m c r
  | _ => W26 m c r

theorem upd_eq {α : Type} [DecidableEq α] {β : α → Type} {f g : (a : α) → β a} (a : α) (v : β a) (h : f = g) :
    Function.update f a (Function.update g a v a) = Function.update g a v := by rw [Function.update_self, h]

theorem out_eq {Vin Win : Dev nD → Valuation τ sig (Elt F)} (h : ∀ c, Vin c = Win c) (r : Ref sig .tc)
    (D : ((c : Dev nD) → (b : Ref sig .tc) → Buf (Elt F) ((c : Thread nD τ).loc b)) → (c : Dev nD) → Buf (Elt F) ((c : Thread nD τ).loc r))
    (c : Dev nD) : Function.update (Win c) r (D (fun c b => Win c b) c) r = D (fun c b => Vin c b) c := by
  rw [Function.update_self, show Vin = Win from funext h]

theorem V1_eq : Gen.V1 m c = W1 m c := rfl
theorem V3_eq : Gen.V3 m (outs m) c = W3 m c := congrArg (StableHlo.after hostOps1) (upd_eq _ _ (V1_eq m c))
theorem V7_eq : Gen.V7 m (outs m) c = W7 m c := congrArg (fun W => StableHlo.after hostOps2_2 (StableHlo.after hostOps2_1 (StableHlo.after hostOps2 W))) (upd_eq _ _ (V3_eq m c))
theorem V9_eq : Gen.V9 m (outs m) c = W9 m c := congrArg (StableHlo.after hostOps3) (upd_eq _ _ (V7_eq m c))
theorem V13_eq : Gen.V13 m (outs m) c = W13 m c := congrArg (fun W => StableHlo.after hostOps4_2 (StableHlo.after hostOps4_1 (StableHlo.after hostOps4 W))) (upd_eq _ _ (V9_eq m c))
theorem V15_eq : Gen.V15 m (outs m) c = W15 m c := congrArg (StableHlo.after hostOps5) (upd_eq _ _ (V13_eq m c))
theorem V19_eq : Gen.V19 m (outs m) c = W19 m c := congrArg (fun W => StableHlo.after hostOps6_2 (StableHlo.after hostOps6_1 (StableHlo.after hostOps6 W))) (upd_eq _ _ (V15_eq m c))
theorem V21_eq : Gen.V21 m (outs m) c = W21 m c := congrArg (StableHlo.after hostOps7) (upd_eq _ _ (V19_eq m c))
theorem V25_eq : Gen.V25 m (outs m) c = W25 m c := congrArg (fun W => StableHlo.after hostOps8_2 (StableHlo.after hostOps8_1 (StableHlo.after hostOps8 W))) (upd_eq _ _ (V21_eq m c))
theorem outs_2 : outs m 2 main_v6 c = (dat0 (fun c b => Gen.V1 m c b) c).arrAt 4 cfg0.N :=
  out_eq (V1_eq m) main_v6 (fun V c => (dat0 V c).arrAt 4 cfg0.N) c
theorem outs_4 : outs m 4 main_v21 c = (dat1 (fun c b => Gen.V3 m (outs m) c b) c).arrAt 6 cfg1.N :=
  out_eq (V3_eq m) main_v21 (fun V c => (dat1 V c).arrAt 6 cfg1.N) c
theorem outs_8 : outs m 8 main_v30 c = (dat2 (fun c b => Gen.V7 m (outs m) c b) c).arrAt 5 cfg2.N :=
  out_eq (V7_eq m) main_v30 (fun V c => (dat2 V c).arrAt 5 cfg2.N) c
theorem outs_10 : outs m 10 main_v45 c = (dat3 (fun c b => Gen.V9 m (outs m) c b) c).arrAt 6 cfg3.N :=
  out_eq (V9_eq m) main_v45 (fun V c => (dat3 V c).arrAt 6 cfg3.N) c
theorem outs_14 : outs m 14 main_v54 c = (dat4 (fun c b => Gen.V13 m (outs m) c b) c).arrAt 5 cfg4.N :=
  out_eq (V13_eq m) main_v54 (fun V c => (dat4 V c).arrAt 5 cfg4.N) c
theorem outs_16 : outs m 16 main_v69 c = (dat5 (fun c b => Gen.V15 m (outs m) c b) c).arrAt 6 cfg5.N :=
  out_eq (V15_eq m) main_v69 (fun V c => (dat5 V c).arrAt 6 cfg5.N) c
theorem outs_20 : outs m 20 main_v78 c = (dat6 (fun c b => Gen.V19 m (outs m) c b) c).arrAt 5 cfg6.N :=
  out_eq (V19_eq m) main_v78 (fun V c => (dat6 V c).arrAt 5 cfg6.N) c
theorem outs_22 : outs m 22 main_v82 c = (dat7 (fun c b => Gen.V21 m (outs m) c b) c).arrAt 3 cfg7.N :=
  out_eq (V21_eq m) main_v82 (fun V c => (dat7 V c).arrAt 3 cfg7.N) c
theorem outs_26 : outs m 26 main_v93 c = (dat8 (fun c b => Gen.V25 m (outs m) c b) c).arrAt 7 cfg8.N :=
  out_eq (V25_eq m) main_v93 (fun V c => (dat8 V c).arrAt 7 cfg8.N) c

end

def pdats : (p : Fin 9) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
  | ⟨2, _⟩ => fun c => dat2 (fun c b => Gen.V7 m (outs m) c b) c
  | ⟨3, _⟩ => fun c => dat3 (fun c b => Gen.V9 m (outs m) c b) c
  | ⟨4, _⟩ => fun c => dat4 (fun c b => Gen.V13 m (outs m) c b) c
  | ⟨5, _⟩ => fun c => dat5 (fun c b => Gen.V15 m (outs m) c b) c
  | ⟨6, _⟩ => fun c => dat6 (fun c b => Gen.V19 m (outs m) c b) c
  | ⟨7, _⟩ => fun c => dat7 (fun c b => Gen.V21 m (outs m) c b) c
  | ⟨8, _⟩ => fun c => dat8 (fun c b => Gen.V25 m (outs m) c b) c

abbrev runVar : Variants := Variants.none
abbrev runL : GSem nD τ sig → Finset Unit := fun _ => ∅
abbrev runLv : GSem nD τ sig → Unit → ℕ := fun _ _ => 0
abbrev rideR (c : Dev nD) : sProp 𝕄 := iprop((∃ r, prngReg c r) ∗ ∃ W, owes (c : Thread nD τ) (0 : CellTallies nD τ sig Unit) W)
abbrev rideE : Fin 10 → Dev nD → sProp 𝕄 := fun _ c => rideR (F := F) c

theorem result_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- Wout agrees with Win off the one output array, so the exit state is the entry state with that array replaced.
def mkReg (pd : (p : Fin 9) → (c : Dev nD) → Dat τ (Elt F) Unit ℕ (UR sig nD τ) ℕ (cfgs p) c) (p : Fin 9)
    (launch : Pipeline.LaunchFacts (nD := nD) (τ := τ) cfgs p)
    (hbody : ∀ c, BodyObligation (pd p c) (defs₀ (F := F)) Variants.none () Set.univ)
    (Win Wout : Dev nD → Valuation τ sig (Elt F)) (ow : Fin (cfgs p).W)
    (hin : ∀ w, w ≠ ow → ((cfgs p).win w).isOut = false ∧ Pipeline.arrRef (cfgs p).spec w ≠ Pipeline.arrRef (cfgs p).spec ow)
    (hFo : ∀ c, Wout c (Pipeline.arrRef (cfgs p).spec ow) = (pd p c).arrAt ow (cfgs p).N)
    (hne : ∀ c (b : Ref sig .tc), b ≠ Pipeline.arrRef (cfgs p).spec ow → Wout c b = Win c b)
    (hA : ∀ c w, (pd p c).A w = Win c (Pipeline.arrRef (cfgs p).spec w))
    (hΦ : ∀ c t, (pd p c).Φ t = Pipeline.ΦA (cfgs p).spec c)
    (hq : ∀ c w, (pd p c).q w = fullShare)
    (howed : ∀ c t, (pd p c).owed t = 0)
    (hrec : ∀ c t, (pd p c).recorded t = Set.univ) :
    Pipeline.RegionSeg (pcfgs (F := F)) Gen.adm pd () defs₀ runVar runL runLv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Win c) ∗ rideR c)
  post c := iprop(StableHlo.held (c : Thread nD τ) (Pipeline.ucRefs τ sig) (Wout c) ∗ rideR c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) Gen.adm pd launch.win launch.arr_whole c
      ((pd p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hF : ∀ w, (pd p c).arrAt w (cfgs p).N = Wout c (Pipeline.arrRef (cfgs p).spec w) := fun w => by
      by_cases h : w = ow
      · subst h; exact (hFo c).symm
      · exact ((pd p c).arrAt_in w (hin w h).1 _).trans ((hA c w).trans (hne c _ (hin w h).2).symm)
    have hrest : ∀ b : Ref sig .tc, b ∉ Finset.univ.image (Pipeline.arrRef (cfgs p).spec) → Wout c b = Win c b := fun b hb =>
      hne c b fun h => hb (Finset.mem_image.mpr ⟨ow, Finset.mem_univ _, h.symm⟩)
    have hjoin := Pipeline.unscopedBufs_of_arrays (p := p) (pcfgs (F := F)) Gen.adm (Ix := Unit) (Name := ℕ) (U := UR sig nD τ) (Lvl := ℕ)
      launch.win launch.arr_whole c pd ((pd p c).share_full (hq c))
      (fun b => Win c b) (fun b => Wout c b) ((pd p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem launch_u₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

abbrev Reg (p : Fin 9) := Pipeline.RegionSeg (pcfgs (F := F)) Gen.adm (pdats m) () defs₀ runVar runL runLv p

def reg0 : Reg m 0 :=
  mkReg (pdats m) 0 launch0 (fun c => body_obligation0 (fun c b => Gen.V1 m c b) c) (Gen.V1 m) (Gen.V2 m (outs m)) 4 (by decide)
    (fun c => (show Gen.V2 m (outs m) c main_v6 = _ from Function.update_self ..).trans (outs_2 m c))
    (fun _ _ hb => Function.update_of_ne (StableHlo.devRef_ne_of_ne hb) ..)
    (fun _ _ => rfl) (fun _ _ => rfl) (fun _ _ => rfl) (fun _ _ => rfl) (fun _ _ => rfl)
def reg1 : Reg m 1 :=
  mkReg (pdats m) 1 launch1 (fun c => body_obligation1 (fun c b => Gen.V3 m (outs m) c b) c) (Gen.V3 m (outs m)) (Gen.V4 m (outs m)) 6 (by decide)
    (fun c => (show Gen.V4 m (outs m) c main_v21 = _ from Function.update_self ..).trans (outs_4 m c))
    (fun _ _ hb => Function.update_of_ne (StableHlo.devRef_ne_of_ne hb) ..)
    (fun _ _ => rfl) (fun _ _ => rfl) (fun _ _ => rfl) (fun _ _ => rfl) (fun _ _ => rfl)
def reg2 : Reg m 2 :=
  mkReg (pdats m) 2 launch2 (fun c => body_obligation2 (fun c b => Gen.V7 m (outs m) c b) c) (Gen.V7 m (outs m)) (Gen.V8 m (outs m)) 5 (by decide)
    (fun c => (show Gen.V8 m (outs m) c main_v30 = _ from Function.update_self ..).trans (outs_8 m c))
    (fun _ _ hb => Function.update_of_ne (StableHlo.devRef_ne_of_ne hb) ..)
    (fun _ _ => rfl) (fun _ _ => rfl) (fun _ _ => rfl) (fun _ _ => rfl) (fun _ _ => rfl)
def reg3 : Reg m 3 :=
  mkReg (pdats m) 3 launch3 (fun c => body_obligation3 (fun c b => Gen.V9 m (outs m) c b) c) (Gen.V9 m (outs m)) (Gen.V10 m (outs m)) 6 (by decide)
    (fun c => (show Gen.V10 m (outs m) c main_v45 = _ from Function.update_self ..).trans (outs_10 m c))
    (fun _ _ hb => Function.update_of_ne (StableHlo.devRef_ne_of_ne hb) ..)
    (fun _ _ => rfl) (fun _ _ => rfl) (fun _ _ => rfl) (fun _ _ => rfl) (fun _ _ => rfl)
def reg4 : Reg m 4 :=
  mkReg (pdats m) 4 launch4 (fun c => body_obligation4 (fun c b => Gen.V13 m (outs m) c b) c) (Gen.V13 m (outs m)) (Gen.V14 m (outs m)) 5 (by decide)
    (fun c => (show Gen.V14 m (outs m) c main_v54 = _ from Function.update_self ..).trans (outs_14 m c))
    (fun _ _ hb => Function.update_of_ne (StableHlo.devRef_ne_of_ne hb) ..)
    (fun _ _ => rfl) (fun _ _ => rfl) (fun _ _ => rfl) (fun _ _ => rfl) (fun _ _ => rfl)
def reg5 : Reg m 5 :=
  mkReg (pdats m) 5 launch5 (fun c => body_obligation5 (fun c b => Gen.V15 m (outs m) c b) c) (Gen.V15 m (outs m)) (Gen.V16 m (outs m)) 6 (by decide)
    (fun c => (show Gen.V16 m (outs m) c main_v69 = _ from Function.update_self ..).trans (outs_16 m c))
    (fun _ _ hb => Function.update_of_ne (StableHlo.devRef_ne_of_ne hb) ..)
    (fun _ _ => rfl) (fun _ _ => rfl) (fun _ _ => rfl) (fun _ _ => rfl) (fun _ _ => rfl)
def reg6 : Reg m 6 :=
  mkReg (pdats m) 6 launch6 (fun c => body_obligation6 (fun c b => Gen.V19 m (outs m) c b) c) (Gen.V19 m (outs m)) (Gen.V20 m (outs m)) 5 (by decide)
    (fun c => (show Gen.V20 m (outs m) c main_v78 = _ from Function.update_self ..).trans (outs_20 m c))
    (fun _ _ hb => Function.update_of_ne (StableHlo.devRef_ne_of_ne hb) ..)
    (fun _ _ => rfl) (fun _ _ => rfl) (fun _ _ => rfl) (fun _ _ => rfl) (fun _ _ => rfl)
def reg7 : Reg m 7 :=
  mkReg (pdats m) 7 launch7 (fun c => body_obligation7 (fun c b => Gen.V21 m (outs m) c b) c) (Gen.V21 m (outs m)) (Gen.V22 m (outs m)) 3 (by decide)
    (fun c => (show Gen.V22 m (outs m) c main_v82 = _ from Function.update_self ..).trans (outs_22 m c))
    (fun _ _ hb => Function.update_of_ne (StableHlo.devRef_ne_of_ne hb) ..)
    (fun _ _ => rfl) (fun _ _ => rfl) (fun _ _ => rfl) (fun _ _ => rfl) (fun _ _ => rfl)
def reg8 : Reg m 8 :=
  mkReg (pdats m) 8 launch8 (fun c => body_obligation8 (fun c b => Gen.V25 m (outs m) c b) c) (Gen.V25 m (outs m)) (Gen.V26 m (outs m)) 7 (by decide)
    (fun c => (show Gen.V26 m (outs m) c main_v93 = _ from Function.update_self ..).trans (outs_26 m c))
    (fun _ _ hb => Function.update_of_ne (StableHlo.devRef_ne_of_ne hb) ..)
    (fun _ _ => rfl) (fun _ _ => rfl) (fun _ _ => rfl) (fun _ _ => rfl) (fun _ _ => rfl)

abbrev runSegs (c : Dev nD) : List (Pipeline.Seg (pcfgs (F := F)) Gen.adm (pdats m) () defs₀ runVar runL runLv) :=
  Gen.segs m (outs m) runVar runL runLv rideE () (pdats m) (reg0 m) (reg1 m) (reg2 m) (reg3 m) (reg4 m) (reg5 m) (reg6 m) (reg7 m) (reg8 m) c

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

theorem V27_args (c : Dev nD) : args.Forall fun b : Ref sig .tc => Gen.V27 m (outs m) c b = m ((c.tc : Thread nD τ).loc b) := by
  and_intros
  exacts [V27_main_arg0 m _ c, V27_main_arg1 m _ c, V27_main_arg2 m _ c, V27_main_arg3 m _ c, V27_main_arg4 m _ c, V27_main_arg5 m _ c, V27_main_arg6 m _ c, V27_main_arg7 m _ c, V27_main_arg8 m _ c, V27_main_arg9 m _ c, V27_main_arg10 m _ c, V27_main_arg11 m _ c, V27_main_arg12 m _ c, V27_main_arg13 m _ c, V27_main_arg14 m _ c, V27_main_arg15 m _ c, V27_main_arg16 m _ c, V27_main_arg17 m _ c, V27_main_arg18 m _ c, V27_main_arg19 m _ c, V27_main_arg20 m _ c, V27_main_arg21 m _ c, V27_main_arg22 m _ c, V27_main_arg23 m _ c, V27_main_arg24 m _ c, V27_main_arg25 m _ c, V27_main_arg26 m _ c, V27_main_arg27 m _ c, V27_main_arg28 m _ c]

set_option backward.isDefEq.respectTransparency.types false in
-- Every weakly fair execution of @main ends with the result at the last boundary's contents and every argument as launched.
theorem run (ρ : Dev nD → PrngReg) : θ_run defs (onTc (τ := τ) (main (F := F))) ⟨m, fun _ => 0, ρ⟩ fun r => ∀ c : Dev nD,
    r.2.mem ((c.tc : Thread nD τ).loc main_v94) = Gen.V27 m (outs m) c main_v94 ∧
      args.Forall fun b : Ref sig .tc => r.2.mem ((c.tc : Thread nD τ).loc b) = m ((c.tc : Thread nD τ).loc b) := by
  refine Pipeline.θ_run_regions_kit_dev (pcfgs (F := F)) Gen.adm (pdats m) () cellOf_inj emb₁ defs₀ runVar runL runLv m ρ main
    (runSegs m)
    (fun c Q => by
      rw [(main_chain c).trans ((congrArg Pipeline.chain (rfl : _ = (runSegs m c).map Pipeline.Seg.prog)).trans (Pipeline.Seg.run_eq_chain _).symm)])
    (fun c => by simp only [runSegs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_u₀)
    (T₀ := fun c => iprop(StableHlo.held (c : Thread nD τ) (Pipeline.ucRefs τ sig) (Gen.V0 m c) ∗ rideR c))
    (Tₙ := fun c => StableHlo.held (c : Thread nD τ) (Pipeline.ucRefs τ sig) (Gen.V27 m (outs m) c))
    (hch := fun c => ⟨.rfl, .rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, sep_mono .rfl (by iintro ⟨-, H⟩; iexact H)⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V27 m (outs m) c b)
    (hfin := fun c s' => by
      iintro ⟨Hh, HSI⟩
      unfold StableHlo.held
      imodintro
      iapply (pointsTo_read_all (Pipeline.ucRefs τ sig) (fun b => (((c : Thread nD τ)).1, b)) (Gen.V27 m (outs m) c) s')
      isplitl [Hh] <;> iassumption)
    (hQ := fun s h c =>
      ⟨h c _ (result_mem main_v94 (by decide)), List.forall_iff_forall_mem.2 fun b hm =>
        (h c _ (result_mem b ((by decide : ∀ b ∈ args, ¬ (Proc.devRef .tc b : DevRef τ sig).isScoped) b hm))).trans
          (List.forall_iff_forall_mem.1 (V27_args m c) b hm)⟩)

end Cert.Proof.KB

end
-- ==== Proof.KI.Body0.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Ring
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x1 := Rect.unit (s := S5000x1) ![0, 0] S5000x1.size inb_S5000x1_S5000x1_0_0
abbrev r0_1 : Rect S64x64 := Rect.unit (s := S64x64) ![0, 0] S64x64.size inb_S64x64_S64x64_0_0
abbrev r0_2 : Rect S16x64 := Rect.unit (s := S16x64) ![0, 0] S16x64.size inb_S16x64_S16x64_0_0
abbrev r0_3 : Rect S5000x128 := Rect.unit (s := S5000x128) ![0, 0] S5000x64.size inb_S5000x128_S5000x64_0_0
abbrev r0_4 : Rect S5000x128 := Rect.unit (s := S5000x128) ![0, 64] S5000x64.size inb_S5000x128_S5000x64_0_64

def out0_4 (x0 : Vec F S5000x1 .i32) (x1 : Vec F S5000x1 .i32) (x2 : Vec F S64x64 .f32) (x3 : Vec F S16x64 .f32) : Vec F S5000x128 .f32 :=
  View.canon [⟨r0_4, k0_pay2 (View.ld x1 r0_0) (View.ld x3 r0_2)⟩,
    ⟨r0_3, k0_pay1 (View.ld x0 r0_0) (View.ld x2 r0_1)⟩]

theorem cover0_4 (p0 : Vec F S5000x64 .f32) (p1 : Vec F S5000x64 .f32) (y : S5000x128.Idx) :
    ∃ pc ∈ ([⟨r0_4, p0⟩, ⟨r0_3, p1⟩] : List (View.Piece (Elt F) S5000x128 .f32)), y ∈ pc.1.set :=
  View.cover_of_tiled [⟨r0_4, p0⟩, ⟨r0_3, p1⟩] S5000x64.size (by rfl) y

-- By running the body: four whole-block loads, two stores tiling the output block.
theorem sound_kernel0 {c : Dev nD} {E i arg1 harg1 arg2 harg2 arg3 harg3 arg4 harg4 arg5 harg5 x0 x1 x2 x3 d} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare d
        -∗ (owns c.tc arg1 fullShare x0 ∗ owns c.tc arg2 fullShare x1 ∗ owns c.tc arg3 fullShare x2 ∗ owns c.tc arg4 fullShare x3 ∗ owns c.tc arg5 fullShare (out0_4 x0 x1 x2 x3) -∗ K ⟨⟩)
        -∗ wp frame (wpE (defs₀ (F := F)) Variants.none c none) E (cc0__embed_kernel i arg1 harg1 arg2 harg2 arg3 harg3 arg4 harg4 arg5 harg5) K) := by
  simp only [cc0__embed_kernel_eq_skeleton, owns_eq_rep c.tc arg1, owns_eq_rep c.tc arg2, owns_eq_rep c.tc arg3, owns_eq_rep c.tc arg4]; unfold cc0__embed_kernel_skel owns
  iintro H0 H1 H2 H3 ⟨%f4, -, H4⟩ Hk
  sl_exec
  sl_step
  iapply Hk
  iframe H0 H1 H2 H3
  iexists _; isplitr
  swap; · iexact H4
  ipureintro
  simp only [View.readAt_rep]
  exact View.read_writes_eq_canon _ _ _ (cover0_4 _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = out0_4 (iblk0 V c 0 t) (iblk0 V c 1 t) (iblk0 V c 2 t) (iblk0 V c 3 t) := by dsimp only [dat0]

-- The body leaves an input window's block in place, so what it finds there is what it leaves.
theorem before0 (c : Dev nD) : ∀ w, (cfg0.win w).isOut = false → ∀ t d, (dat0 V c).before w t d = (dat0 V c).after w t
  | 0, h, t, d | 1, h, t, d | 2, h, t, d | 3, h, t, d =>
    (dat0 V c).before_in_eq_fetched _ h (fun _ => rfl) (fun _ _ _ => rfl) (fun _ => rfl) t d
  | 4, h, _, _ => nomatch h

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl, before0 V c 3 rfl]
  show (iprop(?R ∗ ?S ∗ _) : sProp 𝕄) ⊢ wp _ _ _ (bodyAt0 (F := F) t) fun _ => iprop(?R ∗ ?S ∗ _)
  rw [show (dat0 V c).after 4 t = out0_4 ((dat0 V c).after 0 t) ((dat0 V c).after 1 t) ((dat0 V c).after 2 t) ((dat0 V c).after 3 t) by dsimp only [dat0]]
  iintro ⟨HΦ, Ho, ⟨%d0, H0⟩, ⟨%d1, H1⟩, ⟨%d2, H2⟩, ⟨%d3, H3⟩, %d4, H4⟩
  iapply sound_kernel0 $$ H0 H1 H2 H3 H4
  iintro ⟨H0, H1, H2, H3, H4⟩
  iframe

end Cert.Proof.KI
-- ==== Proof.KI.Body1.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S5000x64 := Rect.unit (s := S5000x64) ![0, 0] S5000x64.size inb_S5000x64_S5000x64_0_0

def out1_6 (x0 : Vec F S5000x128 .f32) (x1 : Vec F S5000x128 .f32) (x2 : Vec F S128x128 .f32) (x3 : Vec F S1x128 .f32)
    (x4 : Vec F S128x64 .f32) (x5 : Vec F S1x64 .f32) : Vec F S5000x64 .f32 :=
  View.canon [⟨r1_5, k1_pay1 (View.ld x0 r1_0) (View.ld x1 r1_0) (View.ld x2 r1_1) (View.ld x3 r1_2) (View.ld x4 r1_3) (View.ld x5 r1_4)⟩]

set_option maxHeartbeats 1000000 in
-- the body only reads its inputs, and its one store covers the whole output, which therefore reads as that store's payload
theorem sound_kernel1 {c : Dev nD} {E : Set ℕ} {i : grid1.Coords} {arg1 arg2 : Memref sig .tc .vmem S5000x128 .f32} {arg3 : Memref sig .tc .vmem S128x128 .f32}
    {arg4 : Memref sig .tc .vmem S1x128 .f32} {arg5 : Memref sig .tc .vmem S128x64 .f32} {arg6 : Memref sig .tc .vmem S1x64 .f32} {arg7 : Memref sig .tc .vmem S5000x64 .f32}
    {harg1 : arg1.IsWhole} {harg2 : arg2.IsWhole} {harg3 : arg3.IsWhole} {harg4 : arg4.IsWhole} {harg5 : arg5.IsWhole} {harg6 : arg6.IsWhole} {harg7 : arg7.IsWhole}
    {x0 x1 : Vec F S5000x128 .f32} {x2 : Vec F S128x128 .f32} {x3 : Vec F S1x128 .f32} {x4 : Vec F S128x64 .f32} {x5 : Vec F S1x64 .f32} {d : Vec F S5000x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out1_6 x0 x1 x2 x3 x4 x5) -∗ K ⟨⟩)
        -∗ wp frame (wpE (defs₀ (F := F)) Variants.none c none) E (cc1__mlp_kernel i arg1 harg1 arg2 harg2 arg3 harg3 arg4 harg4 arg5 harg5 arg6 harg6 arg7 harg7) K) := by
  simp only [owns_eq_rep c.tc arg1, owns_eq_rep c.tc arg2, owns_eq_rep c.tc arg3, owns_eq_rep c.tc arg4, owns_eq_rep c.tc arg5, owns_eq_rep c.tc arg6]
  unfold owns; simp only [cc1__mlp_kernel_eq_skeleton]; unfold cc1__mlp_kernel_skel
  iintro H0 H1 H2 H3 H4 H5 ⟨%f6, -, H6⟩ Hk
  sl_exec
  sl_step
  iapply Hk
  iframe H0 H1 H2 H3 H4 H5
  iexists _; isplitr
  swap; · iexact H6
  ipureintro
  simp only [View.readAt_rep]
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- one case per input window; in each, both sides reduce to the same block of the entry array
theorem before1 (c : Dev nD) : ∀ w, (cfg1.win w).isOut = false → ∀ t d, (dat1 V c).before w t d = (dat1 V c).after w t
  | 0, h, t, d | 1, h, t, d | 2, h, t, d | 3, h, t, d | 4, h, t, d | 5, h, t, d =>
    ((dat1 V c).before_in_eq_fetched _ h (fun _ => rfl) (fun _ _ _ => rfl) (fun _ => rfl) t d).trans rfl
  | 6, h, _, _ => nomatch h

theorem body_obligation1 (c : Dev nD) : BodyObligation (dat1 (F := F) V c) (defs₀ (F := F)) Variants.none () Set.univ := fun t => by
  rw [bigSep_W1, bigSep_W1]
  simp (disch := decide) only [before1 V c]
  show (iprop(?R ∗ ?S ∗ _) : sProp 𝕄) ⊢ wp _ _ _ (bodyAt1 (F := F) t) fun _ => iprop(?R ∗ ?S ∗ _)
  rw [show (dat1 V c).after 6 t = out1_6 ((dat1 V c).after 0 t) ((dat1 V c).after 1 t) ((dat1 V c).after 2 t) ((dat1 V c).after 3 t) ((dat1 V c).after 4 t) ((dat1 V c).after 5 t) by dsimp only [dat1]]
  iintro ⟨HΦ, Ho, ⟨%d0, H0⟩, ⟨%d1, H1⟩, ⟨%d2, H2⟩, ⟨%d3, H3⟩, ⟨%d4, H4⟩, ⟨%d5, H5⟩, %d6, H6⟩
  iapply sound_kernel1 $$ H0 H1 H2 H3 H4 H5 H6
  iintro ⟨H0, H1, H2, H3, H4, H5, H6⟩
  iframe

end Cert.Proof.KI
-- ==== Proof.KI.Body2.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

def out2_5 (x0 : Vec F S5000x64 .f32) (x1 : Vec F S1x64 .f32) (x2 : Vec F S1x64 .f32) (x3 : Vec F S1x64 .f32) (x4 : Vec F S1x64 .f32) : Vec F S5000x64 .f32 :=
  View.canon [⟨r2_0, k2_pay1 (View.ld x0 r2_0) (View.ld x1 r2_1) (View.ld x2 r2_1) (View.ld x3 r2_1) (View.ld x4 r2_1)⟩]

-- the body only reads its inputs, and its one store covers the whole output, which therefore reads as that store's payload
theorem sound_kernel2 {c : Dev nD} {E : Set ℕ} {i : grid2.Coords} {arg1 arg6 : Memref sig .tc .vmem S5000x64 .f32} {arg2 arg3 arg4 arg5 : Memref sig .tc .vmem S1x64 .f32}
    {harg1 : arg1.IsWhole} {harg2 : arg2.IsWhole} {harg3 : arg3.IsWhole} {harg4 : arg4.IsWhole} {harg5 : arg5.IsWhole} {harg6 : arg6.IsWhole}
    {x0 d : Vec F S5000x64 .f32} {x1 x2 x3 x4 : Vec F S1x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare (out2_5 x0 x1 x2 x3 x4) -∗ K ⟨⟩)
        -∗ wp frame (wpE (defs₀ (F := F)) Variants.none c none) E (cc2__bn_lrelu_kernel i arg1 harg1 arg2 harg2 arg3 harg3 arg4 harg4 arg5 harg5 arg6 harg6) K) := by
  simp only [owns_eq_rep c.tc arg1, owns_eq_rep c.tc arg2, owns_eq_rep c.tc arg3, owns_eq_rep c.tc arg4, owns_eq_rep c.tc arg5]
  unfold owns; simp only [cc2__bn_lrelu_kernel_eq_skeleton]; unfold cc2__bn_lrelu_kernel_skel
  iintro H0 H1 H2 H3 H4 ⟨%f5, -, H5⟩ Hk
  sl_exec
  sl_step
  iapply Hk
  iframe H0 H1 H2 H3 H4
  iexists _; isplitr
  swap; · iexact H5
  ipureintro
  simp only [View.readAt_rep]
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

-- one case per input window; in each, both sides reduce to the same block of the entry array
theorem before2 (c : Dev nD) : ∀ w, (cfg2.win w).isOut = false → ∀ t d, (dat2 V c).before w t d = (dat2 V c).after w t
  | 0, h, t, d | 1, h, t, d | 2, h, t, d | 3, h, t, d | 4, h, t, d =>
    ((dat2 V c).before_in_eq_fetched _ h (fun _ => rfl) (fun _ _ _ => rfl) (fun _ => rfl) t d).trans rfl
  | 5, h, _, _ => nomatch h

theorem body_obligation2 (c : Dev nD) : BodyObligation (dat2 (F := F) V c) (defs₀ (F := F)) Variants.none () Set.univ := fun t => by
  rw [bigSep_W2, bigSep_W2]
  simp (disch := decide) only [before2 V c]
  show (iprop(?R ∗ ?S ∗ _) : sProp 𝕄) ⊢ wp _ _ _ (bodyAt2 (F := F) t) fun _ => iprop(?R ∗ ?S ∗ _)
  rw [show (dat2 V c).after 5 t = out2_5 ((dat2 V c).after 0 t) ((dat2 V c).after 1 t) ((dat2 V c).after 2 t) ((dat2 V c).after 3 t) ((dat2 V c).after 4 t) by dsimp only [dat2]]
  iintro ⟨HΦ, Ho, ⟨%d0, H0⟩, ⟨%d1, H1⟩, ⟨%d2, H2⟩, ⟨%d3, H3⟩, ⟨%d4, H4⟩, %d5, H5⟩
  iapply sound_kernel2 $$ H0 H1 H2 H3 H4 H5
  iintro ⟨H0, H1, H2, H3, H4, H5⟩
  iframe

end Cert.Proof.KI
-- ==== Proof.KI.Body3.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S5000x64 := Rect.unit (s := S5000x64) ![0, 0] S5000x64.size inb_S5000x64_S5000x64_0_0

def out3_6 (x0 : Vec F S5000x64 .f32) (x1 : Vec F S5000x64 .f32) (x2 : Vec F S64x64 .f32) (x3 : Vec F S1x64 .f32)
    (x4 : Vec F S64x64 .f32) (x5 : Vec F S1x64 .f32) : Vec F S5000x64 .f32 :=
  View.canon [⟨r3_5, k3_pay1 (View.ld x0 r3_0) (View.ld x1 r3_0) (View.ld x2 r3_1) (View.ld x3 r3_2) (View.ld x4 r3_3) (View.ld x5 r3_4)⟩]

set_option maxHeartbeats 1000000 in
-- the body only reads its inputs, and its one store covers the whole output, which therefore reads as that store's payload
theorem sound_kernel3 {c : Dev nD} {E : Set ℕ} {i : grid3.Coords} {arg1 arg2 : Memref sig .tc .vmem S5000x64 .f32} {arg3 : Memref sig .tc .vmem S64x64 .f32}
    {arg4 : Memref sig .tc .vmem S1x64 .f32} {arg5 : Memref sig .tc .vmem S64x64 .f32} {arg6 : Memref sig .tc .vmem S1x64 .f32} {arg7 : Memref sig .tc .vmem S5000x64 .f32}
    {harg1 : arg1.IsWhole} {harg2 : arg2.IsWhole} {harg3 : arg3.IsWhole} {harg4 : arg4.IsWhole} {harg5 : arg5.IsWhole} {harg6 : arg6.IsWhole} {harg7 : arg7.IsWhole}
    {x0 x1 : Vec F S5000x64 .f32} {x2 : Vec F S64x64 .f32} {x3 : Vec F S1x64 .f32} {x4 : Vec F S64x64 .f32} {x5 : Vec F S1x64 .f32} {d : Vec F S5000x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out3_6 x0 x1 x2 x3 x4 x5) -∗ K ⟨⟩)
        -∗ wp frame (wpE (defs₀ (F := F)) Variants.none c none) E (cc3__mlp_kernel i arg1 harg1 arg2 harg2 arg3 harg3 arg4 harg4 arg5 harg5 arg6 harg6 arg7 harg7) K) := by
  simp only [owns_eq_rep c.tc arg1, owns_eq_rep c.tc arg2, owns_eq_rep c.tc arg3, owns_eq_rep c.tc arg4, owns_eq_rep c.tc arg5, owns_eq_rep c.tc arg6]
  unfold owns; simp only [cc3__mlp_kernel_eq_skeleton]; unfold cc3__mlp_kernel_skel
  iintro H0 H1 H2 H3 H4 H5 ⟨%f6, -, H6⟩ Hk
  sl_exec
  sl_step
  iapply Hk
  iframe H0 H1 H2 H3 H4 H5
  iexists _; isplitr
  swap; · iexact H6
  ipureintro
  simp only [View.readAt_rep]
  exact View.read_writes_eq_canon _ _ _ (View.cover_of_tiled _ S5000x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

-- one case per input window; in each, both sides reduce to the same block of the entry array
theorem before3 (c : Dev nD) : ∀ w, (cfg3.win w).isOut = false → ∀ t d, (dat3 V c).before w t d = (dat3 V c).after w t
  | 0, h, t, d | 1, h, t, d | 2, h, t, d | 3, h, t, d | 4, h, t, d | 5, h, t, d =>
    ((dat3 V c).before_in_eq_fetched _ h (fun _ => rfl) (fun _ _ _ => rfl) (fun _ => rfl) t d).trans rfl
  | 6, h, _, _ => nomatch h

theorem body_obligation3 (c : Dev nD) : BodyObligation (dat3 (F := F) V c) (defs₀ (F := F)) Variants.none () Set.univ := fun t => by
  rw [bigSep_W3, bigSep_W3]
  simp (disch := decide) only [before3 V c]
  show (iprop(?R ∗ ?S ∗ _) : sProp 𝕄) ⊢ wp _ _ _ (bodyAt3 (F := F) t) fun _ => iprop(?R ∗ ?S ∗ _)
  rw [show (dat3 V c).after 6 t = out3_6 ((dat3 V c).after 0 t) ((dat3 V c).after 1 t) ((dat3 V c).after 2 t) ((dat3 V c).after 3 t) ((dat3 V c).after 4 t) ((dat3 V c).after 5 t) by dsimp only [dat3]]
  iintro ⟨HΦ, Ho, ⟨%d0, H0⟩, ⟨%d1, H1⟩, ⟨%d2, H2⟩, ⟨%d3, H3⟩, ⟨%d4, H4⟩, ⟨%d5, H5⟩, %d6, H6⟩
  iapply sound_kernel3 $$ H0 H1 H2 H3 H4 H5 H6
  iintro ⟨H0, H1, H2, H3, H4, H5, H6⟩
  iframe

end Cert.Proof.KI
-- ==== Proof.KI.Body4.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

def out4_5 (x0 : Vec F S5000x64 .f32) (x1 : Vec F S1x64 .f32) (x2 : Vec F S1x64 .f32) (x3 : Vec F S1x64 .f32) (x4 : Vec F S1x64 .f32) : Vec F S5000x64 .f32 :=
  View.canon [⟨r4_0, k4_pay1 (View.ld x0 r4_0) (View.ld x1 r4_1) (View.ld x2 r4_1) (View.ld x3 r4_1) (View.ld x4 r4_1)⟩]

-- the body only reads its inputs, and its one store covers the whole output, which therefore reads as that store's payload
theorem sound_kernel4 {c : Dev nD} {E : Set ℕ} {i : grid4.Coords} {arg1 arg6 : Memref sig .tc .vmem S5000x64 .f32} {arg2 arg3 arg4 arg5 : Memref sig .tc .vmem S1x64 .f32}
    {harg1 : arg1.IsWhole} {harg2 : arg2.IsWhole} {harg3 : arg3.IsWhole} {harg4 : arg4.IsWhole} {harg5 : arg5.IsWhole} {harg6 : arg6.IsWhole}
    {x0 d : Vec F S5000x64 .f32} {x1 x2 x3 x4 : Vec F S1x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare (out4_5 x0 x1 x2 x3 x4) -∗ K ⟨⟩)
        -∗ wp frame (wpE (defs₀ (F := F)) Variants.none c none) E (cc4__bn_lrelu_kernel i arg1 harg1 arg2 harg2 arg3 harg3 arg4 harg4 arg5 harg5 arg6 harg6) K) := by
  simp only [owns_eq_rep c.tc arg1, owns_eq_rep c.tc arg2, owns_eq_rep c.tc arg3, owns_eq_rep c.tc arg4, owns_eq_rep c.tc arg5]
  unfold owns; simp only [cc4__bn_lrelu_kernel_eq_skeleton]; unfold cc4__bn_lrelu_kernel_skel
  iintro H0 H1 H2 H3 H4 ⟨%f5, -, H5⟩ Hk
  sl_exec
  sl_step
  iapply Hk
  iframe H0 H1 H2 H3 H4
  iexists _; isplitr
  swap; · iexact H5
  ipureintro
  simp only [View.readAt_rep]
  exact View.read_writes_eq_canon _ _ _ (View.cover_of_tiled _ S5000x64.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

-- one case per input window; in each, both sides reduce to the same block of the entry array
theorem before4 (c : Dev nD) : ∀ w, (cfg4.win w).isOut = false → ∀ t d, (dat4 V c).before w t d = (dat4 V c).after w t
  | 0, h, t, d | 1, h, t, d | 2, h, t, d | 3, h, t, d | 4, h, t, d =>
    ((dat4 V c).before_in_eq_fetched _ h (fun _ => rfl) (fun _ _ _ => rfl) (fun _ => rfl) t d).trans rfl
  | 5, h, _, _ => nomatch h

theorem body_obligation4 (c : Dev nD) : BodyObligation (dat4 (F := F) V c) (defs₀ (F := F)) Variants.none () Set.univ := fun t => by
  rw [bigSep_W4, bigSep_W4]
  simp (disch := decide) only [before4 V c]
  show (iprop(?R ∗ ?S ∗ _) : sProp 𝕄) ⊢ wp _ _ _ (bodyAt4 (F := F) t) fun _ => iprop(?R ∗ ?S ∗ _)
  rw [show (dat4 V c).after 5 t = out4_5 ((dat4 V c).after 0 t) ((dat4 V c).after 1 t) ((dat4 V c).after 2 t) ((dat4 V c).after 3 t) ((dat4 V c).after 4 t) by dsimp only [dat4]]
  iintro ⟨HΦ, Ho, ⟨%d0, H0⟩, ⟨%d1, H1⟩, ⟨%d2, H2⟩, ⟨%d3, H3⟩, ⟨%d4, H4⟩, %d5, H5⟩
  iapply sound_kernel4 $$ H0 H1 H2 H3 H4 H5
  iintro ⟨H0, H1, H2, H3, H4, H5⟩
  iframe

end Cert.Proof.KI
-- ==== Proof.KI.Body5.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S64x64 := Rect.unit (s := S64x64) ![0, 0] S64x64.size inb_S64x64_S64x64_0_0
abbrev r5_4 : Rect S1x64 := Rect.unit (s := S1x64) ![0, 0] S1x64.size inb_S1x64_S1x64_0_0
abbrev r5_5 : Rect S5000x64 := Rect.unit (s := S5000x64) ![0, 0] S5000x64.size inb_S5000x64_S5000x64_0_0

def out5_6 (x0 : Vec F S5000x64 .f32) (x1 : Vec F S5000x64 .f32) (x2 : Vec F S64x64 .f32) (x3 : Vec F S1x64 .f32)
    (x4 : Vec F S64x64 .f32) (x5 : Vec F S1x64 .f32) : Vec F S5000x64 .f32 :=
  View.canon [⟨r5_5, k5_pay1 (View.ld x0 r5_0) (View.ld x1 r5_0) (View.ld x2 r5_1) (View.ld x3 r5_2) (View.ld x4 r5_3) (View.ld x5 r5_4)⟩]

set_option maxHeartbeats 1000000 in
-- the body only reads its inputs, and its one store covers the whole output, which therefore reads as that store's payload
theorem sound_kernel5 {c : Dev nD} {E : Set ℕ} {i : grid5.Coords} {arg1 arg2 : Memref sig .tc .vmem S5000x64 .f32} {arg3 : Memref sig .tc .vmem S64x64 .f32}
    {arg4 : Memref sig .tc .vmem S1x64 .f32} {arg5 : Memref sig .tc .vmem S64x64 .f32} {arg6 : Memref sig .tc .vmem S1x64 .f32} {arg7 : Memref sig .tc .vmem S5000x64 .f32}
    {harg1 : arg1.IsWhole} {harg2 : arg2.IsWhole} {harg3 : arg3.IsWhole} {harg4 : arg4.IsWhole} {harg5 : arg5.IsWhole} {harg6 : arg6.IsWhole} {harg7 : arg7.IsWhole}
    {x0 x1 : Vec F S5000x64 .f32} {x2 : Vec F S64x64 .f32} {x3 : Vec F S1x64 .f32} {x4 : Vec F S64x64 .f32} {x5 : Vec F S1x64 .f32} {d : Vec F S5000x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out5_6 x0 x1 x2 x3 x4 x5) -∗ K ⟨⟩)
        -∗ wp frame (wpE (defs₀ (F := F)) Variants.none c none) E (cc5__mlp_kernel i arg1 harg1 arg2 harg2 arg3 harg3 arg4 harg4 arg5 harg5 arg6 harg6 arg7 harg7) K) := by
  simp only [owns_eq_rep c.tc arg1, owns_eq_rep c.tc arg2, owns_eq_rep c.tc arg3, owns_eq_rep c.tc arg4, owns_eq_rep c.tc arg5, owns_eq_rep c.tc arg6]
  unfold owns; simp only [cc5__mlp_kernel_eq_skeleton]; unfold cc5__mlp_kernel_skel
  iintro H0 H1 H2 H3 H4 H5 ⟨%f6, -, H6⟩ Hk
  sl_exec
  sl_step
  iapply Hk
  iframe H0 H1 H2 H3 H4 H5
  iexists _; isplitr
  swap; · iexact H6
  ipureintro
  simp only [View.readAt_rep]
  exact View.read_writes_eq_canon _ _ _ (View.cover_of_tiled _ S5000x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

-- one case per input window; in each, both sides reduce to the same block of the entry array
theorem before5 (c : Dev nD) : ∀ w, (cfg5.win w).isOut = false → ∀ t d, (dat5 V c).before w t d = (dat5 V c).after w t
  | 0, h, t, d | 1, h, t, d | 2, h, t, d | 3, h, t, d | 4, h, t, d | 5, h, t, d =>
    ((dat5 V c).before_in_eq_fetched _ h (fun _ => rfl) (fun _ _ _ => rfl) (fun _ => rfl) t d).trans rfl
  | 6, h, _, _ => nomatch h

theorem body_obligation5 (c : Dev nD) : BodyObligation (dat5 (F := F) V c) (defs₀ (F := F)) Variants.none () Set.univ := fun t => by
  rw [bigSep_W5, bigSep_W5]
  simp (disch := decide) only [before5 V c]
  show (iprop(?R ∗ ?S ∗ _) : sProp 𝕄) ⊢ wp _ _ _ (bodyAt5 (F := F) t) fun _ => iprop(?R ∗ ?S ∗ _)
  rw [show (dat5 V c).after 6 t = out5_6 ((dat5 V c).after 0 t) ((dat5 V c).after 1 t) ((dat5 V c).after 2 t) ((dat5 V c).after 3 t) ((dat5 V c).after 4 t) ((dat5 V c).after 5 t) by dsimp only [dat5]]
  iintro ⟨HΦ, Ho, ⟨%d0, H0⟩, ⟨%d1, H1⟩, ⟨%d2, H2⟩, ⟨%d3, H3⟩, ⟨%d4, H4⟩, ⟨%d5, H5⟩, %d6, H6⟩
  iapply sound_kernel5 $$ H0 H1 H2 H3 H4 H5 H6
  iintro ⟨H0, H1, H2, H3, H4, H5, H6⟩
  iframe

end Cert.Proof.KI
-- ==== Proof.KI.Body6.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x64 := Rect.unit (s := S5000x64) ![0, 0] S5000x64.size inb_S5000x64_S5000x64_0_0
abbrev r6_1 : Rect S1x64 := Rect.unit (s := S1x64) ![0, 0] S1x64.size inb_S1x64_S1x64_0_0

def out6_5 (x0 : Vec F S5000x64 .f32) (x1 : Vec F S1x64 .f32) (x2 : Vec F S1x64 .f32) (x3 : Vec F S1x64 .f32) (x4 : Vec F S1x64 .f32) : Vec F S5000x64 .f32 :=
  View.canon [⟨r6_0, k6_pay1 (View.ld x0 r6_0) (View.ld x1 r6_1) (View.ld x2 r6_1) (View.ld x3 r6_1) (View.ld x4 r6_1)⟩]

-- the body only reads its inputs, and its one store covers the whole output, which therefore reads as that store's payload
theorem sound_kernel6 {c : Dev nD} {E : Set ℕ} {i : grid6.Coords} {arg1 arg6 : Memref sig .tc .vmem S5000x64 .f32} {arg2 arg3 arg4 arg5 : Memref sig .tc .vmem S1x64 .f32}
    {harg1 : arg1.IsWhole} {harg2 : arg2.IsWhole} {harg3 : arg3.IsWhole} {harg4 : arg4.IsWhole} {harg5 : arg5.IsWhole} {harg6 : arg6.IsWhole}
    {x0 d : Vec F S5000x64 .f32} {x1 x2 x3 x4 : Vec F S1x64 .f32} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare (out6_5 x0 x1 x2 x3 x4) -∗ K ⟨⟩)
        -∗ wp frame (wpE (defs₀ (F := F)) Variants.none c none) E (cc6__bn_lrelu_kernel i arg1 harg1 arg2 harg2 arg3 harg3 arg4 harg4 arg5 harg5 arg6 harg6) K) := by
  simp only [owns_eq_rep c.tc arg1, owns_eq_rep c.tc arg2, owns_eq_rep c.tc arg3, owns_eq_rep c.tc arg4, owns_eq_rep c.tc arg5]
  unfold owns; simp only [cc6__bn_lrelu_kernel_eq_skeleton]; unfold cc6__bn_lrelu_kernel_skel
  iintro H0 H1 H2 H3 H4 ⟨%f5, -, H5⟩ Hk
  sl_exec
  sl_step
  iapply Hk
  iframe H0 H1 H2 H3 H4
  iexists _; isplitr
  swap; · iexact H5
  ipureintro
  simp only [View.readAt_rep]
  exact View.read_writes_eq_canon _ _ _ (View.cover_of_tiled _ S5000x64.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

-- one case per input window; in each, both sides reduce to the same block of the entry array
theorem before6 (c : Dev nD) : ∀ w, (cfg6.win w).isOut = false → ∀ t d, (dat6 V c).before w t d = (dat6 V c).after w t
  | 0, h, t, d | 1, h, t, d | 2, h, t, d | 3, h, t, d | 4, h, t, d =>
    ((dat6 V c).before_in_eq_fetched _ h (fun _ => rfl) (fun _ _ _ => rfl) (fun _ => rfl) t d).trans rfl
  | 5, h, _, _ => nomatch h

theorem body_obligation6 (c : Dev nD) : BodyObligation (dat6 (F := F) V c) (defs₀ (F := F)) Variants.none () Set.univ := fun t => by
  rw [bigSep_W6, bigSep_W6]
  simp (disch := decide) only [before6 V c]
  show (iprop(?R ∗ ?S ∗ _) : sProp 𝕄) ⊢ wp _ _ _ (bodyAt6 (F := F) t) fun _ => iprop(?R ∗ ?S ∗ _)
  rw [show (dat6 V c).after 5 t = out6_5 ((dat6 V c).after 0 t) ((dat6 V c).after 1 t) ((dat6 V c).after 2 t) ((dat6 V c).after 3 t) ((dat6 V c).after 4 t) by dsimp only [dat6]]
  iintro ⟨HΦ, Ho, ⟨%d0, H0⟩, ⟨%d1, H1⟩, ⟨%d2, H2⟩, ⟨%d3, H3⟩, ⟨%d4, H4⟩, %d5, H5⟩
  iapply sound_kernel6 $$ H0 H1 H2 H3 H4 H5
  iintro ⟨H0, H1, H2, H3, H4, H5⟩
  iframe

end Cert.Proof.KI
-- ==== Proof.KI.Body7.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x320 := Rect.unit ![0, 0] S5000x320.size inb_S5000x320_S5000x320_0_0
abbrev r7_1 : Rect S320x64 := Rect.unit ![0, 0] S320x64.size inb_S320x64_S320x64_0_0
abbrev r7_2 : Rect S1x64 := Rect.unit ![0, 0] S1x64.size inb_S1x64_S1x64_0_0
abbrev r7_3 : Rect S5000x64 := Rect.unit ![0, 0] S5000x64.size inb_S5000x64_S5000x64_0_0

def out7_3 (x0 : Vec F S5000x320 .f32) (x1 : Vec F S320x64 .f32) (x2 : Vec F S1x64 .f32) : Vec F S5000x64 .f32 :=
  View.canon [⟨r7_3, k7_pay1 (View.ld x0 r7_0) (View.ld x1 r7_1) (View.ld x2 r7_2)⟩]

-- By running the body: three whole-block loads, one store covering the output block.
theorem sound_kernel7 {c : Dev nD} {E i arg1 harg1 arg2 harg2 arg3 harg3 arg4 harg4 x0 x1 x2 d} {K : PUnit → sProp 𝕄} :
    ⊢ iprop(owns c.tc arg1 fullShare x0 -∗ owns c.tc arg2 fullShare x1 -∗ owns c.tc arg3 fullShare x2 -∗ owns c.tc arg4 fullShare d
        -∗ (owns c.tc arg1 fullShare x0 ∗ owns c.tc arg2 fullShare x1 ∗ owns c.tc arg3 fullShare x2 ∗ owns c.tc arg4 fullShare (out7_3 x0 x1 x2) -∗ K ⟨⟩)
        -∗ wp frame (wpE (defs₀ (F := F)) Variants.none c none) E (cc7__linear_kernel i arg1 harg1 arg2 harg2 arg3 harg3 arg4 harg4) K) := by
  simp only [cc7__linear_kernel_eq_skeleton, owns_eq_rep c.tc arg1, owns_eq_rep c.tc arg2, owns_eq_rep c.tc arg3]; unfold cc7__linear_kernel_skel owns
  iintro H0 H1 H2 ⟨%f3, -, H3⟩ Hk
  sl_exec
  sl_step
  iapply Hk
  iframe H0 H1 H2
  iexists _; isplitr
  swap; · iexact H3
  ipureintro
  simp only [View.readAt_rep]
  exact View.read_writes_eq_canon _ _ _ (View.cover_of_tiled _ S5000x64.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) : (dat7 V c).after 3 t = out7_3 (iblk7 V c 0 t) (iblk7 V c 1 t) (iblk7 V c 2 t) := by dsimp only [dat7]

-- The body leaves an input window's block in place, so what it finds there is what it leaves.
theorem before7 (c : Dev nD) : ∀ w, (cfg7.win w).isOut = false → ∀ t d, (dat7 V c).before w t d = (dat7 V c).after w t
  | 0, h, t, d | 1, h, t, d | 2, h, t, d =>
    (dat7 V c).before_in_eq_fetched _ h (fun _ => rfl) (fun _ _ _ => rfl) (fun _ => rfl) t d
  | 3, h, _, _ => nomatch h

theorem body_obligation7 (c : Dev nD) : BodyObligation (dat7 (F := F) V c) (defs₀ (F := F)) Variants.none () Set.univ := fun t => by
  rw [bigSep_W7, bigSep_W7]
  simp only [before7 V c 0 rfl, before7 V c 1 rfl, before7 V c 2 rfl]
  show (iprop(?R ∗ ?S ∗ _) : sProp 𝕄) ⊢ wp _ _ _ (bodyAt7 (F := F) t) fun _ => iprop(?R ∗ ?S ∗ _)
  rw [show (dat7 V c).after 3 t = out7_3 ((dat7 V c).after 0 t) ((dat7 V c).after 1 t) ((dat7 V c).after 2 t) by dsimp only [dat7]]
  iintro ⟨HΦ, Ho, ⟨%d0, H0⟩, ⟨%d1, H1⟩, ⟨%d2, H2⟩, %d3, H3⟩
  iapply sound_kernel7 $$ H0 H1 H2 H3
  iintro ⟨H0, H1, H2, H3⟩
  iframe

end Cert.Proof.KI
-- ==== Proof.KI.Body8.lean ====
import proofs.«431052_j82222853914919_1_alg».proof.Proof.Gen.KernelIdeal.Launch
import proofs.«431052_j82222853914919_1_alg».proof.Proof.Gen.KernelIdeal.Skeleton
import proofs.«431052_j82222853914919_1_alg».proof.Proof.Gen.KernelIdeal.Points
import Idealize.ShloMosaic.Lib.Pipeline.FrameBody
import Idealize.ShloMosaic.Lib.Pipeline.TableIdle
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x64 := Rect.unit ![0, 0] S5000x64.size inb_S5000x64_S5000x64_0_0
abbrev r8_1 : Rect S1x64 := Rect.unit ![0, 0] S1x64.size inb_S1x64_S1x64_0_0
abbrev r8_2 : Rect S64x1 := Rect.unit ![0, 0] S64x1.size inb_S64x1_S64x1_0_0
abbrev r8_3 : Rect S1x1 := Rect.unit ![0, 0] S1x1.size inb_S1x1_S1x1_0_0
abbrev r8_4 : Rect S5000x1 := Rect.unit ![0, 0] S5000x1.size inb_S5000x1_S5000x1_0_0

def out8_7 (x0 : Vec F S5000x64 .f32) (x1 : Vec F S1x64 .f32) (x2 : Vec F S1x64 .f32) (x3 : Vec F S1x64 .f32) (x4 : Vec F S1x64 .f32) (x5 : Vec F S64x1 .f32) (x6 : Vec F S1x1 .f32) : Vec F S5000x1 .f32 :=
  View.canon [⟨r8_4, k8_pay1 (View.ld x0 r8_0) (View.ld x1 r8_1) (View.ld x2 r8_1) (View.ld x3 r8_1) (View.ld x4 r8_1) (View.ld x5 r8_2) (View.ld x6 r8_3)⟩]

-- By running the body: seven whole-block loads, one store covering the output block.
theorem sound_kernel8 {c : Dev nD} {E i arg1 harg1 arg2 harg2 arg3 harg3 arg4 harg4 arg5 harg5 arg6 harg6 arg7 harg7 arg8 harg8 x0 x1 x2 x3 x4 x5 x6 d} {K : PUnit → sProp 𝕄} :
    ⊢ iprop(owns c.tc arg1 fullShare x0 -∗ owns c.tc arg2 fullShare x1 -∗ owns c.tc arg3 fullShare x2 -∗ owns c.tc arg4 fullShare x3 -∗ owns c.tc arg5 fullShare x4 -∗ owns c.tc arg6 fullShare x5 -∗ owns c.tc arg7 fullShare x6 -∗ owns c.tc arg8 fullShare d
        -∗ (owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare (out8_7 x0 x1 x2 x3 x4 x5 x6) -∗ K ⟨⟩)
        -∗ wp frame (wpE (defs₀ (F := F)) Variants.none c none) E (cc8__fc_bn_sigmoid_kernel i arg1 harg1 arg2 harg2 arg3 harg3 arg4 harg4 arg5 harg5 arg6 harg6 arg7 harg7 arg8 harg8) K) := by
  simp only [cc8__fc_bn_sigmoid_kernel_eq_skeleton, owns_eq_rep c.tc arg1, owns_eq_rep c.tc arg2, owns_eq_rep c.tc arg3, owns_eq_rep c.tc arg4, owns_eq_rep c.tc arg5, owns_eq_rep c.tc arg6, owns_eq_rep c.tc arg7]; unfold cc8__fc_bn_sigmoid_kernel_skel owns
  iintro H0 H1 H2 H3 H4 H5 H6 ⟨%f7, -, H7⟩ Hk
  sl_exec
  sl_step
  iapply Hk
  iframe H0 H1 H2 H3 H4 H5 H6
  iexists _; isplitr
  swap; · iexact H7
  ipureintro
  simp only [View.readAt_rep]
  exact View.read_writes_eq_canon _ _ _ (View.cover_of_tiled _ S5000x1.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := rfl

theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

-- The body leaves an input window's block in place, so what it finds there is what it leaves.
theorem before8 (c : Dev nD) : ∀ w, (cfg8.win w).isOut = false → ∀ t d, (dat8 V c).before w t d = (dat8 V c).after w t
  | 0, h, t, d | 1, h, t, d | 2, h, t, d | 3, h, t, d | 4, h, t, d | 5, h, t, d | 6, h, t, d =>
    (dat8 V c).before_in_eq_fetched _ h (fun _ => rfl) (fun _ _ _ => rfl) (fun _ => rfl) t d
  | 7, h, _, _ => nomatch h

theorem body_obligation8 (c : Dev nD) : BodyObligation (dat8 (F := F) V c) (defs₀ (F := F)) Variants.none () Set.univ := fun t => by
  rw [bigSep_W8, bigSep_W8]
  simp only [before8 V c 0 rfl, before8 V c 1 rfl, before8 V c 2 rfl, before8 V c 3 rfl, before8 V c 4 rfl, before8 V c 5 rfl, before8 V c 6 rfl]
  show (iprop(?R ∗ ?S ∗ _) : sProp 𝕄) ⊢ wp _ _ _ (bodyAt8 (F := F) t) fun _ => iprop(?R ∗ ?S ∗ _)
  rw [show (dat8 V c).after 7 t = out8_7 ((dat8 V c).after 0 t) ((dat8 V c).after 1 t) ((dat8 V c).after 2 t) ((dat8 V c).after 3 t) ((dat8 V c).after 4 t) ((dat8 V c).after 5 t) ((dat8 V c).after 6 t) by dsimp only [dat8]]
  iintro ⟨HΦ, Ho, ⟨%d0, H0⟩, ⟨%d1, H1⟩, ⟨%d2, H2⟩, ⟨%d3, H3⟩, ⟨%d4, H4⟩, ⟨%d5, H5⟩, ⟨%d6, H6⟩, %d7, H7⟩
  iapply sound_kernel8 $$ H0 H1 H2 H3 H4 H5 H6 H7
  iintro ⟨H0, H1, H2, H3, H4, H5, H6, H7⟩
  iframe

end Cert.Proof.KI
-- ==== Proof.KI.Run.lean ====
import proofs.«431052_j82222853914919_1_alg».proof.Proof.Gen.KernelIdeal.Regions
import proofs.«431052_j82222853914919_1_alg».proof.Proof.KI.Body0
import proofs.«431052_j82222853914919_1_alg».proof.Proof.KI.Body1
import proofs.«431052_j82222853914919_1_alg».proof.Proof.KI.Body2
import proofs.«431052_j82222853914919_1_alg».proof.Proof.KI.Body3
import proofs.«431052_j82222853914919_1_alg».proof.Proof.KI.Body4
import proofs.«431052_j82222853914919_1_alg».proof.Proof.KI.Body5
import proofs.«431052_j82222853914919_1_alg».proof.Proof.KI.Body6
import proofs.«431052_j82222853914919_1_alg».proof.Proof.KI.Body7
import proofs.«431052_j82222853914919_1_alg».proof.Proof.KI.Body8
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
section

variable (c : Dev nD)

def W1 : Valuation τ sig (Elt F) := StableHlo.after hostOps0 (Gen.V0 m c)
def o2 : Buf (Elt F) ((c : Thread nD τ).loc main_v6) := (dat0 (fun c b => W1 m c b) c).arrAt 4 cfg0.N
def W2 : Valuation τ sig (Elt F) := Function.update (W1 m c) main_v6 (o2 m c)
def W3 : Valuation τ sig (Elt F) := StableHlo.after hostOps1 (W2 m c)
def o4 : Buf (Elt F) ((c : Thread nD τ).loc main_v21) := (dat1 (fun c b => W3 m c b) c).arrAt 6 cfg1.N
def W4 : Valuation τ sig (Elt F) := Function.update (W3 m c) main_v21 (o4 m c)
def W7 : Valuation τ sig (Elt F) := StableHlo.after hostOps2_2 (StableHlo.after hostOps2_1 (StableHlo.after hostOps2 (W4 m c)))
def W8 : Valuation τ sig (Elt F) := Function.update (W7 m c) main_v30 ((dat2 (fun c b => W7 m c b) c).arrAt 5 cfg2.N)
def W9 : Valuation τ sig (Elt F) := StableHlo.after hostOps3 (W8 m c)
def W10 : Valuation τ sig (Elt F) := Function.update (W9 m c) main_v45 ((dat3 (fun c b => W9 m c b) c).arrAt 6 cfg3.N)
def W13 : Valuation τ sig (Elt F) := StableHlo.after hostOps4_2 (StableHlo.after hostOps4_1 (StableHlo.after hostOps4 (W10 m c)))
def W14 : Valuation τ sig (Elt F) := Function.update (W13 m c) main_v54 ((dat4 (fun c b => W13 m c b) c).arrAt 5 cfg4.N)
def W15 : Valuation τ sig (Elt F) := StableHlo.after hostOps5 (W14 m c)
def W16 : Valuation τ sig (Elt F) := Function.update (W15 m c) main_v69 ((dat5 (fun c b => W15 m c b) c).arrAt 6 cfg5.N)
def W19 : Valuation τ sig (Elt F) := StableHlo.after hostOps6_2 (StableHlo.after hostOps6_1 (StableHlo.after hostOps6 (W16 m c)))
def W20 : Valuation τ sig (Elt F) := Function.update (W19 m c) main_v78 ((dat6 (fun c b => W19 m c b) c).arrAt 5 cfg6.N)
def W21 : Valuation τ sig (Elt F) := StableHlo.after hostOps7 (W20 m c)
def W22 : Valuation τ sig (Elt F) := Function.update (W21 m c) main_v82 ((dat7 (fun c b => W21 m c b) c).arrAt 3 cfg7.N)
def W25 : Valuation τ sig (Elt F) := StableHlo.after hostOps8_2 (StableHlo.after hostOps8_1 (StableHlo.after hostOps8 (W22 m c)))
def W26 : Valuation τ sig (Elt F) := Function.update (W25 m c) main_v93 ((dat8 (fun c b => W25 m c b) c).arrAt 7 cfg8.N)

def outs : Gen.Outs (F := F) := fun J r c =>
  match J with
  | 2 => W2 m c r
  | 4 => W4 m c r
  | 8 => W8 m c r
  | 10 => W10 m c r
  | 14 => W14 m c r
  | 16 => W16 m c r
  | 20 => W20 m c r
  | 22 => W22 m c r
  | _ => W26 m c r

theorem upd_eq {α : Type} [DecidableEq α] {β : α → Type} {f g : (a : α) → β a} (a : α) (v : β a) (h : f = g) :
    Function.update f a (Function.update g a v a) = Function.update g a v := by rw [Function.update_self, h]

theorem out_eq {Vin Win : Dev nD → Valuation τ sig (Elt F)} (h : ∀ c, Vin c = Win c) (r : Ref sig .tc)
    (D : ((c : Dev nD) → (b : Ref sig .tc) → Buf (Elt F) ((c : Thread nD τ).loc b)) → (c : Dev nD) → Buf (Elt F) ((c : Thread nD τ).loc r))
    (c : Dev nD) : Function.update (Win c) r (D (fun c b => Win c b) c) r = D (fun c b => Vin c b) c := by
  rw [Function.update_self, show Vin = Win from funext h]

theorem V1_eq : Gen.V1 m c = W1 m c := rfl
theorem V3_eq : Gen.V3 m (outs m) c = W3 m c := congrArg (StableHlo.after hostOps1) (upd_eq _ _ (V1_eq m c))
theorem V7_eq : Gen.V7 m (outs m) c = W7 m c := congrArg (fun W => StableHlo.after hostOps2_2 (StableHlo.after hostOps2_1 (StableHlo.after hostOps2 W))) (upd_eq _ _ (V3_eq m c))
theorem V9_eq : Gen.V9 m (outs m) c = W9 m c := congrArg (StableHlo.after hostOps3) (upd_eq _ _ (V7_eq m c))
theorem V13_eq : Gen.V13 m (outs m) c = W13 m c := congrArg (fun W => StableHlo.after hostOps4_2 (StableHlo.after hostOps4_1 (StableHlo.after hostOps4 W))) (upd_eq _ _ (V9_eq m c))
theorem V15_eq : Gen.V15 m (outs m) c = W15 m c := congrArg (StableHlo.after hostOps5) (upd_eq _ _ (V13_eq m c))
theorem V19_eq : Gen.V19 m (outs m) c = W19 m c := congrArg (fun W => StableHlo.after hostOps6_2 (StableHlo.after hostOps6_1 (StableHlo.after hostOps6 W))) (upd_eq _ _ (V15_eq m c))
theorem V21_eq : Gen.V21 m (outs m) c = W21 m c := congrArg (StableHlo.after hostOps7) (upd_eq _ _ (V19_eq m c))
theorem V25_eq : Gen.V25 m (outs m) c = W25 m c := congrArg (fun W => StableHlo.after hostOps8_2 (StableHlo.after hostOps8_1 (StableHlo.after hostOps8 W))) (upd_eq _ _ (V21_eq m c))
theorem outs_2 : outs m 2 main_v6 c = (dat0 (fun c b => Gen.V1 m c b) c).arrAt 4 cfg0.N :=
  out_eq (V1_eq m) main_v6 (fun V c => (dat0 V c).arrAt 4 cfg0.N) c
theorem outs_4 : outs m 4 main_v21 c = (dat1 (fun c b => Gen.V3 m (outs m) c b) c).arrAt 6 cfg1.N :=
  out_eq (V3_eq m) main_v21 (fun V c => (dat1 V c).arrAt 6 cfg1.N) c
theorem outs_8 : outs m 8 main_v30 c = (dat2 (fun c b => Gen.V7 m (outs m) c b) c).arrAt 5 cfg2.N :=
  out_eq (V7_eq m) main_v30 (fun V c => (dat2 V c).arrAt 5 cfg2.N) c
theorem outs_10 : outs m 10 main_v45 c = (dat3 (fun c b => Gen.V9 m (outs m) c b) c).arrAt 6 cfg3.N :=
  out_eq (V9_eq m) main_v45 (fun V c => (dat3 V c).arrAt 6 cfg3.N) c
theorem outs_14 : outs m 14 main_v54 c = (dat4 (fun c b => Gen.V13 m (outs m) c b) c).arrAt 5 cfg4.N :=
  out_eq (V13_eq m) main_v54 (fun V c => (dat4 V c).arrAt 5 cfg4.N) c
theorem outs_16 : outs m 16 main_v69 c = (dat5 (fun c b => Gen.V15 m (outs m) c b) c).arrAt 6 cfg5.N :=
  out_eq (V15_eq m) main_v69 (fun V c => (dat5 V c).arrAt 6 cfg5.N) c
theorem outs_20 : outs m 20 main_v78 c = (dat6 (fun c b => Gen.V19 m (outs m) c b) c).arrAt 5 cfg6.N :=
  out_eq (V19_eq m) main_v78 (fun V c => (dat6 V c).arrAt 5 cfg6.N) c
theorem outs_22 : outs m 22 main_v82 c = (dat7 (fun c b => Gen.V21 m (outs m) c b) c).arrAt 3 cfg7.N :=
  out_eq (V21_eq m) main_v82 (fun V c => (dat7 V c).arrAt 3 cfg7.N) c
theorem outs_26 : outs m 26 main_v93 c = (dat8 (fun c b => Gen.V25 m (outs m) c b) c).arrAt 7 cfg8.N :=
  out_eq (V25_eq m) main_v93 (fun V c => (dat8 V c).arrAt 7 cfg8.N) c

end

def pdats : (p : Fin 9) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
  | ⟨2, _⟩ => fun c => dat2 (fun c b => Gen.V7 m (outs m) c b) c
  | ⟨3, _⟩ => fun c => dat3 (fun c b => Gen.V9 m (outs m) c b) c
  | ⟨4, _⟩ => fun c => dat4 (fun c b => Gen.V13 m (outs m) c b) c
  | ⟨5, _⟩ => fun c => dat5 (fun c b => Gen.V15 m (outs m) c b) c
  | ⟨6, _⟩ => fun c => dat6 (fun c b => Gen.V19 m (outs m) c b) c
  | ⟨7, _⟩ => fun c => dat7 (fun c b => Gen.V21 m (outs m) c b) c
  | ⟨8, _⟩ => fun c => dat8 (fun c b => Gen.V25 m (outs m) c b) c

abbrev runVar : Variants := Variants.none
abbrev runL : GSem nD τ sig → Finset Unit := fun _ => ∅
abbrev runLv : GSem nD τ sig → Unit → ℕ := fun _ _ => 0
abbrev rideR (c : Dev nD) : sProp 𝕄 := iprop((∃ r, prngReg c r) ∗ ∃ W, owes (c : Thread nD τ) (0 : CellTallies nD τ sig Unit) W)
abbrev rideE : Fin 10 → Dev nD → sProp 𝕄 := fun _ c => rideR (F := F) c

theorem result_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- Wout agrees with Win off the one output array, so the exit state is the entry state with that array replaced.
def mkReg (pd : (p : Fin 9) → (c : Dev nD) → Dat τ (Elt F) Unit ℕ (UR sig nD τ) ℕ (cfgs p) c) (p : Fin 9)
    (launch : Pipeline.LaunchFacts (nD := nD) (τ := τ) cfgs p)
    (hbody : ∀ c, BodyObligation (pd p c) (defs₀ (F := F)) Variants.none () Set.univ)
    (Win Wout : Dev nD → Valuation τ sig (Elt F)) (ow : Fin (cfgs p).W)
    (hin : ∀ w, w ≠ ow → ((cfgs p).win w).isOut = false ∧ Pipeline.arrRef (cfgs p).spec w ≠ Pipeline.arrRef (cfgs p).spec ow)
    (hFo : ∀ c, Wout c (Pipeline.arrRef (cfgs p).spec ow) = (pd p c).arrAt ow (cfgs p).N)
    (hne : ∀ c (b : Ref sig .tc), b ≠ Pipeline.arrRef (cfgs p).spec ow → Wout c b = Win c b)
    (hA : ∀ c w, (pd p c).A w = Win c (Pipeline.arrRef (cfgs p).spec w))
    (hΦ : ∀ c t, (pd p c).Φ t = Pipeline.ΦA (cfgs p).spec c)
    (hq : ∀ c w, (pd p c).q w = fullShare)
    (howed : ∀ c t, (pd p c).owed t = 0)
    (hrec : ∀ c t, (pd p c).recorded t = Set.univ) :
    Pipeline.RegionSeg (pcfgs (F := F)) Gen.adm pd () defs₀ runVar runL runLv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Win c) ∗ rideR c)
  post c := iprop(StableHlo.held (c : Thread nD τ) (Pipeline.ucRefs τ sig) (Wout c) ∗ rideR c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) Gen.adm pd launch.win launch.arr_whole c
      ((pd p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hF : ∀ w, (pd p c).arrAt w (cfgs p).N = Wout c (Pipeline.arrRef (cfgs p).spec w) := fun w => by
      by_cases h : w = ow
      · subst h; exact (hFo c).symm
      · exact ((pd p c).arrAt_in w (hin w h).1 _).trans ((hA c w).trans (hne c _ (hin w h).2).symm)
    have hrest : ∀ b : Ref sig .tc, b ∉ Finset.univ.image (Pipeline.arrRef (cfgs p).spec) → Wout c b = Win c b := fun b hb =>
      hne c b fun h => hb (Finset.mem_image.mpr ⟨ow, Finset.mem_univ _, h.symm⟩)
    have hjoin := Pipeline.unscopedBufs_of_arrays (p := p) (pcfgs (F := F)) Gen.adm (Ix := Unit) (Name := ℕ) (U := UR sig nD τ) (Lvl := ℕ)
      launch.win launch.arr_whole c pd ((pd p c).share_full (hq c))
      (fun b => Win c b) (fun b => Wout c b) ((pd p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem launch_u₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

abbrev Reg (p : Fin 9) := Pipeline.RegionSeg (pcfgs (F := F)) Gen.adm (pdats m) () defs₀ runVar runL runLv p

def reg0 : Reg m 0 :=
  mkReg (pdats m) 0 launch0 (fun c => body_obligation0 (fun c b => Gen.V1 m c b) c) (Gen.V1 m) (Gen.V2 m (outs m)) 4 (by decide)
    (fun c => (show Gen.V2 m (outs m) c main_v6 = _ from Function.update_self ..).trans (outs_2 m c))
    (fun _ _ hb => Function.update_of_ne (StableHlo.devRef_ne_of_ne hb) ..)
    (fun _ _ => rfl) (fun _ _ => rfl) (fun _ _ => rfl) (fun _ _ => rfl) (fun _ _ => rfl)
def reg1 : Reg m 1 :=
  mkReg (pdats m) 1 launch1 (fun c => body_obligation1 (fun c b => Gen.V3 m (outs m) c b) c) (Gen.V3 m (outs m)) (Gen.V4 m (outs m)) 6 (by decide)
    (fun c => (show Gen.V4 m (outs m) c main_v21 = _ from Function.update_self ..).trans (outs_4 m c))
    (fun _ _ hb => Function.update_of_ne (StableHlo.devRef_ne_of_ne hb) ..)
    (fun _ _ => rfl) (fun _ _ => rfl) (fun _ _ => rfl) (fun _ _ => rfl) (fun _ _ => rfl)
def reg2 : Reg m 2 :=
  mkReg (pdats m) 2 launch2 (fun c => body_obligation2 (fun c b => Gen.V7 m (outs m) c b) c) (Gen.V7 m (outs m)) (Gen.V8 m (outs m)) 5 (by decide)
    (fun c => (show Gen.V8 m (outs m) c main_v30 = _ from Function.update_self ..).trans (outs_8 m c))
    (fun _ _ hb => Function.update_of_ne (StableHlo.devRef_ne_of_ne hb) ..)
    (fun _ _ => rfl) (fun _ _ => rfl) (fun _ _ => rfl) (fun _ _ => rfl) (fun _ _ => rfl)
def reg3 : Reg m 3 :=
  mkReg (pdats m) 3 launch3 (fun c => body_obligation3 (fun c b => Gen.V9 m (outs m) c b) c) (Gen.V9 m (outs m)) (Gen.V10 m (outs m)) 6 (by decide)
    (fun c => (show Gen.V10 m (outs m) c main_v45 = _ from Function.update_self ..).trans (outs_10 m c))
    (fun _ _ hb => Function.update_of_ne (StableHlo.devRef_ne_of_ne hb) ..)
    (fun _ _ => rfl) (fun _ _ => rfl) (fun _ _ => rfl) (fun _ _ => rfl) (fun _ _ => rfl)
def reg4 : Reg m 4 :=
  mkReg (pdats m) 4 launch4 (fun c => body_obligation4 (fun c b => Gen.V13 m (outs m) c b) c) (Gen.V13 m (outs m)) (Gen.V14 m (outs m)) 5 (by decide)
    (fun c => (show Gen.V14 m (outs m) c main_v54 = _ from Function.update_self ..).trans (outs_14 m c))
    (fun _ _ hb => Function.update_of_ne (StableHlo.devRef_ne_of_ne hb) ..)
    (fun _ _ => rfl) (fun _ _ => rfl) (fun _ _ => rfl) (fun _ _ => rfl) (fun _ _ => rfl)
def reg5 : Reg m 5 :=
  mkReg (pdats m) 5 launch5 (fun c => body_obligation5 (fun c b => Gen.V15 m (outs m) c b) c) (Gen.V15 m (outs m)) (Gen.V16 m (outs m)) 6 (by decide)
    (fun c => (show Gen.V16 m (outs m) c main_v69 = _ from Function.update_self ..).trans (outs_16 m c))
    (fun _ _ hb => Function.update_of_ne (StableHlo.devRef_ne_of_ne hb) ..)
    (fun _ _ => rfl) (fun _ _ => rfl) (fun _ _ => rfl) (fun _ _ => rfl) (fun _ _ => rfl)
def reg6 : Reg m 6 :=
  mkReg (pdats m) 6 launch6 (fun c => body_obligation6 (fun c b => Gen.V19 m (outs m) c b) c) (Gen.V19 m (outs m)) (Gen.V20 m (outs m)) 5 (by decide)
    (fun c => (show Gen.V20 m (outs m) c main_v78 = _ from Function.update_self ..).trans (outs_20 m c))
    (fun _ _ hb => Function.update_of_ne (StableHlo.devRef_ne_of_ne hb) ..)
    (fun _ _ => rfl) (fun _ _ => rfl) (fun _ _ => rfl) (fun _ _ => rfl) (fun _ _ => rfl)
def reg7 : Reg m 7 :=
  mkReg (pdats m) 7 launch7 (fun c => body_obligation7 (fun c b => Gen.V21 m (outs m) c b) c) (Gen.V21 m (outs m)) (Gen.V22 m (outs m)) 3 (by decide)
    (fun c => (show Gen.V22 m (outs m) c main_v82 = _ from Function.update_self ..).trans (outs_22 m c))
    (fun _ _ hb => Function.update_of_ne (StableHlo.devRef_ne_of_ne hb) ..)
    (fun _ _ => rfl) (fun _ _ => rfl) (fun _ _ => rfl) (fun _ _ => rfl) (fun _ _ => rfl)
def reg8 : Reg m 8 :=
  mkReg (pdats m) 8 launch8 (fun c => body_obligation8 (fun c b => Gen.V25 m (outs m) c b) c) (Gen.V25 m (outs m)) (Gen.V26 m (outs m)) 7 (by decide)
    (fun c => (show Gen.V26 m (outs m) c main_v93 = _ from Function.update_self ..).trans (outs_26 m c))
    (fun _ _ hb => Function.update_of_ne (StableHlo.devRef_ne_of_ne hb) ..)
    (fun _ _ => rfl) (fun _ _ => rfl) (fun _ _ => rfl) (fun _ _ => rfl) (fun _ _ => rfl)

abbrev runSegs (c : Dev nD) : List (Pipeline.Seg (pcfgs (F := F)) Gen.adm (pdats m) () defs₀ runVar runL runLv) :=
  Gen.segs m (outs m) runVar runL runLv rideE () (pdats m) (reg0 m) (reg1 m) (reg2 m) (reg3 m) (reg4 m) (reg5 m) (reg6 m) (reg7 m) (reg8 m) c

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

theorem V27_args (c : Dev nD) : args.Forall fun b : Ref sig .tc => Gen.V27 m (outs m) c b = m ((c.tc : Thread nD τ).loc b) := by
  and_intros
  exacts [V27_main_arg0 m _ c, V27_main_arg1 m _ c, V27_main_arg2 m _ c, V27_main_arg3 m _ c, V27_main_arg4 m _ c, V27_main_arg5 m _ c, V27_main_arg6 m _ c, V27_main_arg7 m _ c, V27_main_arg8 m _ c, V27_main_arg9 m _ c, V27_main_arg10 m _ c, V27_main_arg11 m _ c, V27_main_arg12 m _ c, V27_main_arg13 m _ c, V27_main_arg14 m _ c, V27_main_arg15 m _ c, V27_main_arg16 m _ c, V27_main_arg17 m _ c, V27_main_arg18 m _ c, V27_main_arg19 m _ c, V27_main_arg20 m _ c, V27_main_arg21 m _ c, V27_main_arg22 m _ c, V27_main_arg23 m _ c, V27_main_arg24 m _ c, V27_main_arg25 m _ c, V27_main_arg26 m _ c, V27_main_arg27 m _ c, V27_main_arg28 m _ c]

set_option backward.isDefEq.respectTransparency.types false in
-- Every weakly fair execution of @main ends with the result at the last boundary's contents and every argument as launched.
theorem run (ρ : Dev nD → PrngReg) : θ_run defs (onTc (τ := τ) (main (F := F))) ⟨m, fun _ => 0, ρ⟩ fun r => ∀ c : Dev nD,
    r.2.mem ((c.tc : Thread nD τ).loc main_v94) = Gen.V27 m (outs m) c main_v94 ∧
      args.Forall fun b : Ref sig .tc => r.2.mem ((c.tc : Thread nD τ).loc b) = m ((c.tc : Thread nD τ).loc b) := by
  refine Pipeline.θ_run_regions_kit_dev (pcfgs (F := F)) Gen.adm (pdats m) () cellOf_inj emb₁ defs₀ runVar runL runLv m ρ main
    (runSegs m)
    (fun c Q => by
      rw [(main_chain c).trans ((congrArg Pipeline.chain (rfl : _ = (runSegs m c).map Pipeline.Seg.prog)).trans (Pipeline.Seg.run_eq_chain _).symm)])
    (fun c => by simp only [runSegs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_u₀)
    (T₀ := fun c => iprop(StableHlo.held (c : Thread nD τ) (Pipeline.ucRefs τ sig) (Gen.V0 m c) ∗ rideR c))
    (Tₙ := fun c => StableHlo.held (c : Thread nD τ) (Pipeline.ucRefs τ sig) (Gen.V27 m (outs m) c))
    (hch := fun c => ⟨.rfl, .rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, sep_mono .rfl (by iintro ⟨-, H⟩; iexact H)⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V27 m (outs m) c b)
    (hfin := fun c s' => by
      iintro ⟨Hh, HSI⟩
      unfold StableHlo.held
      imodintro
      iapply (pointsTo_read_all (Pipeline.ucRefs τ sig) (fun b => (((c : Thread nD τ)).1, b)) (Gen.V27 m (outs m) c) s')
      isplitl [Hh] <;> iassumption)
    (hQ := fun s h c =>
      ⟨h c _ (result_mem main_v94 (by decide)), List.forall_iff_forall_mem.2 fun b hm =>
        (h c _ (result_mem b ((by decide : ∀ b ∈ args, ¬ (Proc.devRef .tc b : DevRef τ sig).isScoped) b hm))).trans
          (List.forall_iff_forall_mem.1 (V27_args m c) b hm)⟩)

end Cert.Proof.KI

end
-- ==== Proof.Ref.Ops.lean ====
import proofs.«431052_j82222853914919_1_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem

variable {F : FTy → Type} [FloatOps F]

-- The tensors of shape `s` over element type `e`.
abbrev Ct (s : Shape) (e : EltTy) : Type := (⟨s, e⟩ : BufTy).Contents (Elt F)

structure Ok (W : List (Ref sig .tc)) (op : HloOp τ sig (Elt F)) : Prop where
  writes : op.writes ⊆ (W.map (Proc.devRef (τ := τ) .tc)).toFinset
  bufs : op.bufs ⊆ StableHlo.tcRefs τ sig
  fresh : op.fresh = ∅

class Built (op : HloOp τ sig (Elt F)) (y : outParam (Ref sig .tc)) : Prop where
  writes : op.writes = {Proc.devRef .tc y}
  bufs : op.bufs ⊆ StableHlo.tcRefs τ sig
  fresh : op.fresh = ∅

instance {y v hy} : Built (StableHlo.nullary (Val := Elt F) y v hy) y := ⟨rfl, StableHlo.nullary_bufs_sub .., rfl⟩
instance {x y f hx hy} : Built (StableHlo.unary (Val := Elt F) x y f hx hy) y := ⟨rfl, StableHlo.unary_bufs_sub .., rfl⟩
instance {a b y f ha hb hy} : Built (StableHlo.binary (Val := Elt F) a b y f ha hb hy) y := ⟨rfl, StableHlo.binary_bufs_sub .., rfl⟩
instance {c a b y f hc ha hb hy} : Built (StableHlo.ternary (Val := Elt F) c a b y f hc ha hb hy) y := ⟨rfl, StableHlo.ternary_bufs_sub .., rfl⟩
instance {x y he hn hx hy} : Built (StableHlo.reshape (Val := Elt F) x y he hn hx hy) y := ⟨rfl, StableHlo.reshape_bufs_sub .., rfl⟩
instance {n} {xs : Fin n → Ref sig .tc} {y f hxs hy} : Built (StableHlo.nary (Val := Elt F) xs y f hxs hy) y := ⟨rfl, StableHlo.nary_bufs_sub .., rfl⟩

theorem ok {W : List (Ref sig .tc)} {op : HloOp τ sig (Elt F)} {y : Ref sig .tc} [b : Built op y] (h : y ∈ W) : Ok W op :=
  ⟨b.writes ▸ Finset.singleton_subset_iff.mpr (List.mem_toFinset.mpr (List.mem_map_of_mem h)), b.bufs, b.fresh⟩

abbrev seg_emb : List (HloOp τ sig (Elt F)) :=
  [ StableHlo.unary main_arg28 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg28 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S50000 ![] bcast_S_S50000 : Ct S_ .i32 → Ct S50000 .i32),
    StableHlo.binary main_arg26 main_v4 main_v5 (cmpi .slt : Ct S50000 .i32 → Ct S50000 .i32 → Ct S50000 .i1),
    StableHlo.nullary main_c_0 (constantI S_ 32 64#32),
    StableHlo.unary main_c_0 main_v6 (broadcastInDim S50000 ![] bcast_S_S50000 : Ct S_ .i32 → Ct S50000 .i32),
    StableHlo.binary main_arg26 main_v6 main_v7 (addi : Ct S50000 .i32 → Ct S50000 .i32 → Ct S50000 .i32),
    StableHlo.ternary main_v5 main_v7 main_arg26 main_v8 (select : Ct S50000 .i1 → Ct S50000 .i32 → Ct S50000 .i32 → Ct S50000 .i32),
    StableHlo.unary main_v8 main_v9 (broadcastInDim S50000x1 ![0] bcast_S50000_S50000x1_0 : Ct S50000 .i32 → Ct S50000x1 .i32),
    StableHlo.binary main_arg0 main_v9 main_v10 ((fun x i => Host.gather gather_S64x64_S50000x1_S50000x64_1_0_n_n_0_1_164 x i) : (⟨S64x64, .f32⟩ : BufTy).Contents (Elt F) → (⟨S50000x1, .i32⟩ : BufTy).Contents (Elt F) → (⟨S50000x64, .f32⟩ : BufTy).Contents (Elt F)),
    StableHlo.nullary main_c_1 (constantI S_ 32 0#32),
    StableHlo.unary main_c_1 main_v11 (broadcastInDim S50000 ![] bcast_S_S50000 : Ct S_ .i32 → Ct S50000 .i32),
    StableHlo.binary main_arg27 main_v11 main_v12 (cmpi .slt : Ct S50000 .i32 → Ct S50000 .i32 → Ct S50000 .i1),
    StableHlo.nullary main_c_2 (constantI S_ 32 16#32),
    StableHlo.unary main_c_2 main_v13 (broadcastInDim S50000 ![] bcast_S_S50000 : Ct S_ .i32 → Ct S50000 .i32),
    StableHlo.binary main_arg27 main_v13 main_v14 (addi : Ct S50000 .i32 → Ct S50000 .i32 → Ct S50000 .i32),
    StableHlo.ternary main_v12 main_v14 main_arg27 main_v15 (select : Ct S50000 .i1 → Ct S50000 .i32 → Ct S50000 .i32 → Ct S50000 .i32),
    StableHlo.unary main_v15 main_v16 (broadcastInDim S50000x1 ![0] bcast_S50000_S50000x1_0 : Ct S50000 .i32 → Ct S50000x1 .i32),
    StableHlo.binary main_arg1 main_v16 main_v17 ((fun x i => Host.gather gather_S16x64_S50000x1_S50000x64_1_0_n_n_0_1_164 x i) : (⟨S16x64, .f32⟩ : BufTy).Contents (Elt F) → (⟨S50000x1, .i32⟩ : BufTy).Contents (Elt F) → (⟨S50000x64, .f32⟩ : BufTy).Contents (Elt F)),
    StableHlo.binary main_v10 main_v17 main_v18 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

abbrev seg_emb_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]

theorem seg_emb_ok : (seg_emb (F := F)).Forall (Ok seg_emb_W) := by
  repeat' apply And.intro
  all_goals exact ok (by decide)

abbrev segA0 : List (HloOp τ sig (Elt F)) :=
  [ StableHlo.nullary main_c_3 (constantI S_ 32 0#32),
    StableHlo.unary main_c_3 main_v19 (broadcastInDim S800000 ![] bcast_S_S800000 : Ct S_ .i32 → Ct S800000 .i32),
    StableHlo.binary main_v1 main_v19 main_v20 (cmpi .slt : Ct S800000 .i32 → Ct S800000 .i32 → Ct S800000 .i1),
    StableHlo.nullary main_c_4 (constantI S_ 32 50000#32),
    StableHlo.unary main_c_4 main_v21 (broadcastInDim S800000 ![] bcast_S_S800000 : Ct S_ .i32 → Ct S800000 .i32),
    StableHlo.binary main_v1 main_v21 main_v22 (addi : Ct S800000 .i32 → Ct S800000 .i32 → Ct S800000 .i32),
    StableHlo.ternary main_v20 main_v22 main_v1 main_v23 (select : Ct S800000 .i1 → Ct S800000 .i32 → Ct S800000 .i32 → Ct S800000 .i32),
    StableHlo.unary main_v23 main_v24 (broadcastInDim S800000x1 ![0] bcast_S800000_S800000x1_0 : Ct S800000 .i32 → Ct S800000x1 .i32),
    StableHlo.binary main_v18 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v26 (broadcastInDim S50000x128 ![] bcast_S_S50000x128 : Ct S_ .f32 → Ct S50000x128 .f32),
    StableHlo.unary main_v3 main_v27 (broadcastInDim S800000x1 ![0] bcast_S800000_S800000x1_0 : Ct S800000 .i32 → Ct S800000x1 .i32),
    StableHlo.ternary main_v26 main_v27 main_v25 main_v28 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v18 main_v28 main_v29 (addf : Ct S50000x128 .f32 → Ct S50000x128 .f32 → Ct S50000x128 .f32),
    StableHlo.unary main_arg2 main_v30 ((transpose S128x128 [1, 0] · transposes_S128x128_S128x128_1_0) : (⟨S128x128, .f32⟩ : BufTy).Contents (Elt F) → (⟨S128x128, .f32⟩ : BufTy).Contents (Elt F)),
    StableHlo.binary main_v29 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v32 (broadcastInDim S1x128 ![1] bcast_S128_S1x128_1 : Ct S128 .f32 → Ct S1x128 .f32),
    StableHlo.unary main_v32 main_v33 (broadcastInDim S50000x128 ![0, 1] bcast_S1x128_S50000x128_0_1 : Ct S1x128 .f32 → Ct S50000x128 .f32),
    StableHlo.binary main_v31 main_v33 main_v34 (addf : Ct S50000x128 .f32 → Ct S50000x128 .f32 → Ct S50000x128 .f32),
    StableHlo.nullary main_cst_5 (constant S_ .f32 0x00000000#32),
    StableHlo.unary main_cst_5 main_v35 (broadcastInDim S50000x128 ![] bcast_S_S50000x128 : Ct S_ .f32 → Ct S50000x128 .f32),
    StableHlo.binary main_v34 main_v35 main_v36 (cmpf .ogt : Ct S50000x128 .f32 → Ct S50000x128 .f32 → Ct S50000x128 .i1),
    StableHlo.nullary main_cst_6 (constant S_ .f32 0x3C23D70A#32),
    StableHlo.unary main_cst_6 main_v37 (broadcastInDim S50000x128 ![] bcast_S_S50000x128 : Ct S_ .f32 → Ct S50000x128 .f32),
    StableHlo.binary main_v37 main_v34 main_v38 (mulf : Ct S50000x128 .f32 → Ct S50000x128 .f32 → Ct S50000x128 .f32),
    StableHlo.TRef.ternary (.of (T := ⟨S50000x128, .i1⟩) main_v36) (.of (T := ⟨S50000x128, .f32⟩) main_v34) (.of (T := ⟨S50000x128, .f32⟩) main_v38) main_call0.v0 select,
    StableHlo.unary main_arg4 main_v40 ((transpose S128x64 [1, 0] · transposes_S64x128_S128x64_1_0) : (⟨S64x128, .f32⟩ : BufTy).Contents (Elt F) → (⟨S128x64, .f32⟩ : BufTy).Contents (Elt F)),
    StableHlo.binary main_v39 main_v40 main_v41 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v42 (broadcastInDim S1x64 ![1] bcast_S64_S1x64_1 : Ct S64 .f32 → Ct S1x64 .f32),
    StableHlo.unary main_v42 main_v43 (broadcastInDim S50000x64 ![0, 1] bcast_S1x64_S50000x64_0_1 : Ct S1x64 .f32 → Ct S50000x64 .f32),
    StableHlo.binary main_v41 main_v43 main_v44 (addf : Ct S50000x64 .f32 → Ct S50000x64 .f32 → Ct S50000x64 .f32) ]

abbrev segA0_W : List (Ref sig .tc) := [main_c_3, main_v19, main_v20, main_c_4, main_v21, main_v22, main_v23, main_v24, main_v25, main_cst, main_v26, main_v27, main_v28, main_v29, main_v30, main_v31, main_v32, main_v33, main_v34, main_cst_5, main_v35, main_v36, main_cst_6, main_v37, main_v38, main_v39, main_v40, main_v41, main_v42, main_v43, main_v44]

theorem segA0_ok : (segA0 (F := F)).Forall (Ok segA0_W) := by
  repeat' apply And.intro
  all_goals exact ok (by decide)

abbrev segB0 : List (HloOp τ sig (Elt F)) :=
  [ StableHlo.nullary main_cst_7 (constant S_ .f32 0x00000000#32),
    StableHlo.binary main_v44 main_cst_7 main_v45 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_8 (constant S_ .f32 0x47435000#32),
    StableHlo.unary main_cst_8 main_v46 (broadcastInDim S64 ![] bcast_S_S64 : Ct S_ .f32 → Ct S64 .f32),
    StableHlo.binary main_v45 main_v46 main_v47 (Host.divf : Ct S64 .f32 → Ct S64 .f32 → Ct S64 .f32),
    StableHlo.nullary main_c_9 (constantI S_ 32 0#32),
    StableHlo.TRef.nullary main_call1.cst (constant S_ .f32 0x00000000#32),
    StableHlo.TRef.binary (.of (T := ⟨S50000x64, .f32⟩) main_v44) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of (T := ⟨S50000x64, .f32⟩) main_v44) main_call1.v4 main_call1.v5 subf,
    StableHlo.TRef.binary main_call1.v5 main_call1.v5 main_call1.v6 mulf,
    StableHlo.TRef.unary (.of (T := ⟨S_, .i32⟩) main_c_9) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v47 main_v49 (broadcastInDim S1x64 ![1] bcast_S64_S1x64_1 : Ct S64 .f32 → Ct S1x64 .f32),
    StableHlo.unary main_v49 main_v50 (broadcastInDim S50000x64 ![0, 1] bcast_S1x64_S50000x64_0_1 : Ct S1x64 .f32 → Ct S50000x64 .f32),
    StableHlo.binary main_v44 main_v50 main_v51 (subf : Ct S50000x64 .f32 → Ct S50000x64 .f32 → Ct S50000x64 .f32),
    StableHlo.nullary main_cst_10 (constant S_ .f32 0x3727C5AC#32),
    StableHlo.unary main_cst_10 main_v52 (broadcastInDim S64 ![] bcast_S_S64 : Ct S_ .f32 → Ct S64 .f32),
    StableHlo.binary main_v48 main_v52 main_v53 (addf : Ct S64 .f32 → Ct S64 .f32 → Ct S64 .f32),
    StableHlo.unary main_v53 main_v54 (Host.rsqrt : Ct S64 .f32 → Ct S64 .f32),
    StableHlo.unary main_v54 main_v55 (broadcastInDim S1x64 ![1] bcast_S64_S1x64_1 : Ct S64 .f32 → Ct S1x64 .f32),
    StableHlo.unary main_v55 main_v56 (broadcastInDim S50000x64 ![0, 1] bcast_S1x64_S50000x64_0_1 : Ct S1x64 .f32 → Ct S50000x64 .f32),
    StableHlo.binary main_v51 main_v56 main_v57 (mulf : Ct S50000x64 .f32 → Ct S50000x64 .f32 → Ct S50000x64 .f32),
    StableHlo.unary main_arg6 main_v58 (broadcastInDim S1x64 ![1] bcast_S64_S1x64_1 : Ct S64 .f32 → Ct S1x64 .f32),
    StableHlo.unary main_v58 main_v59 (broadcastInDim S50000x64 ![0, 1] bcast_S1x64_S50000x64_0_1 : Ct S1x64 .f32 → Ct S50000x64 .f32),
    StableHlo.binary main_v57 main_v59 main_v60 (mulf : Ct S50000x64 .f32 → Ct S50000x64 .f32 → Ct S50000x64 .f32),
    StableHlo.unary main_arg7 main_v61 (broadcastInDim S1x64 ![1] bcast_S64_S1x64_1 : Ct S64 .f32 → Ct S1x64 .f32),
    StableHlo.unary main_v61 main_v62 (broadcastInDim S50000x64 ![0, 1] bcast_S1x64_S50000x64_0_1 : Ct S1x64 .f32 → Ct S50000x64 .f32),
    StableHlo.binary main_v60 main_v62 main_v63 (addf : Ct S50000x64 .f32 → Ct S50000x64 .f32 → Ct S50000x64 .f32),
    StableHlo.nullary main_cst_11 (constant S_ .f32 0x00000000#32),
    StableHlo.unary main_cst_11 main_v64 (broadcastInDim S50000x64 ![] bcast_S_S50000x64 : Ct S_ .f32 → Ct S50000x64 .f32),
    StableHlo.binary main_v63 main_v64 main_v65 (cmpf .ogt : Ct S50000x64 .f32 → Ct S50000x64 .f32 → Ct S50000x64 .i1),
    StableHlo.nullary main_cst_12 (constant S_ .f32 0x3C23D70A#32),
    StableHlo.unary main_cst_12 main_v66 (broadcastInDim S50000x64 ![] bcast_S_S50000x64 : Ct S_ .f32 → Ct S50000x64 .f32),
    StableHlo.binary main_v66 main_v63 main_v67 (mulf : Ct S50000x64 .f32 → Ct S50000x64 .f32 → Ct S50000x64 .f32),
    StableHlo.TRef.ternary (.of (T := ⟨S50000x64, .i1⟩) main_v65) (.of (T := ⟨S50000x64, .f32⟩) main_v63) (.of (T := ⟨S50000x64, .f32⟩) main_v67) main_call2.v0 select ]

abbrev segB0_W : List (Ref sig .tc) := [main_cst_7, main_v45, main_cst_8, main_v46, main_v47, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v48, main_v49, main_v50, main_v51, main_cst_10, main_v52, main_v53, main_v54, main_v55, main_v56, main_v57, main_v58, main_v59, main_v60, main_v61, main_v62, main_v63, main_cst_11, main_v64, main_v65, main_cst_12, main_v66, main_v67, main_v68]

theorem segB0_ok : (segB0 (F := F)).Forall (Ok segB0_W) := by
  repeat' apply And.intro
  all_goals exact ok (by decide)

abbrev segA1 : List (HloOp τ sig (Elt F)) :=
  [ StableHlo.nullary main_c_13 (constantI S_ 32 0#32),
    StableHlo.unary main_c_13 main_v69 (broadcastInDim S800000 ![] bcast_S_S800000 : Ct S_ .i32 → Ct S800000 .i32),
    StableHlo.binary main_v1 main_v69 main_v70 (cmpi .slt : Ct S800000 .i32 → Ct S800000 .i32 → Ct S800000 .i1),
    StableHlo.nullary main_c_14 (constantI S_ 32 50000#32),
    StableHlo.unary main_c_14 main_v71 (broadcastInDim S800000 ![] bcast_S_S800000 : Ct S_ .i32 → Ct S800000 .i32),
    StableHlo.binary main_v1 main_v71 main_v72 (addi : Ct S800000 .i32 → Ct S800000 .i32 → Ct S800000 .i32),
    StableHlo.ternary main_v70 main_v72 main_v1 main_v73 (select : Ct S800000 .i1 → Ct S800000 .i32 → Ct S800000 .i32 → Ct S800000 .i32),
    StableHlo.unary main_v73 main_v74 (broadcastInDim S800000x1 ![0] bcast_S800000_S800000x1_0 : Ct S800000 .i32 → Ct S800000x1 .i32),
    StableHlo.binary main_v68 main_v74 main_v75 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_15 (constant S_ .f32 0x00000000#32),
    StableHlo.unary main_cst_15 main_v76 (broadcastInDim S50000x64 ![] bcast_S_S50000x64 : Ct S_ .f32 → Ct S50000x64 .f32),
    StableHlo.unary main_v3 main_v77 (broadcastInDim S800000x1 ![0] bcast_S800000_S800000x1_0 : Ct S800000 .i32 → Ct S800000x1 .i32),
    StableHlo.ternary main_v76 main_v77 main_v75 main_v78 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v68 main_v78 main_v79 (addf : Ct S50000x64 .f32 → Ct S50000x64 .f32 → Ct S50000x64 .f32),
    StableHlo.unary main_arg8 main_v80 ((transpose S64x64 [1, 0] · transposes_S64x64_S64x64_1_0) : (⟨S64x64, .f32⟩ : BufTy).Contents (Elt F) → (⟨S64x64, .f32⟩ : BufTy).Contents (Elt F)),
    StableHlo.binary main_v79 main_v80 main_v81 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v82 (broadcastInDim S1x64 ![1] bcast_S64_S1x64_1 : Ct S64 .f32 → Ct S1x64 .f32),
    StableHlo.unary main_v82 main_v83 (broadcastInDim S50000x64 ![0, 1] bcast_S1x64_S50000x64_0_1 : Ct S1x64 .f32 → Ct S50000x64 .f32),
    StableHlo.binary main_v81 main_v83 main_v84 (addf : Ct S50000x64 .f32 → Ct S50000x64 .f32 → Ct S50000x64 .f32),
    StableHlo.nullary main_cst_16 (constant S_ .f32 0x00000000#32),
    StableHlo.unary main_cst_16 main_v85 (broadcastInDim S50000x64 ![] bcast_S_S50000x64 : Ct S_ .f32 → Ct S50000x64 .f32),
    StableHlo.binary main_v84 main_v85 main_v86 (cmpf .ogt : Ct S50000x64 .f32 → Ct S50000x64 .f32 → Ct S50000x64 .i1),
    StableHlo.nullary main_cst_17 (constant S_ .f32 0x3C23D70A#32),
    StableHlo.unary main_cst_17 main_v87 (broadcastInDim S50000x64 ![] bcast_S_S50000x64 : Ct S_ .f32 → Ct S50000x64 .f32),
    StableHlo.binary main_v87 main_v84 main_v88 (mulf : Ct S50000x64 .f32 → Ct S50000x64 .f32 → Ct S50000x64 .f32),
    StableHlo.TRef.ternary (.of (T := ⟨S50000x64, .i1⟩) main_v86) (.of (T := ⟨S50000x64, .f32⟩) main_v84) (.of (T := ⟨S50000x64, .f32⟩) main_v88) main_call3.v0 select,
    StableHlo.unary main_arg10 main_v90 ((transpose S64x64 [1, 0] · transposes_S64x64_S64x64_1_0) : (⟨S64x64, .f32⟩ : BufTy).Contents (Elt F) → (⟨S64x64, .f32⟩ : BufTy).Contents (Elt F)),
    StableHlo.binary main_v89 main_v90 main_v91 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v92 (broadcastInDim S1x64 ![1] bcast_S64_S1x64_1 : Ct S64 .f32 → Ct S1x64 .f32),
    StableHlo.unary main_v92 main_v93 (broadcastInDim S50000x64 ![0, 1] bcast_S1x64_S50000x64_0_1 : Ct S1x64 .f32 → Ct S50000x64 .f32),
    StableHlo.binary main_v91 main_v93 main_v94 (addf : Ct S50000x64 .f32 → Ct S50000x64 .f32 → Ct S50000x64 .f32) ]

abbrev segA1_W : List (Ref sig .tc) := [main_c_13, main_v69, main_v70, main_c_14, main_v71, main_v72, main_v73, main_v74, main_v75, main_cst_15, main_v76, main_v77, main_v78, main_v79, main_v80, main_v81, main_v82, main_v83, main_v84, main_cst_16, main_v85, main_v86, main_cst_17, main_v87, main_v88, main_v89, main_v90, main_v91, main_v92, main_v93, main_v94]

theorem segA1_ok : (segA1 (F := F)).Forall (Ok segA1_W) := by
  repeat' apply And.intro
  all_goals exact ok (by decide)

abbrev segB1 : List (HloOp τ sig (Elt F)) :=
  [ StableHlo.nullary main_cst_18 (constant S_ .f32 0x00000000#32),
    StableHlo.binary main_v94 main_cst_18 main_v95 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v96 (broadcastInDim S64 ![] bcast_S_S64 : Ct S_ .f32 → Ct S64 .f32),
    StableHlo.binary main_v95 main_v96 main_v97 (Host.divf : Ct S64 .f32 → Ct S64 .f32 → Ct S64 .f32),
    StableHlo.nullary main_c_20 (constantI S_ 32 0#32),
    StableHlo.TRef.nullary main_call4.cst (constant S_ .f32 0x00000000#32),
    StableHlo.TRef.binary (.of (T := ⟨S50000x64, .f32⟩) main_v94) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of (T := ⟨S50000x64, .f32⟩) main_v94) main_call4.v4 main_call4.v5 subf,
    StableHlo.TRef.binary main_call4.v5 main_call4.v5 main_call4.v6 mulf,
    StableHlo.TRef.unary (.of (T := ⟨S_, .i32⟩) main_c_20) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v97 main_v99 (broadcastInDim S1x64 ![1] bcast_S64_S1x64_1 : Ct S64 .f32 → Ct S1x64 .f32),
    StableHlo.unary main_v99 main_v100 (broadcastInDim S50000x64 ![0, 1] bcast_S1x64_S50000x64_0_1 : Ct S1x64 .f32 → Ct S50000x64 .f32),
    StableHlo.binary main_v94 main_v100 main_v101 (subf : Ct S50000x64 .f32 → Ct S50000x64 .f32 → Ct S50000x64 .f32),
    StableHlo.nullary main_cst_21 (constant S_ .f32 0x3727C5AC#32),
    StableHlo.unary main_cst_21 main_v102 (broadcastInDim S64 ![] bcast_S_S64 : Ct S_ .f32 → Ct S64 .f32),
    StableHlo.binary main_v98 main_v102 main_v103 (addf : Ct S64 .f32 → Ct S64 .f32 → Ct S64 .f32),
    StableHlo.unary main_v103 main_v104 (Host.rsqrt : Ct S64 .f32 → Ct S64 .f32),
    StableHlo.unary main_v104 main_v105 (broadcastInDim S1x64 ![1] bcast_S64_S1x64_1 : Ct S64 .f32 → Ct S1x64 .f32),
    StableHlo.unary main_v105 main_v106 (broadcastInDim S50000x64 ![0, 1] bcast_S1x64_S50000x64_0_1 : Ct S1x64 .f32 → Ct S50000x64 .f32),
    StableHlo.binary main_v101 main_v106 main_v107 (mulf : Ct S50000x64 .f32 → Ct S50000x64 .f32 → Ct S50000x64 .f32),
    StableHlo.unary main_arg12 main_v108 (broadcastInDim S1x64 ![1] bcast_S64_S1x64_1 : Ct S64 .f32 → Ct S1x64 .f32),
    StableHlo.unary main_v108 main_v109 (broadcastInDim S50000x64 ![0, 1] bcast_S1x64_S50000x64_0_1 : Ct S1x64 .f32 → Ct S50000x64 .f32),
    StableHlo.binary main_v107 main_v109 main_v110 (mulf : Ct S50000x64 .f32 → Ct S50000x64 .f32 → Ct S50000x64 .f32),
    StableHlo.unary main_arg13 main_v111 (broadcastInDim S1x64 ![1] bcast_S64_S1x64_1 : Ct S64 .f32 → Ct S1x64 .f32),
    StableHlo.unary main_v111 main_v112 (broadcastInDim S50000x64 ![0, 1] bcast_S1x64_S50000x64_0_1 : Ct S1x64 .f32 → Ct S50000x64 .f32),
    StableHlo.binary main_v110 main_v112 main_v113 (addf : Ct S50000x64 .f32 → Ct S50000x64 .f32 → Ct S50000x64 .f32),
    StableHlo.nullary main_cst_22 (constant S_ .f32 0x00000000#32),
    StableHlo.unary main_cst_22 main_v114 (broadcastInDim S50000x64 ![] bcast_S_S50000x64 : Ct S_ .f32 → Ct S50000x64 .f32),
    StableHlo.binary main_v113 main_v114 main_v115 (cmpf .ogt : Ct S50000x64 .f32 → Ct S50000x64 .f32 → Ct S50000x64 .i1),
    StableHlo.nullary main_cst_23 (constant S_ .f32 0x3C23D70A#32),
    StableHlo.unary main_cst_23 main_v116 (broadcastInDim S50000x64 ![] bcast_S_S50000x64 : Ct S_ .f32 → Ct S50000x64 .f32),
    StableHlo.binary main_v116 main_v113 main_v117 (mulf : Ct S50000x64 .f32 → Ct S50000x64 .f32 → Ct S50000x64 .f32),
    StableHlo.TRef.ternary (.of (T := ⟨S50000x64, .i1⟩) main_v115) (.of (T := ⟨S50000x64, .f32⟩) main_v113) (.of (T := ⟨S50000x64, .f32⟩) main_v117) main_call5.v0 select ]

abbrev segB1_W : List (Ref sig .tc) := [main_cst_18, main_v95, main_cst_19, main_v96, main_v97, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v98, main_v99, main_v100, main_v101, main_cst_21, main_v102, main_v103, main_v104, main_v105, main_v106, main_v107, main_v108, main_v109, main_v110, main_v111, main_v112, main_v113, main_cst_22, main_v114, main_v115, main_cst_23, main_v116, main_v117, main_v118]

theorem segB1_ok : (segB1 (F := F)).Forall (Ok segB1_W) := by
  repeat' apply And.intro
  all_goals exact ok (by decide)

abbrev segA2 : List (HloOp τ sig (Elt F)) :=
  [ StableHlo.nullary main_c_24 (constantI S_ 32 0#32),
    StableHlo.unary main_c_24 main_v119 (broadcastInDim S800000 ![] bcast_S_S800000 : Ct S_ .i32 → Ct S800000 .i32),
    StableHlo.binary main_v1 main_v119 main_v120 (cmpi .slt : Ct S800000 .i32 → Ct S800000 .i32 → Ct S800000 .i1),
    StableHlo.nullary main_c_25 (constantI S_ 32 50000#32),
    StableHlo.unary main_c_25 main_v121 (broadcastInDim S800000 ![] bcast_S_S800000 : Ct S_ .i32 → Ct S800000 .i32),
    StableHlo.binary main_v1 main_v121 main_v122 (addi : Ct S800000 .i32 → Ct S800000 .i32 → Ct S800000 .i32),
    StableHlo.ternary main_v120 main_v122 main_v1 main_v123 (select : Ct S800000 .i1 → Ct S800000 .i32 → Ct S800000 .i32 → Ct S800000 .i32),
    StableHlo.unary main_v123 main_v124 (broadcastInDim S800000x1 ![0] bcast_S800000_S800000x1_0 : Ct S800000 .i32 → Ct S800000x1 .i32),
    StableHlo.binary main_v118 main_v124 main_v125 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_26 (constant S_ .f32 0x00000000#32),
    StableHlo.unary main_cst_26 main_v126 (broadcastInDim S50000x64 ![] bcast_S_S50000x64 : Ct S_ .f32 → Ct S50000x64 .f32),
    StableHlo.unary main_v3 main_v127 (broadcastInDim S800000x1 ![0] bcast_S800000_S800000x1_0 : Ct S800000 .i32 → Ct S800000x1 .i32),
    StableHlo.ternary main_v126 main_v127 main_v125 main_v128 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v118 main_v128 main_v129 (addf : Ct S50000x64 .f32 → Ct S50000x64 .f32 → Ct S50000x64 .f32),
    StableHlo.unary main_arg14 main_v130 ((transpose S64x64 [1, 0] · transposes_S64x64_S64x64_1_0) : (⟨S64x64, .f32⟩ : BufTy).Contents (Elt F) → (⟨S64x64, .f32⟩ : BufTy).Contents (Elt F)),
    StableHlo.binary main_v129 main_v130 main_v131 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg15 main_v132 (broadcastInDim S1x64 ![1] bcast_S64_S1x64_1 : Ct S64 .f32 → Ct S1x64 .f32),
    StableHlo.unary main_v132 main_v133 (broadcastInDim S50000x64 ![0, 1] bcast_S1x64_S50000x64_0_1 : Ct S1x64 .f32 → Ct S50000x64 .f32),
    StableHlo.binary main_v131 main_v133 main_v134 (addf : Ct S50000x64 .f32 → Ct S50000x64 .f32 → Ct S50000x64 .f32),
    StableHlo.nullary main_cst_27 (constant S_ .f32 0x00000000#32),
    StableHlo.unary main_cst_27 main_v135 (broadcastInDim S50000x64 ![] bcast_S_S50000x64 : Ct S_ .f32 → Ct S50000x64 .f32),
    StableHlo.binary main_v134 main_v135 main_v136 (cmpf .ogt : Ct S50000x64 .f32 → Ct S50000x64 .f32 → Ct S50000x64 .i1),
    StableHlo.nullary main_cst_28 (constant S_ .f32 0x3C23D70A#32),
    StableHlo.unary main_cst_28 main_v137 (broadcastInDim S50000x64 ![] bcast_S_S50000x64 : Ct S_ .f32 → Ct S50000x64 .f32),
    StableHlo.binary main_v137 main_v134 main_v138 (mulf : Ct S50000x64 .f32 → Ct S50000x64 .f32 → Ct S50000x64 .f32),
    StableHlo.TRef.ternary (.of (T := ⟨S50000x64, .i1⟩) main_v136) (.of (T := ⟨S50000x64, .f32⟩) main_v134) (.of (T := ⟨S50000x64, .f32⟩) main_v138) main_call6.v0 select,
    StableHlo.unary main_arg16 main_v140 ((transpose S64x64 [1, 0] · transposes_S64x64_S64x64_1_0) : (⟨S64x64, .f32⟩ : BufTy).Contents (Elt F) → (⟨S64x64, .f32⟩ : BufTy).Contents (Elt F)),
    StableHlo.binary main_v139 main_v140 main_v141 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v142 (broadcastInDim S1x64 ![1] bcast_S64_S1x64_1 : Ct S64 .f32 → Ct S1x64 .f32),
    StableHlo.unary main_v142 main_v143 (broadcastInDim S50000x64 ![0, 1] bcast_S1x64_S50000x64_0_1 : Ct S1x64 .f32 → Ct S50000x64 .f32),
    StableHlo.binary main_v141 main_v143 main_v144 (addf : Ct S50000x64 .f32 → Ct S50000x64 .f32 → Ct S50000x64 .f32) ]

abbrev segA2_W : List (Ref sig .tc) := [main_c_24, main_v119, main_v120, main_c_25, main_v121, main_v122, main_v123, main_v124, main_v125, main_cst_26, main_v126, main_v127, main_v128, main_v129, main_v130, main_v131, main_v132, main_v133, main_v134, main_cst_27, main_v135, main_v136, main_cst_28, main_v137, main_v138, main_v139, main_v140, main_v141, main_v142, main_v143, main_v144]

theorem segA2_ok : (segA2 (F := F)).Forall (Ok segA2_W) := by
  repeat' apply And.intro
  all_goals exact ok (by decide)

abbrev segB2 : List (HloOp τ sig (Elt F)) :=
  [ StableHlo.nullary main_cst_29 (constant S_ .f32 0x00000000#32),
    StableHlo.binary main_v144 main_cst_29 main_v145 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_30 (constant S_ .f32 0x47435000#32),
    StableHlo.unary main_cst_30 main_v146 (broadcastInDim S64 ![] bcast_S_S64 : Ct S_ .f32 → Ct S64 .f32),
    StableHlo.binary main_v145 main_v146 main_v147 (Host.divf : Ct S64 .f32 → Ct S64 .f32 → Ct S64 .f32),
    StableHlo.nullary main_c_31 (constantI S_ 32 0#32),
    StableHlo.TRef.nullary main_call7.cst (constant S_ .f32 0x00000000#32),
    StableHlo.TRef.binary (.of (T := ⟨S50000x64, .f32⟩) main_v144) main_call7.cst main_call7.v0 (fun x v => Host.reduceAdd x v reducesTo_S50000x64_S64_d0 h_S_),
    StableHlo.TRef.unary main_call7.v0 main_call7.v1 (broadcastInDim S1x64 ![1] bcast_S64_S1x64_1),
    StableHlo.TRef.nullary main_call7.cst_0 (constant S_ .f32 0x47435000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S50000x64 ![0, 1] bcast_S1x64_S50000x64_0_1),
    StableHlo.TRef.binary (.of (T := ⟨S50000x64, .f32⟩) main_v144) main_call7.v4 main_call7.v5 subf,
    StableHlo.TRef.binary main_call7.v5 main_call7.v5 main_call7.v6 mulf,
    StableHlo.TRef.unary (.of (T := ⟨S_, .i32⟩) main_c_31) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v147 main_v149 (broadcastInDim S1x64 ![1] bcast_S64_S1x64_1 : Ct S64 .f32 → Ct S1x64 .f32),
    StableHlo.unary main_v149 main_v150 (broadcastInDim S50000x64 ![0, 1] bcast_S1x64_S50000x64_0_1 : Ct S1x64 .f32 → Ct S50000x64 .f32),
    StableHlo.binary main_v144 main_v150 main_v151 (subf : Ct S50000x64 .f32 → Ct S50000x64 .f32 → Ct S50000x64 .f32),
    StableHlo.nullary main_cst_32 (constant S_ .f32 0x3727C5AC#32),
    StableHlo.unary main_cst_32 main_v152 (broadcastInDim S64 ![] bcast_S_S64 : Ct S_ .f32 → Ct S64 .f32),
    StableHlo.binary main_v148 main_v152 main_v153 (addf : Ct S64 .f32 → Ct S64 .f32 → Ct S64 .f32),
    StableHlo.unary main_v153 main_v154 (Host.rsqrt : Ct S64 .f32 → Ct S64 .f32),
    StableHlo.unary main_v154 main_v155 (broadcastInDim S1x64 ![1] bcast_S64_S1x64_1 : Ct S64 .f32 → Ct S1x64 .f32),
    StableHlo.unary main_v155 main_v156 (broadcastInDim S50000x64 ![0, 1] bcast_S1x64_S50000x64_0_1 : Ct S1x64 .f32 → Ct S50000x64 .f32),
    StableHlo.binary main_v151 main_v156 main_v157 (mulf : Ct S50000x64 .f32 → Ct S50000x64 .f32 → Ct S50000x64 .f32),
    StableHlo.unary main_arg18 main_v158 (broadcastInDim S1x64 ![1] bcast_S64_S1x64_1 : Ct S64 .f32 → Ct S1x64 .f32),
    StableHlo.unary main_v158 main_v159 (broadcastInDim S50000x64 ![0, 1] bcast_S1x64_S50000x64_0_1 : Ct S1x64 .f32 → Ct S50000x64 .f32),
    StableHlo.binary main_v157 main_v159 main_v160 (mulf : Ct S50000x64 .f32 → Ct S50000x64 .f32 → Ct S50000x64 .f32),
    StableHlo.unary main_arg19 main_v161 (broadcastInDim S1x64 ![1] bcast_S64_S1x64_1 : Ct S64 .f32 → Ct S1x64 .f32),
    StableHlo.unary main_v161 main_v162 (broadcastInDim S50000x64 ![0, 1] bcast_S1x64_S50000x64_0_1 : Ct S1x64 .f32 → Ct S50000x64 .f32),
    StableHlo.binary main_v160 main_v162 main_v163 (addf : Ct S50000x64 .f32 → Ct S50000x64 .f32 → Ct S50000x64 .f32),
    StableHlo.nullary main_cst_33 (constant S_ .f32 0x00000000#32),
    StableHlo.unary main_cst_33 main_v164 (broadcastInDim S50000x64 ![] bcast_S_S50000x64 : Ct S_ .f32 → Ct S50000x64 .f32),
    StableHlo.binary main_v163 main_v164 main_v165 (cmpf .ogt : Ct S50000x64 .f32 → Ct S50000x64 .f32 → Ct S50000x64 .i1),
    StableHlo.nullary main_cst_34 (constant S_ .f32 0x3C23D70A#32),
    StableHlo.unary main_cst_34 main_v166 (broadcastInDim S50000x64 ![] bcast_S_S50000x64 : Ct S_ .f32 → Ct S50000x64 .f32),
    StableHlo.binary main_v166 main_v163 main_v167 (mulf : Ct S50000x64 .f32 → Ct S50000x64 .f32 → Ct S50000x64 .f32),
    StableHlo.TRef.ternary (.of (T := ⟨S50000x64, .i1⟩) main_v165) (.of (T := ⟨S50000x64, .f32⟩) main_v163) (.of (T := ⟨S50000x64, .f32⟩) main_v167) main_call8.v0 select ]

abbrev segB2_W : List (Ref sig .tc) := [main_cst_29, main_v145, main_cst_30, main_v146, main_v147, main_c_31, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v148, main_v149, main_v150, main_v151, main_cst_32, main_v152, main_v153, main_v154, main_v155, main_v156, main_v157, main_v158, main_v159, main_v160, main_v161, main_v162, main_v163, main_cst_33, main_v164, main_v165, main_cst_34, main_v166, main_v167, main_v168]

theorem segB2_ok : (segB2 (F := F)).Forall (Ok segB2_W) := by
  repeat' apply And.intro
  all_goals exact ok (by decide)

abbrev seg_fc1 : List (HloOp τ sig (Elt F)) :=
  [ StableHlo.nary ![main_v18, main_v68, main_v118, main_v168] main_v169 (fun u => concatenate S50000x320 1 [⟨S50000x128, u 0⟩, ⟨S50000x64, u 1⟩, ⟨S50000x64, u 2⟩, ⟨S50000x64, u 3⟩] concatenates_S50000x128_S50000x64_S50000x64_S50000x64_S50000x320_d1),
    StableHlo.unary main_arg20 main_v170 ((transpose S320x64 [1, 0] · transposes_S64x320_S320x64_1_0) : (⟨S64x320, .f32⟩ : BufTy).Contents (Elt F) → (⟨S320x64, .f32⟩ : BufTy).Contents (Elt F)),
    StableHlo.binary main_v169 main_v170 main_v171 ((fun l r => Host.dotGeneral dot_S50000x320_S320x64_S50000x64_1_0_0_1_n_n none l r) : (⟨S50000x320, .f32⟩ : BufTy).Contents (Elt F) → (⟨S320x64, .f32⟩ : BufTy).Contents (Elt F) → (⟨S50000x64, .f32⟩ : BufTy).Contents (Elt F)),
    StableHlo.unary main_arg21 main_v172 (broadcastInDim S1x64 ![1] bcast_S64_S1x64_1 : Ct S64 .f32 → Ct S1x64 .f32),
    StableHlo.unary main_v172 main_v173 (broadcastInDim S50000x64 ![0, 1] bcast_S1x64_S50000x64_0_1 : Ct S1x64 .f32 → Ct S50000x64 .f32),
    StableHlo.binary main_v171 main_v173 main_v174 (addf : Ct S50000x64 .f32 → Ct S50000x64 .f32 → Ct S50000x64 .f32) ]

abbrev seg_fc1_W : List (Ref sig .tc) := [main_v169, main_v170, main_v171, main_v172, main_v173, main_v174]

theorem seg_fc1_ok : (seg_fc1 (F := F)).Forall (Ok seg_fc1_W) := by
  repeat' apply And.intro
  all_goals exact ok (by decide)

abbrev seg_fin : List (HloOp τ sig (Elt F)) :=
  [ StableHlo.nullary main_cst_35 (constant S_ .f32 0x00000000#32),
    StableHlo.binary main_v174 main_cst_35 main_v175 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_36 (constant S_ .f32 0x47435000#32),
    StableHlo.unary main_cst_36 main_v176 (broadcastInDim S64 ![] bcast_S_S64 : Ct S_ .f32 → Ct S64 .f32),
    StableHlo.binary main_v175 main_v176 main_v177 (Host.divf : Ct S64 .f32 → Ct S64 .f32 → Ct S64 .f32),
    StableHlo.nullary main_c_37 (constantI S_ 32 0#32),
    StableHlo.TRef.nullary main_call9.cst (constant S_ .f32 0x00000000#32),
    StableHlo.TRef.binary (.of (T := ⟨S50000x64, .f32⟩) main_v174) main_call9.cst main_call9.v0 (fun x v => Host.reduceAdd x v reducesTo_S50000x64_S64_d0 h_S_),
    StableHlo.TRef.unary main_call9.v0 main_call9.v1 (broadcastInDim S1x64 ![1] bcast_S64_S1x64_1),
    StableHlo.TRef.nullary main_call9.cst_0 (constant S_ .f32 0x47435000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S50000x64 ![0, 1] bcast_S1x64_S50000x64_0_1),
    StableHlo.TRef.binary (.of (T := ⟨S50000x64, .f32⟩) main_v174) main_call9.v4 main_call9.v5 subf,
    StableHlo.TRef.binary main_call9.v5 main_call9.v5 main_call9.v6 mulf,
    StableHlo.TRef.unary (.of (T := ⟨S_, .i32⟩) main_c_37) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S64 ![] bcast_S_S64),
    StableHlo.TRef.ternary main_call9.v12 main_call9.v11 main_call9.call0.v1 main_call9.call0.v2 (fun p a b => select (broadcastInDim S64 ![] bcast_S_S64 p) a b),
    StableHlo.unary main_v177 main_v179 (broadcastInDim S1x64 ![1] bcast_S64_S1x64_1 : Ct S64 .f32 → Ct S1x64 .f32),
    StableHlo.unary main_v179 main_v180 (broadcastInDim S50000x64 ![0, 1] bcast_S1x64_S50000x64_0_1 : Ct S1x64 .f32 → Ct S50000x64 .f32),
    StableHlo.binary main_v174 main_v180 main_v181 (subf : Ct S50000x64 .f32 → Ct S50000x64 .f32 → Ct S50000x64 .f32),
    StableHlo.nullary main_cst_38 (constant S_ .f32 0x3727C5AC#32),
    StableHlo.unary main_cst_38 main_v182 (broadcastInDim S64 ![] bcast_S_S64 : Ct S_ .f32 → Ct S64 .f32),
    StableHlo.binary main_v178 main_v182 main_v183 (addf : Ct S64 .f32 → Ct S64 .f32 → Ct S64 .f32),
    StableHlo.unary main_v183 main_v184 (Host.rsqrt : Ct S64 .f32 → Ct S64 .f32),
    StableHlo.unary main_v184 main_v185 (broadcastInDim S1x64 ![1] bcast_S64_S1x64_1 : Ct S64 .f32 → Ct S1x64 .f32),
    StableHlo.unary main_v185 main_v186 (broadcastInDim S50000x64 ![0, 1] bcast_S1x64_S50000x64_0_1 : Ct S1x64 .f32 → Ct S50000x64 .f32),
    StableHlo.binary main_v181 main_v186 main_v187 (mulf : Ct S50000x64 .f32 → Ct S50000x64 .f32 → Ct S50000x64 .f32),
    StableHlo.unary main_arg22 main_v188 (broadcastInDim S1x64 ![1] bcast_S64_S1x64_1 : Ct S64 .f32 → Ct S1x64 .f32),
    StableHlo.unary main_v188 main_v189 (broadcastInDim S50000x64 ![0, 1] bcast_S1x64_S50000x64_0_1 : Ct S1x64 .f32 → Ct S50000x64 .f32),
    StableHlo.binary main_v187 main_v189 main_v190 (mulf : Ct S50000x64 .f32 → Ct S50000x64 .f32 → Ct S50000x64 .f32),
    StableHlo.unary main_arg23 main_v191 (broadcastInDim S1x64 ![1] bcast_S64_S1x64_1 : Ct S64 .f32 → Ct S1x64 .f32),
    StableHlo.unary main_v191 main_v192 (broadcastInDim S50000x64 ![0, 1] bcast_S1x64_S50000x64_0_1 : Ct S1x64 .f32 → Ct S50000x64 .f32),
    StableHlo.binary main_v190 main_v192 main_v193 (addf : Ct S50000x64 .f32 → Ct S50000x64 .f32 → Ct S50000x64 .f32),
    StableHlo.nullary main_cst_39 (constant S_ .f32 0x00000000#32),
    StableHlo.unary main_cst_39 main_v194 (broadcastInDim S50000x64 ![] bcast_S_S50000x64 : Ct S_ .f32 → Ct S50000x64 .f32),
    StableHlo.binary main_v193 main_v194 main_v195 (cmpf .ogt : Ct S50000x64 .f32 → Ct S50000x64 .f32 → Ct S50000x64 .i1),
    StableHlo.nullary main_cst_40 (constant S_ .f32 0x3C23D70A#32),
    StableHlo.unary main_cst_40 main_v196 (broadcastInDim S50000x64 ![] bcast_S_S50000x64 : Ct S_ .f32 → Ct S50000x64 .f32),
    StableHlo.binary main_v196 main_v193 main_v197 (mulf : Ct S50000x64 .f32 → Ct S50000x64 .f32 → Ct S50000x64 .f32),
    StableHlo.TRef.ternary (.of (T := ⟨S50000x64, .i1⟩) main_v195) (.of (T := ⟨S50000x64, .f32⟩) main_v193) (.of (T := ⟨S50000x64, .f32⟩) main_v197) main_call10.v0 select,
    StableHlo.unary main_arg24 main_v199 ((transpose S64x1 [1, 0] · transposes_S1x64_S64x1_1_0) : (⟨S1x64, .f32⟩ : BufTy).Contents (Elt F) → (⟨S64x1, .f32⟩ : BufTy).Contents (Elt F)),
    StableHlo.binary main_v198 main_v199 main_v200 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg25 main_v201 (broadcastInDim S1x1 ![1] bcast_S1_S1x1_1 : Ct S1 .f32 → Ct S1x1 .f32),
    StableHlo.unary main_v201 main_v202 (broadcastInDim S50000x1 ![0, 1] bcast_S1x1_S50000x1_0_1 : Ct S1x1 .f32 → Ct S50000x1 .f32),
    StableHlo.binary main_v200 main_v202 main_v203 (addf : Ct S50000x1 .f32 → Ct S50000x1 .f32 → Ct S50000x1 .f32),
    StableHlo.unary main_v203 main_v204 (Host.negf : Ct S50000x1 .f32 → Ct S50000x1 .f32),
    StableHlo.unary main_v204 main_v205 (Host.exp : Ct S50000x1 .f32 → Ct S50000x1 .f32),
    StableHlo.nullary main_cst_41 (constant S_ .f32 0x3F800000#32),
    StableHlo.unary main_cst_41 main_v206 (broadcastInDim S50000x1 ![] bcast_S_S50000x1 : Ct S_ .f32 → Ct S50000x1 .f32),
    StableHlo.binary main_v206 main_v205 main_v207 (addf : Ct S50000x1 .f32 → Ct S50000x1 .f32 → Ct S50000x1 .f32),
    StableHlo.nullary main_cst_42 (constant S_ .f32 0x3F800000#32),
    StableHlo.unary main_cst_42 main_v208 (broadcastInDim S50000x1 ![] bcast_S_S50000x1 : Ct S_ .f32 → Ct S50000x1 .f32),
    StableHlo.binary main_v208 main_v207 main_v209 (Host.divf : Ct S50000x1 .f32 → Ct S50000x1 .f32 → Ct S50000x1 .f32),
    StableHlo.reshape main_v209 main_v210 rfl shapeCasts_S50000x1_S50000 ]

abbrev seg_fin_W : List (Ref sig .tc) := [main_cst_35, main_v175, main_cst_36, main_v176, main_v177, main_c_37, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v178, main_v179, main_v180, main_v181, main_cst_38, main_v182, main_v183, main_v184, main_v185, main_v186, main_v187, main_v188, main_v189, main_v190, main_v191, main_v192, main_v193, main_cst_39, main_v194, main_v195, main_cst_40, main_v196, main_v197, main_v198, main_v199, main_v200, main_v201, main_v202, main_v203, main_v204, main_v205, main_cst_41, main_v206, main_v207, main_cst_42, main_v208, main_v209, main_v210]

theorem seg_fin_ok : (seg_fin (F := F)).Forall (Ok seg_fin_W) := by
  repeat' apply And.intro
  all_goals exact ok (by decide)

end Cert.Proof.Ref

end
-- ==== Proof.Ref.Run.lean ====
import proofs.«431052_j82222853914919_1_alg».proof.Proof.Ref.Ops
import Idealize.ShloMosaic.Lib.StableHlo.Run
import Idealize.ShloMosaic.Lib.Pipeline.Frame

noncomputable section

namespace Cert.Proof.Ref

open Cert.ReferenceIdeal Cert.ReferenceIdeal.Gen Idealize.ShloMosaic Idealize.ShloMosaic.TcCoe Idealize.SL.Sem

variable {F : FTy → Type} [FloatOps F]

abbrev x0_ref : Ref sig .tc := main_v18
abbrev h0_ref : Ref sig .tc := main_v44
abbrev z1_ref : Ref sig .tc := main_v68
abbrev h1_ref : Ref sig .tc := main_v94
abbrev z2_ref : Ref sig .tc := main_v118
abbrev h2_ref : Ref sig .tc := main_v144
abbrev z3_ref : Ref sig .tc := main_v168
abbrev hfc_ref : Ref sig .tc := main_v174
abbrev src_ref : Ref sig .tc := main_v1

abbrev ops : List (HloOp τ sig (Elt F)) := seg_emb ++ segA0 ++ segB0 ++ segA1 ++ segB1 ++ segA2 ++ segB2 ++ seg_fc1 ++ seg_fin

abbrev W0 (m : (ℓ : Loc nD τ sig) → Buf (Elt F) ℓ) (c : Dev nD) : Valuation τ sig (Elt F) := fun b => m (c, b)

theorem after_ops (W : Valuation τ sig (Elt F)) :
    StableHlo.after ops W = StableHlo.after seg_fin (StableHlo.after seg_fc1 (StableHlo.after segB2 (StableHlo.after segA2 (StableHlo.after segB1 (StableHlo.after segA1 (StableHlo.after segB0 (StableHlo.after segA0 (StableHlo.after seg_emb (W))))))))) := by
  simp only [ops, StableHlo.after_append]

-- A line whose operations write inside `W` leaves a reference outside `W` alone.
theorem of_ok {W : List (Ref sig .tc)} {l : List (HloOp τ sig (Elt F))} (h : l.Forall (Ok W)) (V : Valuation τ sig (Elt F))
    {r : Ref sig .tc} (hr : r ∉ W) : StableHlo.after l V r = V r :=
  StableHlo.after_of_writes_sub l V (h.imp fun _ => Ok.writes) hr

theorem seg_emb_of (W : Valuation τ sig (Elt F)) (r : Ref sig .tc) (h : r ∉ seg_emb_W) :
    StableHlo.after seg_emb W r = W r :=
  of_ok seg_emb_ok W h

theorem segA0_of (W : Valuation τ sig (Elt F)) (r : Ref sig .tc) (h : r ∉ segA0_W) :
    StableHlo.after segA0 W r = W r :=
  of_ok segA0_ok W h

theorem segB0_of (W : Valuation τ sig (Elt F)) (r : Ref sig .tc) (h : r ∉ segB0_W) :
    StableHlo.after segB0 W r = W r :=
  of_ok segB0_ok W h

theorem segA1_of (W : Valuation τ sig (Elt F)) (r : Ref sig .tc) (h : r ∉ segA1_W) :
    StableHlo.after segA1 W r = W r :=
  of_ok segA1_ok W h

theorem segB1_of (W : Valuation τ sig (Elt F)) (r : Ref sig .tc) (h : r ∉ segB1_W) :
    StableHlo.after segB1 W r = W r :=
  of_ok segB1_ok W h

theorem segA2_of (W : Valuation τ sig (Elt F)) (r : Ref sig .tc) (h : r ∉ segA2_W) :
    StableHlo.after segA2 W r = W r :=
  of_ok segA2_ok W h

theorem segB2_of (W : Valuation τ sig (Elt F)) (r : Ref sig .tc) (h : r ∉ segB2_W) :
    StableHlo.after segB2 W r = W r :=
  of_ok segB2_ok W h

theorem seg_fc1_of (W : Valuation τ sig (Elt F)) (r : Ref sig .tc) (h : r ∉ seg_fc1_W) :
    StableHlo.after seg_fc1 W r = W r :=
  of_ok seg_fc1_ok W h

theorem seg_fin_of (W : Valuation τ sig (Elt F)) (r : Ref sig .tc) (h : r ∉ seg_fin_W) :
    StableHlo.after seg_fin W r = W r :=
  of_ok seg_fin_ok W h

theorem ops_of (W : Valuation τ sig (Elt F)) (r : Ref sig .tc)
    (h0 : r ∉ seg_emb_W) (h1 : r ∉ segA0_W) (h2 : r ∉ segB0_W) (h3 : r ∉ segA1_W) (h4 : r ∉ segB1_W) (h5 : r ∉ segA2_W) (h6 : r ∉ segB2_W) (h7 : r ∉ seg_fc1_W) (h8 : r ∉ seg_fin_W) :
    StableHlo.after ops W r = W r := by
  rw [after_ops, seg_fin_of _ r h8, seg_fc1_of _ r h7, segB2_of _ r h6, segA2_of _ r h5, segB1_of _ r h4, segA1_of _ r h3, segB0_of _ r h2, segA0_of _ r h1, seg_emb_of _ r h0]

theorem plain {W : List (Ref sig .tc)} {l : List (HloOp τ sig (Elt F))} (h : l.Forall (Ok W)) :
    l.Forall fun op => op.bufs ⊆ StableHlo.tcRefs τ sig ∧ op.fresh = ∅ :=
  h.imp fun _ h => ⟨h.bufs, h.fresh⟩

theorem ops_plain : (ops (F := F)).Forall fun op => op.bufs ⊆ StableHlo.tcRefs τ sig ∧ op.fresh = ∅ := by
  simp only [ops, List.forall_append]
  exact ⟨⟨⟨⟨⟨⟨⟨⟨plain seg_emb_ok, plain segA0_ok⟩, plain segB0_ok⟩, plain segA1_ok⟩, plain segB1_ok⟩, plain segA2_ok⟩, plain segB2_ok⟩, plain seg_fc1_ok⟩, plain seg_fin_ok⟩

-- Unfolding @main and its calls peels it against the line, operation by operation.
theorem main_eq (c : Dev nD) : main (F := F) c = StableHlo.seq ops := by chain_rfl

theorem scopedRefs_eq : (Finset.univ.filter fun b : Ref sig .tc => b.isScoped) = ∅ := by decide

theorem scopedSems_eq : (Finset.univ.filter fun sm : SemLoc sig => sm.isScoped .tc) = ∅ := by decide

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v210) = StableHlo.after ops (W0 m c) main_v210
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => by
      refine ⟨h c main_v210, ?_⟩
      and_intros <;>
        exact (h c _).trans (ops_of _ _ (by decide) (by decide) (by decide) (by decide) (by decide) (by decide) (by decide) (by decide) (by decide)))
    (StableHlo.run_seq scopedRefs_eq scopedSems_eq defs main (fun _ => ops) main_eq (fun _ => ops_plain.imp fun _ h => h.1) m ρ
      fun _ op h => (List.forall_iff_forall_mem.mp ops_plain op h).2)

end Cert.Proof.Ref

end
-- ==== Proof.Val.Stage0_Pay.lean ====
import proofs.«431052_j82222853914919_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Proof.Val.S0

open Idealize.ShloMosaic Idealize.ShloMosaic.ValueIdx
open Cert.KernelIdeal Cert.KernelIdeal.Gen

theorem onehot_entry {n : Nat} (hn : n ≤ 2 ^ 32) (k r : Fin n) :
    (FloatOps.sitofp (F := Ideal) .f32 ((IntOp.cmpi .eq (BitVec.ofNat 32 k.val) (BitVec.ofNat 32 r.val)).setWidth 32) : EReal)
      = if k = r then 1 else 0 := by
  show (((BitVec.ofBool (BitVec.ofNat 32 k.val == BitVec.ofNat 32 r.val)).setWidth 32).toInt : ℝ) = (_ : EReal)
  split
  · next h =>
    rw [h, beq_self_eq_true]
    show (((1#1 : BitVec 1).setWidth 32).toInt : ℝ) = ((1 : ℝ) : EReal)
    norm_num
  · next h =>
    rw [beq_eq_false_iff_ne.mpr fun e => h (Fin.ext (by
      have := congrArg BitVec.toNat e
      simp only [BitVec.toNat_ofNat] at this
      omega))]
    norm_num

-- every term but the selected one is `0 * x = 0`, and that one is `1 * x = x`, for any extended real `x`
theorem onehot_sum {n : Nat} (hn : n ≤ 2 ^ 32) (r : Fin n) (T : Fin n → EReal) :
    ∑ k : Fin n, (FloatOps.sitofp (F := Ideal) .f32 ((IntOp.cmpi .eq (BitVec.ofNat 32 k.val) (BitVec.ofNat 32 r.val)).setWidth 32) : EReal) * T k
      = T r := by
  rw [Fintype.sum_eq_single r fun k hkr => by rw [onehot_entry hn, if_neg hkr, zero_mul],
    onehot_entry hn, if_pos rfl, one_mul]

theorem onehot_matmul {m K D : Nat} (hK : K ≤ 2 ^ 32) (I W : IVec ⟨2, ![m, K]⟩ 32) (T : FVec Ideal ⟨2, ![K, D]⟩ .f32)
    (h1 : 1 < 32) (h2 : FTy.bits .bf16 < FTy.bits .f32) (p : Fin m) (q : Fin D) (r : Fin K)
    (hI : ∀ k : Fin K, I (ix2 p k) = BitVec.ofNat 32 k.val) (hW : ∀ k : Fin K, W (ix2 p k) = BitVec.ofNat 32 r.val) :
    matmul (DotDims.plain m K D) none (truncf .bf16 (sitofp .f32 (extui 32 (cmpi .eq I W) h1)) h2) (truncf .bf16 T h2)
      (constant _ .f32 0x00000000#32) (ix2 p q) = T (ix2 r q) := by
  simp only [matmul]
  rw [Ideal.matmul_constant_zero_apply, ← Equiv.sum_comp (contrEquiv1 (DotDims.plain m K D) K rfl rfl).symm]
  refine Eq.trans (Finset.sum_congr rfl fun k _ => ?_) (onehot_sum hK r fun k => T (ix2 k q))
  have hk := contrEquiv1_symm_val (DotDims.plain m K D) K rfl rfl k
  have el : (DotDims.plain m K D).lhsIdx (ix2 p q) ((contrEquiv1 _ K rfl rfl).symm k) = ix2 p k := funext fun a => Fin.ext (by
    match a with
    | ⟨0, _⟩ => rfl
    | ⟨1, _⟩ => exact hk)
  have er : (DotDims.plain m K D).rhsIdx (ix2 p q) ((contrEquiv1 _ K rfl rfl).symm k) = ix2 k q := funext fun a => Fin.ext (by
    match a with
    | ⟨0, _⟩ => exact hk
    | ⟨1, _⟩ => rfl)
  rw [el, er]
  show (FloatOps.sitofp (F := Ideal) .f32 ((IntOp.cmpi .eq (I (ix2 p k)) (W (ix2 p k))).setWidth 32) : EReal) * T (ix2 k q) = _
  rw [hI, hW]

theorem idxcol_apply {K : Nat} (v : Vec Ideal S5000x1 .i32) (hb : S5000x1.Broadcasts ⟨2, ![5000, K]⟩) (p : Fin 5000) (k : Fin K) :
    broadcastTo _ (shapeCast S5000x1 v shapeCasts_S5000x1_S5000x1) hb (ix2 p k) = v (ix2 p (0 : Fin 1)) := by
  rw [shapeCast_self]
  exact broadcastTo_apply v hb (ix2 p k) (ix2 p (0 : Fin 1)) fun a => by
    match a with
    | ⟨0, _⟩ | ⟨1, _⟩ => rfl

theorem pay1_apply (v0 : Vec Ideal S5000x1 .i32) (v16 : Vec Ideal S64x64 .f32) (p : Fin 5000) (q : Fin 64) (r : Fin 64)
    (hr : v0 (ix2 p (0 : Fin 1)) = BitVec.ofNat 32 r.val) :
    k0_pay1 (F := Ideal) v0 v16 (ix2 p q) = v16 (ix2 r q) :=
  onehot_matmul (by norm_num) _ _ v16 _ _ p q r (fun k => iota_single_apply ..) fun k => (idxcol_apply v0 _ p k).trans hr

theorem pay2_apply (v2 : Vec Ideal S5000x1 .i32) (v18 : Vec Ideal S16x64 .f32) (p : Fin 5000) (q : Fin 64) (r : Fin 16)
    (hr : v2 (ix2 p (0 : Fin 1)) = BitVec.ofNat 32 r.val) :
    k0_pay2 (F := Ideal) v2 v18 (ix2 p q) = v18 (ix2 r q) :=
  onehot_matmul (by norm_num) _ _ v18 _ _ p q r (fun k => iota_single_apply ..) fun k => (idxcol_apply v2 _ p k).trans hr

end Cert.Proof.Val.S0
-- ==== Proof.Val.Stage0_Arr.lean ====
import proofs.«431052_j82222853914919_1_alg».proof.Proof.KI.Body0
import proofs.«431052_j82222853914919_1_alg».proof.Proof.Val.Stage0_Pay
import Idealize.ShloMosaic.Lib.Pipeline.Value

noncomputable section

namespace Cert.Proof.Val.S0

open Idealize.ShloMosaic Idealize.ShloMosaic.TcCoe Idealize.ShloMosaic.ValueIdx
open Cert.KernelIdeal Cert.KernelIdeal.Gen Cert.Proof.KI

section
variable {n : Nat} (Td : S64x64.Idx → EReal) (Tl : S16x64.Idx → EReal) (rd : Fin n → Fin 64) (rl : Fin n → Fin 16)

def lookup2 : (⟨2, ![n, 128]⟩ : Shape).Idx → EReal :=
  fun i => if h : (i 1).val < 64 then Td (ix2 (rd (i 0)) ⟨(i 1).val, h⟩)
    else Tl (ix2 (rl (i 0)) ⟨(i 1).val - 64, by have := idx2_lt1 i; omega⟩)

theorem hz2 : (![0, 0] : Fin 2 → Nat) = fun _ => 0 := funext fun a => by fin_cases a <;> rfl

theorem lookup2_ix2 (p : Fin n) (q : Fin 128) :
    lookup2 Td Tl rd rl (ix2 p q) = if h : q.val < 64 then Td (ix2 (rd p) ⟨q.val, h⟩)
      else Tl (ix2 (rl p) ⟨q.val - 64, by have := q.isLt; omega⟩) := rfl

end

theorem emb_cols (o : Nat) (inb) (p : Fin 5000) (q : Fin 64) (h : o + q.val < 128) :
    (Rect.unit (s := S5000x128) ![0, o] S5000x64.size inb).emb (ix2 p q) = ix2 p ⟨o + q.val, h⟩ :=
  funext fun a => Fin.ext (by
    match a with
    | ⟨0, _⟩ => show 0 + 1 * p.val = p.val; omega
    | ⟨1, _⟩ => show o + 1 * q.val = o + q.val; omega)

theorem out0_4_eq (x0 x1 : Vec Ideal S5000x1 .i32) (x2 : Vec Ideal S64x64 .f32) (x3 : Vec Ideal S16x64 .f32)
    (rd : Fin 5000 → Fin 64) (rl : Fin 5000 → Fin 16)
    (hd : ∀ p : Fin 5000, x0 (ix2 p (0 : Fin 1)) = BitVec.ofNat 32 (rd p).val)
    (hl : ∀ p : Fin 5000, x1 (ix2 p (0 : Fin 1)) = BitVec.ofNat 32 (rl p).val) :
    out0_4 (F := Ideal) x0 x1 x2 x3 = lookup2 x2 x3 rd rl := by
  funext y
  refine View.canon_apply_of_pieces (Val := Elt Ideal) (S := S5000x128) (e := .f32) (lookup2 x2 x3 rd rl) _ ?_ y
    (cover0_4 _ _ y)
  intro pc hpc x
  simp only [List.mem_cons, List.not_mem_nil, or_false] at hpc
  rcases hpc with rfl | rfl <;> obtain ⟨p, q, rfl⟩ : ∃ (p : Fin 5000) (q : Fin 64), x = ix2 p q := ⟨x 0, x 1, eq_ix2 x⟩
  · dsimp only
    rw [View.ld_unit_zero (S := S5000x1) hz2, View.ld_unit_zero (S := S16x64) hz2, pay2_apply x1 x3 p q (rl p) (hl p),
      emb_cols 64 _ p q (by omega), lookup2_ix2, dif_neg (by show ¬64 + q.val < 64; omega)]
    exact congrArg (fun j => x3 (ix2 (rl p) j)) (Fin.ext (by show q.val = 64 + q.val - 64; omega))
  · dsimp only
    rw [View.ld_unit_zero (S := S5000x1) hz2, View.ld_unit_zero (S := S64x64) hz2, pay1_apply x0 x2 p q (rd p) (hd p),
      emb_cols 0 _ p q (by omega), lookup2_ix2, dif_pos (by show 0 + q.val < 64; omega)]
    exact congrArg (fun j => x2 (ix2 (rd p) j)) (Fin.ext (Nat.zero_add _).symm)

variable (V : (c : Dev nD) → (b : Ref sig .tc) → Buf (Elt Ideal) ((c : Thread nD τ).loc b))

theorem idx_facts0 : ∀ t : Fin cfg0.N,
    (∀ a, win0_0.index t a = ![t.val, 0] a) ∧ (∀ a, win0_1.index t a = ![t.val, 0] a)
    ∧ (∀ a, win0_2.index t a = 0) ∧ (∀ a, win0_3.index t a = 0) ∧ (∀ a, win0_4.index t a = ![t.val, 0] a) :=
  (by decide +kernel : ∀ t : Fin grid0.N, _)

def rowOf (t : Fin cfg0.N) (p : Fin 5000) : Fin 50000 :=
  ⟨5000 * t.val + p.val, by have := t.isLt; have : cfg0.N = 10 := N_0; omega⟩

-- block `t` of a row tiling by 5000 is rows `5000 t` to `5000 t + 4999`, every column
theorem rowtile (t : Fin cfg0.N) (p : Fin 5000) {C : Nat} (q : Fin C) (a : Fin 2) :
    ![t.val, 0] a * ![5000, C] a + (ix2 p q a).val = (ix2 (rowOf t p) q a).val := by
  match a with
  | ⟨0, _⟩ => show t.val * 5000 + p.val = 5000 * t.val + p.val; omega
  | ⟨1, _⟩ => show 0 * C + q.val = q.val; omega

theorem iblk0_col (c : Dev nD) (t : Fin cfg0.N) (p : Fin 5000) :
    (iblk0 V c 0 t : Vec Ideal S5000x1 .i32) (ix2 p (0 : Fin 1)) = (V c main_v4 : S50000x1.Idx → BitVec 32) (ix2 (rowOf t p) (0 : Fin 1))
    ∧ (iblk0 V c 1 t : Vec Ideal S5000x1 .i32) (ix2 p (0 : Fin 1)) = (V c main_v5 : S50000x1.Idx → BitVec 32) (ix2 (rowOf t p) (0 : Fin 1)) := by
  obtain ⟨e0, e1, -⟩ := idx_facts0 t
  constructor
  · refine congrArg (V c main_v4 : S50000x1.Idx → BitVec 32) (funext fun a => Fin.ext ((win0_0.rect_emb_val t _ a).trans ?_))
    rw [e0 a]
    exact rowtile t p (0 : Fin 1) a
  · refine congrArg (V c main_v5 : S50000x1.Idx → BitVec 32) (funext fun a => Fin.ext ((win0_1.rect_emb_val t _ a).trans ?_))
    rw [e1 a]
    exact rowtile t p (0 : Fin 1) a

-- a block at index zero on every axis, of the array's own size, is the whole array
theorem iblk0_tab (c : Dev nD) (t : Fin cfg0.N) :
    (iblk0 V c 2 t : Vec Ideal S64x64 .f32) = (V c main_arg0 : S64x64.Idx → EReal)
    ∧ (iblk0 V c 3 t : Vec Ideal S16x64 .f32) = (V c main_arg1 : S16x64.Idx → EReal) := by
  obtain ⟨-, -, h2, h3, -⟩ := idx_facts0 t
  exact ⟨funext fun x => congrArg (V c main_arg0 : S64x64.Idx → EReal) (funext fun a =>
      Fin.ext (win0_2.rect_emb_val_of_index_zero t a (h2 a) x)),
    funext fun x => congrArg (V c main_arg1 : S16x64.Idx → EReal) (funext fun a =>
      Fin.ext (win0_3.rect_emb_val_of_index_zero t a (h3 a) x))⟩

-- row `r` is in block `r / 5000`: the ten blocks of 5000 rows tile the array
theorem cover0 (i : S50000x128.Idx) : ∃ t : Fin cfg0.N, (cfg0.win 4).flush t = true ∧ i ∈ ((cfg0.win 4).blk t).view.set := by
  have hi0 := idx2_lt0 i
  have hi1 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4⟩ := idx_facts0 t
  have e0 : win0_4.index t (0 : Fin 2) = t.val := e4 0
  have e1 : win0_4.index t (1 : Fin 2) = 0 := e4 1
  refine ⟨t, flush0_4 t, ?_⟩
  show i ∈ ((View.whole main_v6).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

theorem arr0 (c : Dev nD) (rd : Fin 50000 → Fin 64) (rl : Fin 50000 → Fin 16)
    (hd : ∀ P : Fin 50000, (V c main_v4 : S50000x1.Idx → BitVec 32) (ix2 P (0 : Fin 1)) = BitVec.ofNat 32 (rd P).val)
    (hl : ∀ P : Fin 50000, (V c main_v5 : S50000x1.Idx → BitVec 32) (ix2 P (0 : Fin 1)) = BitVec.ofNat 32 (rl P).val) :
    (dat0 (F := Ideal) V c).arrAt 4 cfg0.N = lookup2 (V c main_arg0) (V c main_arg1) rd rl := by
  refine (dat0 V c).arrAt_eq_of_cover 4 (lookup2 (V c main_arg0) (V c main_arg1) rd rl) (fun t _ => ?_) cover0
  obtain ⟨-, -, -, -, e4⟩ := idx_facts0 t
  show (cfg0.win 4).cut (grid0.coords t) ((dat0 V c).after 4 t) = _
  rw [after0_4, out0_4_eq _ _ _ _ (fun p => rd (rowOf t p)) (fun p => rl (rowOf t p))
    (fun p => (iblk0_col V c t p).1.trans (hd _)) (fun p => (iblk0_col V c t p).2.trans (hl _)),
    (iblk0_tab V c t).1, (iblk0_tab V c t).2]
  funext y
  obtain ⟨p, q, rfl⟩ : ∃ (p : Fin 5000) (q : Fin 128), y = ix2 p q := ⟨y 0, y 1, eq_ix2 y⟩
  have hemb : ((cfg0.win 4).blk t).view.emb (ix2 p q) = ix2 (rowOf t p) q := funext fun a => Fin.ext
    ((win0_4.rect_emb_val t _ a).trans (by rw [e4 a]; exact rowtile t p q a))
  show lookup2 _ _ _ _ (ix2 p q) = lookup2 _ _ rd rl (((cfg0.win 4).blk t).view.emb (ix2 p q))
  rw [hemb]
  rfl

end Cert.Proof.Val.S0
-- ==== Proof.Val.Stage0_Gather.lean ====
import Idealize.ShloMosaic.Lib.ValueIdx
import Idealize.ShloMosaic.Lib.StableHlo.Predicate

noncomputable section

namespace Cert.Proof.Val.S0

open Idealize.ShloMosaic Idealize.ShloMosaic.ValueIdx

abbrev rowDims (N D n : Nat) (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ := ⟨[1], [0], [], [], [0], 1, ![1, D], wf⟩

-- row `p` of the result is the table's row at the start index `idx[p, 0]`, read signed and clamped into the table
theorem gather_rows_apply {α : Type} {N D n w : Nat} (hN : 0 < N) (wf) (x : (⟨2, ![N, D]⟩ : Shape).Idx → α)
    (idx : IVec ⟨2, ![n, 1]⟩ w) (p : Fin n) (q : Fin D) :
    Host.gather (rowDims N D n wf) x idx (ix2 p q) = x (ix2 ⟨min (idx (ix2 p (0 : Fin 1))).toInt.toNat (N - 1), by omega⟩ q) := by
  have hsi : (rowDims N D n wf).siIdx (ix2 p q) ⟨0, Nat.one_pos⟩ = ix2 p (0 : Fin 1) := funext fun b => Fin.ext (by
    match b with
    | ⟨0, _⟩ | ⟨1, _⟩ => rfl)
  refine congrArg x (funext fun a => Fin.ext ?_)
  match a with
  | ⟨0, _⟩ =>
    show min (idx ((rowDims N D n wf).siIdx (ix2 p q) ⟨0, _⟩)).toInt.toNat (N - 1) + 0 + 0 = _
    rw [hsi]
    rfl
  | ⟨1, _⟩ => exact Nat.zero_add _

theorem word_in_range (w : BitVec 32) (N : Nat) (hN : N ≤ 2 ^ 31) (h0 : 0 ≤ w.toInt) (h1 : w.toInt < N) :
    w.toInt.toNat < N ∧ w = BitVec.ofNat 32 w.toInt.toNat ∧ IntOp.cmpi .slt w 0#32 = 0#1 ∧ min w.toInt.toNat (N - 1) = w.toInt.toNat := by
  refine ⟨by omega, BitVec.eq_of_toInt_eq ?_, ?_, by omega⟩
  · rw [StableHlo.Predicate.toInt_ofNat_small _ (by omega)]
    omega
  · show BitVec.ofBool (w.slt 0#32) = 0#1
    rw [show w.slt 0#32 = false from decide_eq_false (not_lt.mpr h0)]
    rfl

end Cert.Proof.Val.S0
-- ==== Proof.Val.Stage0.lean ====
import proofs.«431052_j82222853914919_1_alg».proof.Proof.KI.Body0
import proofs.«431052_j82222853914919_1_alg».proof.Proof.Ref.Run
import proofs.«431052_j82222853914919_1_alg».proof.Proof.Val.Stage0_Arr
import proofs.«431052_j82222853914919_1_alg».proof.Proof.Val.Stage0_Gather
import Idealize.ShloMosaic.Lib.StableHlo.Run
import Idealize.ShloMosaic.Lib.Pipeline.Value

noncomputable section

namespace Cert.Proof.Val

open Idealize.ShloMosaic Idealize.ShloMosaic.TcCoe Idealize.ShloMosaic.ValueIdx
open Cert.KernelIdeal.Gen (hostOps0)
open Cert.Proof.Ref (seg_emb)

variable (c : Dev Cert.KernelIdeal.nD)
  (Wk : Dev Cert.KernelIdeal.nD → Valuation Cert.KernelIdeal.τ Cert.KernelIdeal.sig (Elt Ideal))
  (Wr : Valuation Cert.ReferenceIdeal.τ Cert.ReferenceIdeal.sig (Elt Ideal))

theorem stage0_src (h : Wk c Cert.KernelIdeal.main_arg28 = Wr Cert.ReferenceIdeal.main_arg28) :
    StableHlo.after hostOps0 (Wk c) Cert.KernelIdeal.main_v1 = StableHlo.after seg_emb Wr Cert.ReferenceIdeal.main_v1 := by
  after_results
  rw [h]
  rfl

theorem stage0_dst (h : Wk c Cert.KernelIdeal.main_arg28 = Wr Cert.ReferenceIdeal.main_arg28) :
    StableHlo.after hostOps0 (Wk c) Cert.KernelIdeal.main_v3 = StableHlo.after seg_emb Wr Cert.ReferenceIdeal.main_v3 := by
  after_results
  rw [h]
  rfl

namespace S0

section
open Cert.KernelIdeal
variable (W : Valuation τ sig (Elt Ideal))

theorem kern_cols (P : Fin 50000) :
    (StableHlo.after hostOps0 W (Proc.devRef .tc main_v4) : S50000x1.Idx → BitVec 32) (ix2 P (0 : Fin 1))
      = (W (Proc.devRef .tc main_arg26) : S50000.Idx → BitVec 32) (ix1 P)
    ∧ (StableHlo.after hostOps0 W (Proc.devRef .tc main_v5) : S50000x1.Idx → BitVec 32) (ix2 P (0 : Fin 1))
      = (W (Proc.devRef .tc main_arg27) : S50000.Idx → BitVec 32) (ix1 P) := by
  constructor <;>
  · after_results
    refine shapeCast_apply _ _ (ix2 P (0 : Fin 1)) (ix1 P) ?_
    rw [Shape.rowMajor_val_one, Shape.rowMajor_val_two]
    show P.val = P.val * 1 + 0
    omega

end

section
open Cert.ReferenceIdeal

def wrapCol (height : BitVec 32) (idx : S50000.Idx → BitVec 32) : S50000x1.Idx → BitVec 32 :=
  broadcastInDim S50000x1 ![0] Gen.bcast_S50000_S50000x1_0
    (select (cmpi .slt idx (broadcastInDim S50000 ![] Gen.bcast_S_S50000 (constantI S_ 32 0#32)))
      (addi idx (broadcastInDim S50000 ![] Gen.bcast_S_S50000 (constantI S_ 32 height))) idx)

theorem wrapCol_apply (height : BitVec 32) (idx : S50000.Idx → BitVec 32) (P : Fin 50000)
    (h : IntOp.cmpi .slt (idx (ix1 P)) 0#32 = 0#1) : wrapCol height idx (ix2 P (0 : Fin 1)) = idx (ix1 P) := by
  unfold wrapCol
  rw [broadcastInDim_apply _ _ _ (ix2 P (0 : Fin 1)) (ix1 P) (fun a => by match a with | ⟨0, _⟩ => rfl)]
  show Scalar.select (IntOp.cmpi .slt (idx (ix1 P)) 0#32) _ (idx (ix1 P)) = idx (ix1 P)
  rw [h, select_zero]

set_option maxHeartbeats 1000000 in
theorem ref_x0_eq (Wr : Valuation τ sig (Elt Ideal)) :
    (StableHlo.after seg_emb Wr (Proc.devRef .tc main_v18) : S50000x128.Idx → EReal)
      = concatenate S50000x128 1
          [⟨S50000x64, Host.gather (rowDims 64 64 50000 Gen.gather_S64x64_S50000x1_S50000x64_1_0_n_n_0_1_164_wf)
              (Wr (Proc.devRef .tc main_arg0) : S64x64.Idx → EReal) (wrapCol 64#32 (Wr (Proc.devRef .tc main_arg26)))⟩,
           ⟨S50000x64, Host.gather (rowDims 16 64 50000 Gen.gather_S16x64_S50000x1_S50000x64_1_0_n_n_0_1_164_wf)
              (Wr (Proc.devRef .tc main_arg1) : S16x64.Idx → EReal) (wrapCol 16#32 (Wr (Proc.devRef .tc main_arg27)))⟩]
          Gen.concatenates_S50000x64_S50000x64_S50000x128_d1 := by
  after_results_simp
  rfl

-- for an index word in the table's range neither the wrap of negative indices nor the clamp moves it
theorem ref_row {N : Nat} (hN : N ≤ 2 ^ 31) (wf) (T : (⟨2, ![N, 64]⟩ : Shape).Idx → EReal) (height : BitVec 32)
    (idx : S50000.Idx → BitVec 32) (P : Fin 50000) (q : Fin 64)
    (h : 0 ≤ (idx (ix1 P)).toInt ∧ (idx (ix1 P)).toInt < N) :
    Host.gather (rowDims N 64 50000 wf) T (wrapCol height idx) (ix2 P q)
      = T (ix2 ⟨(idx (ix1 P)).toInt.toNat, (word_in_range _ N hN h.1 h.2).1⟩ q) := by
  obtain ⟨hlt, -, hs, hm⟩ := word_in_range _ N hN h.1 h.2
  refine (gather_rows_apply (by omega) wf T _ P q).trans (congrArg T (congrArg (fun r : Fin N => ix2 r q) (Fin.ext ?_)))
  show min (wrapCol height idx (ix2 P (0 : Fin 1))).toInt.toNat (N - 1) = _
  rw [wrapCol_apply _ _ _ hs]
  exact hm

end

end S0

open S0

theorem stage0
    (h0 : Wk c Cert.KernelIdeal.main_arg0 = Wr Cert.ReferenceIdeal.main_arg0)
    (h1 : Wk c Cert.KernelIdeal.main_arg1 = Wr Cert.ReferenceIdeal.main_arg1)
    (h26 : Wk c Cert.KernelIdeal.main_arg26 = Wr Cert.ReferenceIdeal.main_arg26)
    (h27 : Wk c Cert.KernelIdeal.main_arg27 = Wr Cert.ReferenceIdeal.main_arg27)
    (hdeg : ∀ i, 0 ≤ (Wr Cert.ReferenceIdeal.main_arg26 i).toInt ∧ (Wr Cert.ReferenceIdeal.main_arg26 i).toInt < 64)
    (hlab : ∀ i, 0 ≤ (Wr Cert.ReferenceIdeal.main_arg27 i).toInt ∧ (Wr Cert.ReferenceIdeal.main_arg27 i).toInt < 16) :
    (Cert.Proof.KI.dat0 (F := Ideal) (fun c b => StableHlo.after hostOps0 (Wk c) b) c).arrAt 4 Cert.KernelIdeal.cfg0.N
      = StableHlo.after seg_emb Wr Cert.ReferenceIdeal.main_v18 := by
  have hD := fun P : Fin 50000 => word_in_range _ 64 (by norm_num) (hdeg (ix1 P)).1 (hdeg (ix1 P)).2
  have hL := fun P : Fin 50000 => word_in_range _ 16 (by norm_num) (hlab (ix1 P)).1 (hlab (ix1 P)).2
  refine (arr0 (fun c b => StableHlo.after hostOps0 (Wk c) b) c
    (fun P => ⟨_, (hD P).1⟩) (fun P => ⟨_, (hL P).1⟩) (fun P => ?_) (fun P => ?_)).trans ?_
  · refine (kern_cols (Wk c) P).1.trans ?_
    rw [h26]
    exact (hD P).2.1
  · refine (kern_cols (Wk c) P).2.trans ?_
    rw [h27]
    exact (hL P).2.1
  · funext i
    obtain ⟨P, q, rfl⟩ : ∃ (P : Fin 50000) (q : Fin 128), i = ix2 P q := ⟨i 0, i 1, eq_ix2 i⟩
    rw [lookup2_ix2, ref_x0_eq]
    by_cases hq : q.val < 64
    · rw [dif_pos hq,
        concatenate_pair_apply_left 1 _ _ Cert.ReferenceIdeal.Gen.concatenates_S50000x64_S50000x64_S50000x128_d1 (ix2 P q) rfl
          (ix2 P (⟨q.val, hq⟩ : Fin 64)) (fun b => by match b with | ⟨0, _⟩ | ⟨1, _⟩ => rfl),
        ref_row (N := 64) (by norm_num) _ _ _ _ P ⟨q.val, hq⟩ (hdeg (ix1 P))]
      after_results
      rw [h0]
    · have hq2 : q.val - 64 < 64 := by have := q.isLt; omega
      rw [dif_neg hq,
        concatenate_pair_apply_right 1 _ _ Cert.ReferenceIdeal.Gen.concatenates_S50000x64_S50000x64_S50000x128_d1 (ix2 P q) rfl rfl
          (ix2 P (⟨q.val - 64, hq2⟩ : Fin 64))
          (fun b hb => by match b with | ⟨0, _⟩ => rfl | ⟨1, _⟩ => exact absurd rfl hb)
          (by show (q.val - 64) + 64 = q.val; omega),
        ref_row (N := 16) (by norm_num) _ _ _ _ P ⟨q.val - 64, hq2⟩ (hlab (ix1 P))]
      after_results
      rw [h1]

end Cert.Proof.Val
-- ==== Proof.Val.MlpSpec.lean ====
import Idealize.ShloMosaic.Lib.StackMember
import Idealize.ShloMosaic.Lib.ValueLayout
import Idealize.ShloMosaic.Lib.IdealHost

noncomputable section

open scoped BigOperators

namespace Cert.Proof.Val

open Idealize.ShloMosaic Idealize.ShloMosaic.ValueIdx Idealize.ShloMosaic.StackMember

abbrev Sh (m n : Nat) : Shape := ⟨2, ![m, n]⟩

def lrelu (h : Ideal .f32) : Ideal .f32 :=
  Scalar.select (FloatOps.cmpf .ogt h (Scalar.ofBits (F := Ideal) .f32 0x00000000#32)) h
    (FloatOps.mulf (Scalar.ofBits (F := Ideal) .f32 0x3C23D70A#32) h)

def mlpAt {a : Nat} (h : Fin a → EReal) (waT : Fin a → Fin a → EReal) (ba wbq : Fin a → EReal) (bbq : EReal) : EReal :=
  (∑ k : Fin a, lrelu ((∑ m : Fin a, h m * waT m k) + ba k) * wbq k) + bbq

def mlp {n a b : Nat} (z agg : (Sh n a).Idx → EReal) (waT : (Sh a a).Idx → EReal) (ba : (Sh 1 a).Idx → EReal)
    (wbT : (Sh a b).Idx → EReal) (bb : (Sh 1 b).Idx → EReal) : (Sh n b).Idx → EReal := fun i =>
  mlpAt (fun m => z (ix2 (i 0) m) + agg (ix2 (i 0) m)) (fun m k => waT (ix2 m k)) (fun k => ba (ix2 (0 : Fin 1) k))
    (fun k => wbT (ix2 k (i 1))) (bb (ix2 (0 : Fin 1) (i 1)))

-- the neighbour sum: source indices below zero wrapped by w, the source rows gathered and added onto zero at the destination rows
def agg {n a E : Nat} (sd : ScatterDims (Sh n a) (Sh E 1) (Sh E a)) (gd : GatherDims (Sh n a) (Sh E 1) (Sh E a))
    (g0 : (⟨0, ![]⟩ : Shape).BroadcastsInDim (Sh n a) ![]) (g1 : (⟨1, ![E]⟩ : Shape).BroadcastsInDim (Sh E 1) ![0])
    (g2 : (⟨0, ![]⟩ : Shape).BroadcastsInDim ⟨1, ![E]⟩ ![]) (w : BitVec 32) (x : FVec Ideal (Sh n a) .f32)
    (src dst : IVec ⟨1, ![E]⟩ 32) : FVec Ideal (Sh n a) .f32 :=
  Host.scatterAdd sd (broadcastInDim (Sh n a) ![] g0 (constant (F := Ideal) ⟨0, ![]⟩ .f32 0x00000000#32))
    (broadcastInDim (Sh E 1) ![0] g1 dst)
    (Host.gather gd x (broadcastInDim (Sh E 1) ![0] g1
      (select (cmpi .slt src (broadcastInDim ⟨1, ![E]⟩ ![] g2 (constantI ⟨0, ![]⟩ 32 0#32)))
        (addi src (broadcastInDim ⟨1, ![E]⟩ ![] g2 (constantI ⟨0, ![]⟩ 32 w))) src)))

section Layer
variable {n a b : Nat} (x0 x1 : FVec Ideal (Sh n a) .f32) (x2 : FVec Ideal (Sh a a) .f32) (x3 : FVec Ideal (Sh 1 a) .f32)
  (x4 : FVec Ideal (Sh a b) .f32) (x5 : FVec Ideal (Sh 1 b) .f32)

-- an array whose pre-activation H and entries y are the layer's sums is the layer
theorem mlp_of_pre {H : (Sh n a).Idx → EReal} {y : (Sh n b).Idx → EReal}
    (hH : ∀ p k, H (ix2 p k) = (∑ m, (x0 (ix2 p m) + x1 (ix2 p m)) * x2 (ix2 m k)) + x3 (ix2 (0 : Fin 1) k))
    (hy : ∀ p q, y (ix2 p q) = (∑ k, lrelu (H (ix2 p k)) * x4 (ix2 k q)) + x5 (ix2 (0 : Fin 1) q)) :
    y = mlp x0 x1 x2 x3 x4 x5 :=
  funext fun i => by
    obtain ⟨p, q, rfl⟩ : ∃ p q, i = ix2 p q := ⟨i 0, i 1, eq_ix2 i⟩
    rw [hy]; simp only [hH]; rfl

def preK (hb : FTy.bits .bf16 < FTy.bits .f32) (g : (Sh 1 a).Broadcasts (Sh n a)) : FVec Ideal (Sh n a) .f32 :=
  addf (matmul (DotDims.plain n a a) none (truncf .bf16 (addf x0 x1) hb) (truncf .bf16 x2 hb)
    (constant (Sh n a) .f32 0x00000000#32)) (broadcastTo (Sh n a) x3 g)

def actK (h : FVec Ideal (Sh n a) .f32) : FVec Ideal (Sh n a) .f32 :=
  select (cmpf .ogt h (broadcast (Sh n a) (Scalar.ofBits .f32 0x00000000#32))) h
    (mulf (broadcast (Sh n a) (Scalar.ofBits .f32 0x3C23D70A#32)) h)

-- each product is the sum over the inner coordinate and each bias row is read at row 0
theorem pay_eq (hb : FTy.bits .bf16 < FTy.bits .f32) (c0 : (Sh n a).ShapeCasts (Sh n a)) (c2 : (Sh a a).ShapeCasts (Sh a a))
    (c3 : (Sh 1 a).ShapeCasts (Sh 1 a)) (c4 : (Sh a b).ShapeCasts (Sh a b)) (c5 : (Sh 1 b).ShapeCasts (Sh 1 b))
    (g3 : (Sh 1 a).Broadcasts (Sh n a)) (g5 : (Sh 1 b).Broadcasts (Sh n b)) :
    addf (matmul (DotDims.plain n a b) none
        (truncf .bf16 (actK (preK (shapeCast _ x0 c0) (shapeCast _ x1 c0) (shapeCast _ x2 c2) (shapeCast _ x3 c3) hb g3)) hb)
        (truncf .bf16 (shapeCast _ x4 c4) hb) (constant (Sh n b) .f32 0x00000000#32))
      (broadcastTo (Sh n b) (shapeCast _ x5 c5) g5) = mlp x0 x1 x2 x3 x4 x5 := by
  simp only [shapeCast_self]
  refine mlp_of_pre x0 x1 x2 x3 x4 x5 (H := preK x0 x1 x2 x3 hb g3) (fun p k => ?_) fun p q => ?_
  · unfold preK
    rw [addf_apply, matmul_zero_eq_dotGeneral, dotGeneral_plain_apply, broadcastTo_1b_ab_apply]; rfl
  · rw [addf_apply, matmul_zero_eq_dotGeneral, dotGeneral_plain_apply, broadcastTo_1b_ab_apply]; rfl

def preH (g : (Sh 1 a).BroadcastsInDim (Sh n a) ![0, 1]) : FVec Ideal (Sh n a) .f32 :=
  addf (Host.dotGeneral (DotDims.plain n a a) none (addf x0 x1) x2) (broadcastInDim (Sh n a) ![0, 1] g x3)

def actH (g : (⟨0, ![]⟩ : Shape).BroadcastsInDim (Sh n a) ![]) (h : FVec Ideal (Sh n a) .f32) : FVec Ideal (Sh n a) .f32 :=
  select (cmpf .ogt h (broadcastInDim (Sh n a) ![] g (constant (F := Ideal) ⟨0, ![]⟩ .f32 0x00000000#32))) h
    (mulf (broadcastInDim (Sh n a) ![] g (constant (F := Ideal) ⟨0, ![]⟩ .f32 0x3C23D70A#32)) h)

-- the same two sums, spelled with the reference's operations
theorem host_eq (g0 : (⟨0, ![]⟩ : Shape).BroadcastsInDim (Sh n a) ![]) (g3 : (Sh 1 a).BroadcastsInDim (Sh n a) ![0, 1])
    (g5 : (Sh 1 b).BroadcastsInDim (Sh n b) ![0, 1]) :
    addf (Host.dotGeneral (DotDims.plain n a b) none (actH g0 (preH x0 x1 x2 x3 g3)) x4)
      (broadcastInDim (Sh n b) ![0, 1] g5 x5) = mlp x0 x1 x2 x3 x4 x5 := by
  refine mlp_of_pre x0 x1 x2 x3 x4 x5 (H := preH x0 x1 x2 x3 g3) (fun p k => ?_) fun p q => ?_
  · unfold preH
    rw [addf_apply, dotGeneral_plain_apply, broadcastInDim_oneRow_apply]; rfl
  · rw [addf_apply, dotGeneral_plain_apply, broadcastInDim_oneRow_apply]; rfl

end Layer

section Tiles
variable {α : Type} {n R a b : Nat}

def RowTile (T : Nat) (x : (Sh R a).Idx → α) (X : (Sh n a).Idx → α) : Prop :=
  ∀ y i, (i 0).val = R * T + (y 0).val → (i 1).val = (y 1).val → x y = X i

theorem RowTile.eq {x X : (Sh n a).Idx → α} (h : RowTile 0 x X) : x = X :=
  funext fun y => h y y (by omega) rfl

-- a block at block index (T, 0) sits at rows R·T … and the same columns
theorem emb_vals {T : Nat} {E : (Sh R a).Idx → (Sh n a).Idx} {I : Fin 2 → Nat}
    (hE : ∀ y c, (E y c).val = I c * (Sh R a).size c + 1 * (y c).val) (hI : ∀ c, I c = ![T, 0] c) (y : (Sh R a).Idx) :
    (E y 0).val = R * T + (y 0).val ∧ (E y 1).val = (y 1).val := by
  refine ⟨(hE y 0).trans ?_, (hE y 1).trans ?_⟩
  · rw [hI 0]; show T * R + 1 * (y 0).val = _; rw [Nat.mul_comm, Nat.one_mul]
  · rw [hI 1]; show 0 * a + 1 * (y 1).val = _; rw [Nat.zero_mul, Nat.zero_add, Nat.one_mul]

theorem RowTile.of_emb {T : Nat} {x : (Sh R a).Idx → α} {X : (Sh n a).Idx → α} {E : (Sh R a).Idx → (Sh n a).Idx}
    {I : Fin 2 → Nat} (hx : ∀ y, x y = X (E y)) (hE : ∀ y c, (E y c).val = I c * (Sh R a).size c + 1 * (y c).val)
    (hI : ∀ c, I c = ![T, 0] c) : RowTile T x X :=
  fun y i h0 h1 => (hx y).trans (congrArg X (Shape.idx_ext₂ ((emb_vals hE hI y).1.trans h0.symm)
    ((emb_vals hE hI y).2.trans h1.symm)))

theorem RowTile.at_emb {T : Nat} {x : (Sh R a).Idx → α} {X : (Sh n a).Idx → α} (h : RowTile T x X)
    (E : (Sh R a).Idx → (Sh n a).Idx) {I : Fin 2 → Nat} (hE : ∀ y c, (E y c).val = I c * (Sh R a).size c + 1 * (y c).val)
    (hI : ∀ c, I c = ![T, 0] c) (y : (Sh R a).Idx) : x y = X (E y) :=
  h y (E y) (emb_vals hE hI y).1 (emb_vals hE hI y).2

-- row r lies in the block of R rows numbered r / R
theorem tile_bounds (hR : 0 < R) (i : (Sh n b).Idx) {I : Fin 2 → Nat} (hI : ∀ c, I c = ![(i 0).val / R, 0] c) (c : Fin 2) :
    I c * (Sh R b).size c ≤ (i c).val ∧ (i c).val < I c * (Sh R b).size c + (Sh R b).size c := by
  rw [hI c]
  match c with
  | ⟨0, _⟩ => exact ⟨Nat.div_mul_le_self _ _, Nat.lt_div_mul_add hR⟩
  | ⟨1, _⟩ => exact ⟨by show 0 * b ≤ _; rw [Nat.zero_mul]; exact Nat.zero_le _,
      by show _ < 0 * b + b; rw [Nat.zero_mul, Nat.zero_add]; exact (i 1).isLt⟩

-- rows R·T … of the layer are the layer of rows R·T … of its two row-tiled inputs
theorem mlp_block (T : Nat) {Z A : (Sh n a).Idx → EReal} {WA x2 : (Sh a a).Idx → EReal} {BA x3 : (Sh 1 a).Idx → EReal}
    {WB x4 : (Sh a b).Idx → EReal} {BB x5 : (Sh 1 b).Idx → EReal} {x0 x1 : (Sh R a).Idx → EReal}
    (h0 : RowTile T x0 Z) (h1 : RowTile T x1 A) (h2 : RowTile 0 x2 WA) (h3 : RowTile 0 x3 BA) (h4 : RowTile 0 x4 WB)
    (h5 : RowTile 0 x5 BB) : RowTile T (mlp x0 x1 x2 x3 x4 x5) (mlp Z A WA BA WB BB) := by
  intro y i hi0 hi1
  obtain rfl := h2.eq; obtain rfl := h3.eq; obtain rfl := h4.eq; obtain rfl := h5.eq
  have e1 : i 1 = y 1 := Fin.ext hi1
  have e0 : (fun m => x0 (ix2 (y 0) m) + x1 (ix2 (y 0) m)) = fun m => Z (ix2 (i 0) m) + A (ix2 (i 0) m) :=
    funext fun m => by rw [h0 (ix2 (y 0) m) (ix2 (i 0) m) hi0 rfl, h1 (ix2 (y 0) m) (ix2 (i 0) m) hi0 rfl]
  unfold mlp; rw [e0, e1]

theorem mlp_congr {z z' g g' : (Sh n a).Idx → EReal} {w w' : (Sh a a).Idx → EReal} {v v' : (Sh 1 a).Idx → EReal}
    {u u' : (Sh a b).Idx → EReal} {s s' : (Sh 1 b).Idx → EReal} (hz : z = z') (hg : g = g') (hw : w = w')
    (hv : v = v') (hu : u = u') (hs : s = s') : mlp z g w v u s = mlp z' g' w' v' u' s' := by
  subst hz hg hw hv hu hs; rfl

theorem shapeCast_row_eq_broadcastInDim (x : (⟨1, ![n]⟩ : Shape).Idx → α) (h : (⟨1, ![n]⟩ : Shape).ShapeCasts (Sh 1 n))
    (h' : (⟨1, ![n]⟩ : Shape).BroadcastsInDim (Sh 1 n) ![1]) : shapeCast (Sh 1 n) x h = broadcastInDim (Sh 1 n) ![1] h' x := by
  funext j
  obtain ⟨r, k, rfl⟩ : ∃ (r : Fin 1) (k : Fin n), j = ix2 r k := ⟨j 0, j 1, eq_ix2 j⟩
  rw [shapeCast_a_1a_apply]
  exact (broadcastInDim_apply ![1] h' x (ix2 r k) (ix1 k) (by
    intro c
    match c with
    | ⟨0, _⟩ =>
      show k.val = if n = 1 then 0 else k.val
      split
      · have := k.isLt; omega
      · rfl)).symm

end Tiles

end Cert.Proof.Val

end
-- ==== Proof.Val.Stage1_Pay.lean ====
import proofs.«431052_j82222853914919_1_alg».proof.Proof.Gen.KernelIdeal.Skeleton
import proofs.«431052_j82222853914919_1_alg».proof.Proof.Val.MlpSpec
-- ==== Proof.Val.Stage1_Arr.lean ====
import proofs.«431052_j82222853914919_1_alg».proof.Proof.KI.Body1
import proofs.«431052_j82222853914919_1_alg».proof.Proof.Val.Stage1_Pay
import Idealize.ShloMosaic.Lib.Pipeline.Value

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz1 : (![0, 0] : Fin 2 → Nat) = fun _ => 0 := funext fun a => by fin_cases a <;> rfl

def G1 (c : Dev nD) : FVec Ideal S50000x64 .f32 :=
  mlp (V c main_v6) (V c main_v16) (V c main_v17) (V c main_v19) (V c main_v18) (V c main_v20)

theorem k1_pay1_eq (x0 x1 x2 x3 x4 x5) : k1_pay1 (F := Ideal) x0 x1 x2 x3 x4 x5 = mlp x0 x1 x2 x3 x4 x5 := pay_eq ..

theorem idx_facts1 : ∀ t : Fin cfg1.N,
    (∀ a : Fin 2, win1_0.index t a = ![t.val, 0] a) ∧ (∀ a : Fin 2, win1_1.index t a = ![t.val, 0] a)
    ∧ (∀ a : Fin 2, win1_2.index t a = ![0, 0] a) ∧ (∀ a : Fin 2, win1_3.index t a = ![0, 0] a)
    ∧ (∀ a : Fin 2, win1_4.index t a = ![0, 0] a) ∧ (∀ a : Fin 2, win1_5.index t a = ![0, 0] a)
    ∧ ∀ a : Fin 2, win1_6.index t a = ![t.val, 0] a :=
  (by decide +kernel : ∀ t : Fin grid1.N, _)

-- every operand block is a tile of its array, so the stored block is tile t of the layer
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S128x128) hz1, View.ld_unit_zero (S := S1x128) hz1,
    View.ld_unit_zero (S := S128x64) hz1, View.ld_unit_zero (S := S1x64) hz1]
  obtain ⟨i0, i1, i2, i3, i4, i5, i6⟩ := idx_facts1 t
  funext j
  show k1_pay1 (F := Ideal) _ _ _ _ _ _ j = G1 V c (((cfg1.win 6).blk t).view.emb j)
  rw [k1_pay1_eq]
  refine (mlp_block t.val ?_ ?_ ?_ ?_ ?_ ?_).at_emb ((cfg1.win 6).blk t).view.emb (fun _ _ => rfl) i6 j
  exacts [.of_emb (fun _ => rfl) (fun _ _ => rfl) i0, .of_emb (fun _ => rfl) (fun _ _ => rfl) i1,
    .of_emb (fun _ => rfl) (fun _ _ => rfl) i2, .of_emb (fun _ => rfl) (fun _ _ => rfl) i3,
    .of_emb (fun _ => rfl) (fun _ _ => rfl) i4, .of_emb (fun _ => rfl) (fun _ _ => rfl) i5]

theorem cover1 (i : S50000x64.Idx) :
    ∃ t : Fin cfg1.N, (cfg1.win 6).flush t = true ∧ i ∈ ((cfg1.win 6).blk t).view.set := by
  have h : (i 0).val < 50000 := (i 0).isLt
  have ht : (i 0).val / 5000 < cfg1.N := by rw [show cfg1.N = 10 from N_1]; omega
  refine ⟨⟨_, ht⟩, flush1_6 _, ?_⟩
  show i ∈ ((View.whole main_v21).slice (win1_6.rect ⟨_, ht⟩)).set
  rw [View.set_slice_whole, Rect.mem_set_unit]
  exact tile_bounds (by decide) i (idx_facts1 ⟨_, ht⟩).2.2.2.2.2.2

theorem final1 (c : Dev nD) : (dat1 V c).arrAt 6 cfg1.N = G1 V c :=
  (dat1 V c).arrAt_eq_of_cover 6 (G1 V c) (fun t _ => flushed1_eq V c t) cover1

end Cert.Proof.Val

end
-- ==== Proof.Val.Stage1_Ker.lean ====
import proofs.«431052_j82222853914919_1_alg».proof.Proof.Val.Stage1_Arr
import Idealize.ShloMosaic.Lib.StableHlo.Run

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem

def aggK1 (x : FVec Ideal S50000x128 .f32) (src dst : IVec S800000 32) : FVec Ideal S50000x128 .f32 :=
  agg scatter_S50000x128_S800000x1_S800000x128_1_0_0_1 gather_S50000x128_S800000x1_S800000x128_1_0_n_n_0_1_1128
    bcast_S_S50000x128 bcast_S800000_S800000x1_0 bcast_S_S800000 50000#32 x src dst

variable (Wk : Dev nD → Valuation τ sig (Elt Ideal)) (c : Dev nD)

abbrev V1 : (c : Dev nD) → (b : Ref sig .tc) → Buf (Elt Ideal) ((c : Thread nD τ).loc b) :=
  fun c b => StableHlo.after hostOps1 (Wk c) b

set_option maxHeartbeats 4000000 in
theorem ker1_agg : StableHlo.after hostOps1 (Wk c) (Proc.devRef .tc main_v16)
    = aggK1 (Wk c main_v6) (Wk c main_v1) (Wk c main_v3) := by
  after_results
  try rfl

theorem ker1_eq : (dat1 (F := Ideal) (V1 Wk) c).arrAt 6 cfg1.N
    = mlp (Wk c main_v6) (aggK1 (Wk c main_v6) (Wk c main_v1) (Wk c main_v3))
      (transpose S128x128 [1, 0] (Wk c main_arg2) transposes_S128x128_S128x128_1_0)
      (shapeCast S1x128 (Wk c main_arg3) shapeCasts_S128_S1x128)
      (transpose S128x64 [1, 0] (Wk c main_arg4) transposes_S64x128_S128x64_1_0)
      (shapeCast S1x64 (Wk c main_arg5) shapeCasts_S64_S1x64) := by
  rw [final1]
  unfold G1
  refine mlp_congr ?_ (ker1_agg Wk c) ?_ ?_ ?_ ?_ <;>
    (show StableHlo.after hostOps1 (Wk c) _ = _; after_results; try rfl)

end Cert.Proof.Val

end
-- ==== Proof.Val.Stage1_Ref.lean ====
import proofs.«431052_j82222853914919_1_alg».proof.Proof.Ref.Run
import proofs.«431052_j82222853914919_1_alg».proof.Proof.Val.MlpSpec

noncomputable section

namespace Cert.Proof.Val

open Cert.ReferenceIdeal Cert.ReferenceIdeal.Gen Cert.Proof.Ref
open Idealize.ShloMosaic Idealize.ShloMosaic.TcCoe Idealize.ShloMosaic.ValueIdx

def aggR1 (x : FVec Ideal S50000x128 .f32) (src dst : IVec S800000 32) : FVec Ideal S50000x128 .f32 :=
  agg scatter_S50000x128_S800000x1_S800000x128_1_0_0_1 gather_S50000x128_S800000x1_S800000x128_1_0_n_n_0_1_1128
    bcast_S_S50000x128 bcast_S800000_S800000x1_0 bcast_S_S800000 50000#32 x src dst

theorem ref1_eq (Wr : Valuation τ sig (Elt Ideal)) :
    (StableHlo.after segA0 Wr h0_ref : FVec Ideal S50000x64 .f32)
      = mlp (Wr main_v18) (aggR1 (Wr main_v18) (Wr main_v1) (Wr main_v3))
          (transpose S128x128 [1, 0] (Wr main_arg2) transposes_S128x128_S128x128_1_0)
          (broadcastInDim S1x128 ![1] bcast_S128_S1x128_1 (Wr main_arg3))
          (transpose S128x64 [1, 0] (Wr main_arg4) transposes_S64x128_S128x64_1_0)
          (broadcastInDim S1x64 ![1] bcast_S64_S1x64_1 (Wr main_arg5)) := by
  dsimp only [segA0, h0_ref]
  after_results_simp
  simp only [StableHlo.TRef.ofBuf, StableHlo.TRef.toBuf, cast_eq]
  exact host_eq ..

end Cert.Proof.Val

end
-- ==== Proof.Val.Stage1.lean ====
import proofs.«431052_j82222853914919_1_alg».proof.Proof.Val.Stage1_Ker
import proofs.«431052_j82222853914919_1_alg».proof.Proof.Val.Stage1_Ref

set_option maxRecDepth 16384

noncomputable section

namespace Cert.Proof.Val

open Idealize.ShloMosaic Idealize.ShloMosaic.TcCoe Idealize.SL.Sem

-- equal inputs: the two sides are the same layer, a bias reshaped to one row being its broadcast along axis 1
theorem stage1 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (hz : Wk c Cert.KernelIdeal.main_v6 = Wr Cert.ReferenceIdeal.main_v18)
    (hsrc : Wk c Cert.KernelIdeal.main_v1 = Wr Cert.ReferenceIdeal.main_v1)
    (hdst : Wk c Cert.KernelIdeal.main_v3 = Wr Cert.ReferenceIdeal.main_v3)
    (hwa : Wk c Cert.KernelIdeal.main_arg2 = Wr Cert.ReferenceIdeal.main_arg2)
    (hba : Wk c Cert.KernelIdeal.main_arg3 = Wr Cert.ReferenceIdeal.main_arg3)
    (hwb : Wk c Cert.KernelIdeal.main_arg4 = Wr Cert.ReferenceIdeal.main_arg4)
    (hbb : Wk c Cert.KernelIdeal.main_arg5 = Wr Cert.ReferenceIdeal.main_arg5) :
    (Cert.Proof.KI.dat1 (F := Ideal) (fun c b => StableHlo.after Cert.KernelIdeal.Gen.hostOps1 (Wk c) b) c).arrAt 6
        Cert.KernelIdeal.cfg1.N
      = StableHlo.after Cert.Proof.Ref.segA0 Wr Cert.Proof.Ref.h0_ref := by
  refine (ker1_eq Wk c).trans ?_
  rw [hz, hsrc, hdst, hwa, hba, hwb, hbb, ref1_eq,
    shapeCast_row_eq_broadcastInDim _ _ Cert.ReferenceIdeal.Gen.bcast_S128_S1x128_1,
    shapeCast_row_eq_broadcastInDim _ _ Cert.ReferenceIdeal.Gen.bcast_S64_S1x64_1]
  rfl

end Cert.Proof.Val

end
-- ==== Proof.Val.Stage2_Pay.lean ====
import proofs.«431052_j82222853914919_1_alg».proof.Proof.Gen.KernelIdeal.Skeleton
import Idealize.ShloMosaic.Lib.ValueIdx
import Idealize.ShloMosaic.Lib.Pipeline.Value

noncomputable section

namespace Cert.Proof.Val

open Idealize.ShloMosaic Idealize.ShloMosaic.ValueIdx Cert.KernelIdeal Cert.KernelIdeal.Gen

def bnLeaky (y : EReal) : EReal :=
  Scalar.select (FloatOps.cmpf (F := Ideal) (φ := .f32) .ogt y (Ideal.ofBits .f32 0x00000000#32)) y
    (Ideal.ofBits .f32 0x3C23D70A#32 * y)

-- `y = ((h − μ) · rsqrt (v + ε)) · w + b`, then `y` if `y > 0` and `0.01 · y` otherwise
def bnAct (h mu va gw gb : EReal) : EReal :=
  bnLeaky ((h - mu) * Ideal.rsqrt (va + Ideal.ofBits .f32 0x3727C5AC#32) * gw + gb)

def bnArr (h : Vec Ideal S50000x64 .f32) (mu va gw gb : Vec Ideal S1x64 .f32) : Vec Ideal S50000x64 .f32 :=
  fun i => let k : S1x64.Idx := ix2 (0 : Fin 1) (⟨(i 1).val, idx2_lt1 i⟩ : Fin 64)
    bnAct (h i) (mu k) (va k) (gw k) (gb k)

theorem bnArr_apply (h : Vec Ideal S50000x64 .f32) (mu va gw gb : Vec Ideal S1x64 .f32) (i : S50000x64.Idx) (q : Fin 64)
    (hq : (i 1).val = q.val) :
    bnArr h mu va gw gb i = bnAct (h i) (mu (ix2 0 q)) (va (ix2 0 q)) (gw (ix2 0 q)) (gb (ix2 0 q)) := by
  obtain rfl : (⟨(i 1).val, idx2_lt1 i⟩ : Fin 64) = q := Fin.ext hq
  rfl

theorem bnRow_apply (x : FVec Ideal S1x64 .f32) (p : Fin 5000) (q : Fin 64) :
    broadcastTo S5000x64 x broadcasts_S1x64_S5000x64 (ix2 p q) = x (ix2 0 q) :=
  broadcastTo_apply x _ _ _ (fun a => by match a with | ⟨0, _⟩ | ⟨1, _⟩ => rfl)

-- row `r` lies in the tile of 5000 rows numbered `r / 5000`
theorem bnRow_mem (f : Fin 2 → Nat) (i : S50000x64.Idx) (h0 : f 0 = (i 0).val / 5000) (h1 : f 1 = 0) (a : Fin 2) :
    f a * S5000x64.size a ≤ (i a).val ∧ (i a).val < f a * S5000x64.size a + S5000x64.size a := by
  have := idx2_lt1 i
  match a with
  | ⟨0, _⟩ => show f 0 * 5000 ≤ (i 0).val ∧ (i 0).val < f 0 * 5000 + 5000; rw [h0]; omega
  | ⟨1, _⟩ => show f 1 * 64 ≤ (i 1).val ∧ (i 1).val < f 1 * 64 + 64; rw [h1]; omega

theorem bnPay_apply (v0 : Vec Ideal S5000x64 .f32) (v2 v6 v13 v17 : Vec Ideal S1x64 .f32) (p : Fin 5000) (q : Fin 64) :
    k2_pay1 v0 v2 v6 v13 v17 (ix2 p q)
      = bnAct (v0 (ix2 p q)) (v2 (ix2 0 q)) (v6 (ix2 0 q)) (v13 (ix2 0 q)) (v17 (ix2 0 q)) := by
  unfold k2_pay1
  simp only [shapeCast_self]
  simp only [select_apply, cmpf_apply, mulf_apply, addf_apply, subf_apply, broadcast_apply, bnRow_apply]
  rfl

end Cert.Proof.Val

end
-- ==== Proof.Val.Stage2_Arr.lean ====
import proofs.«431052_j82222853914919_1_alg».proof.Proof.KI.Body2
import proofs.«431052_j82222853914919_1_alg».proof.Proof.Val.Stage2_Pay
import Idealize.ShloMosaic.Lib.Pipeline.Value

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem tileIndex2 : ∀ t : Fin cfg2.N,
    win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem iblk2_rows (c : Dev nD) (t : Fin cfg2.N) :
    ((iblk2 V c 1 t : Vec Ideal S1x64 .f32) = V c main_v26 ∧ (iblk2 V c 2 t : Vec Ideal S1x64 .f32) = V c main_v27) ∧
    ((iblk2 V c 3 t : Vec Ideal S1x64 .f32) = V c main_v28 ∧ (iblk2 V c 4 t : Vec Ideal S1x64 .f32) = V c main_v29) := by
  obtain ⟨-, -, _, _, _, _, _, _, _, _⟩ := tileIndex2 t
  refine ⟨⟨?_, ?_⟩, ?_, ?_⟩ <;>
  · funext j
    unfold iblk2
    rw [View.read_apply]
    show V c _ _ = V c _ _
    exact congrArg _ (Shape.idx_ext₂ (Pipeline.Window.rect_emb_val_of_index_zero _ t 0 ‹_› j)
      (Pipeline.Window.rect_emb_val_of_index_zero _ t 1 ‹_› j))

theorem tiles_cover2 (i : S50000x64.Idx) : ∃ t : Fin cfg2.N, (cfg2.win 5).flush t = true ∧ i ∈ ((cfg2.win 5).blk t).view.set := by
  let t : Fin cfg2.N := ⟨(i 0).val / 5000, by have := idx2_lt0 i; rw [show cfg2.N = 10 from N_2]; omega⟩
  refine ⟨t, flush2_5 t, ?_⟩
  show i ∈ ((View.whole main_v30).slice (win2_5.rect t)).set
  rw [View.set_slice_whole, Rect.mem_set_unit]
  exact bnRow_mem _ i (tileIndex2 t).1 (tileIndex2 t).2.1

-- each tile written is the matching 5000 rows of one function of the five arrays, and the ten tiles cover the array
theorem bnOut2 (c : Dev nD) : (dat2 V c).arrAt 5 cfg2.N
    = bnArr (V c main_v21) (V c main_v26) (V c main_v27) (V c main_v28) (V c main_v29) := by
  refine (dat2 V c).arrAt_eq_of_cover 5 _ (fun t _ => ?_) tiles_cover2
  obtain ⟨⟨hm, hv⟩, hw, hb⟩ := iblk2_rows V c t
  have z : (![0, 0] : Fin 2 → Nat) = fun _ => 0 := funext fun a => by fin_cases a <;> rfl
  show (cfg2.win 5).cut (grid2.coords t) ((dat2 V c).after 5 t) = _
  rw [after2_5]
  unfold out2_5
  rw [View.canon_unit_zero z]
  simp only [View.ld_unit_zero (S := S5000x64) z, View.ld_unit_zero (S := S1x64) z]
  rw [hm, hv, hw, hb]
  funext j
  obtain ⟨p, q, rfl⟩ : ∃ (p : Fin 5000) (q : Fin 64), j = ix2 p q := ⟨j 0, j 1, eq_ix2 j⟩
  exact (bnPay_apply _ _ _ _ _ p q).trans (bnArr_apply _ _ _ _ _ _ q
    (Pipeline.Window.rect_emb_val_of_index_zero win2_5 t 1 (tileIndex2 t).2.1 (ix2 p q))).symm

end Cert.Proof.Val

end
-- ==== Proof.Val.BnHost.lean ====
import proofs.«431052_j82222853914919_1_alg».proof.Proof.Gen.KernelIdeal
import proofs.«431052_j82222853914919_1_alg».proof.Proof.Val.Stage2_Pay
import Idealize.ShloMosaic.Lib.ValueIdx
import Idealize.ShloMosaic.Lib.Pipeline.Value

noncomputable section

namespace Cert.Proof.Val

open Idealize.ShloMosaic Idealize.ShloMosaic.ValueIdx
open Cert.KernelIdeal Cert.KernelIdeal.Gen

section AnyInstance
variable {F : FTy → Type} [FloatOps F]

def colMean (x : FVec F S50000x64 .f32) : FVec F S64 .f32 :=
  Host.divf (Host.reduceAdd x (constant S_ .f32 0x00000000#32) reducesTo_S50000x64_S64_d0 h_S_)
    (broadcastInDim S64 ![] bcast_S_S64 (constant S_ .f32 0x47435000#32))

def varCount : FVec F S_ .f32 :=
  subf (constant S_ .f32 0x47435000#32) (sitofp .f32 (constantI S_ 32 0#32))

def varDev (x : FVec F S50000x64 .f32) : FVec F S50000x64 .f32 :=
  subf x (broadcastInDim S50000x64 ![0, 1] bcast_S1x64_S50000x64_0_1
    (Host.divf (broadcastInDim S1x64 ![1] bcast_S64_S1x64_1 (Host.reduceAdd x (constant S_ .f32 0x00000000#32) reducesTo_S50000x64_S64_d0 h_S_))
      (broadcastInDim S1x64 ![] bcast_S_S1x64 (constant S_ .f32 0x47435000#32))))

def colVar (x : FVec F S50000x64 .f32) : FVec F S64 .f32 :=
  select (broadcastInDim S64 ![] bcast_S_S64 (cmpf .ogt (varCount (F := F)) (constant S_ .f32 0x00000000#32)))
    (Host.divf (Host.reduceAdd (mulf (varDev x) (varDev x)) (constant S_ .f32 0x00000000#32) reducesTo_S50000x64_S64_d0 h_S_)
      (broadcastInDim S64 ![] bcast_S_S64 (varCount (F := F))))
    (broadcastInDim S64 ![] bcast_S_S64 (id (constant S_ .f32 0x7FC00000#32)))

def rowsOf {α : Type} (r : S64.Idx → α) : S50000x64.Idx → α :=
  broadcastInDim S50000x64 ![0, 1] bcast_S1x64_S50000x64_0_1 (broadcastInDim S1x64 ![1] bcast_S64_S1x64_1 r)

def bnAffine (x : FVec F S50000x64 .f32) (m v w b : FVec F S64 .f32) : FVec F S50000x64 .f32 :=
  addf (mulf (mulf (subf x (rowsOf m))
      (rowsOf (Host.rsqrt (addf v (broadcastInDim S64 ![] bcast_S_S64 (constant S_ .f32 0x3727C5AC#32))))))
    (rowsOf w)) (rowsOf b)

def bnHost (x : FVec F S50000x64 .f32) (m v w b : FVec F S64 .f32) : FVec F S50000x64 .f32 :=
  select (cmpf .ogt (bnAffine x m v w b) (broadcastInDim S50000x64 ![] bcast_S_S50000x64 (constant S_ .f32 0x00000000#32)))
    (bnAffine x m v w b)
    (mulf (broadcastInDim S50000x64 ![] bcast_S_S50000x64 (constant S_ .f32 0x3C23D70A#32)) (bnAffine x m v w b))

theorem rowsOf_cast {α : Type} (r : S64.Idx → α) (i : S50000x64.Idx) :
    rowsOf r i = shapeCast S1x64 r shapeCasts_S64_S1x64 (ix2 (0 : Fin 1) ⟨(i 1).val, idx2_lt1 i⟩) := by
  unfold rowsOf
  rw [broadcastInDim_apply _ _ _ i (ix2 (0 : Fin 1) ⟨(i 1).val, idx2_lt1 i⟩) (fun a => by match a with | ⟨0, _⟩ | ⟨1, _⟩ => rfl),
    broadcastInDim_apply _ _ _ _ (ix1 ⟨(i 1).val, idx2_lt1 i⟩) (fun a => by match a with | ⟨0, _⟩ => rfl)]
  refine (shapeCast_apply r _ _ _ ?_).symm
  rw [Shape.rowMajor_val_one, Shape.rowMajor_val_two]
  show (i 1).val = (0 : Fin 1).val * 64 + (i 1).val
  simp

end AnyInstance

-- entry by entry both sides are `bnAct` of the entry and of its column's mean, variance, scale and shift
theorem bn_agree (x : FVec Ideal S50000x64 .f32) (m v w b : FVec Ideal S64 .f32) :
    bnArr x (shapeCast S1x64 m shapeCasts_S64_S1x64) (shapeCast S1x64 v shapeCasts_S64_S1x64)
      (shapeCast S1x64 w shapeCasts_S64_S1x64) (shapeCast S1x64 b shapeCasts_S64_S1x64) = bnHost x m v w b := by
  funext i
  unfold bnHost bnAffine
  rw [select_apply, cmpf_apply, mulf_apply, addf_apply, mulf_apply, mulf_apply, subf_apply, rowsOf_cast, rowsOf_cast, rowsOf_cast,
    rowsOf_cast]
  rfl

end Cert.Proof.Val

end
-- ==== Proof.Val.Stage2_Host.lean ====
import proofs.«431052_j82222853914919_1_alg».proof.Proof.Gen.KernelIdeal.Launch
import proofs.«431052_j82222853914919_1_alg».proof.Proof.Val.BnHost
import Idealize.ShloMosaic.Lib.StableHlo.Run

noncomputable section

namespace Cert.Proof.Val

open Idealize.ShloMosaic Idealize.ShloMosaic.TcCoe Idealize.ShloMosaic.ValueIdx Idealize.SL.Sem
open Cert.KernelIdeal Cert.KernelIdeal.Gen

variable (Wk : Dev nD → Valuation τ sig (Elt Ideal))

abbrev Vk2 (c : Dev nD) (b : Ref sig .tc) : Buf (Elt Ideal) ((c : Thread nD τ).loc b) :=
  StableHlo.after hostOps2_2 (StableHlo.after hostOps2_1 (StableHlo.after hostOps2 (Wk c))) (Proc.devRef .tc b)

theorem host2 (c : Dev nD) :
    bnArr (Vk2 Wk c main_v21) (Vk2 Wk c main_v26) (Vk2 Wk c main_v27) (Vk2 Wk c main_v28) (Vk2 Wk c main_v29)
      = bnHost (F := Ideal) (Wk c main_v21) (colMean (F := Ideal) (Wk c main_v21)) (colVar (F := Ideal) (Wk c main_v21))
          (Wk c main_arg6) (Wk c main_arg7) := by
  rw [← bn_agree]
  congr 1 <;> unfold Vk2 <;> after_results_simp <;> rfl

end Cert.Proof.Val

end
-- ==== Proof.Val.Stage2_Ref.lean ====
import proofs.«431052_j82222853914919_1_alg».proof.Proof.Ref.Run
import proofs.«431052_j82222853914919_1_alg».proof.Proof.Val.BnHost

noncomputable section

namespace Cert.Proof.Val

open Idealize.ShloMosaic Idealize.ShloMosaic.TcCoe Idealize.SL.Sem

theorem ref2 (Wr : Valuation Cert.ReferenceIdeal.τ Cert.ReferenceIdeal.sig (Elt Ideal)) :
    StableHlo.after Cert.Proof.Ref.segB0 Wr Cert.Proof.Ref.z1_ref
      = bnHost (F := Ideal) (Wr Cert.Proof.Ref.h0_ref) (colMean (F := Ideal) (Wr Cert.Proof.Ref.h0_ref))
          (colVar (F := Ideal) (Wr Cert.Proof.Ref.h0_ref)) (Wr Cert.ReferenceIdeal.main_arg6) (Wr Cert.ReferenceIdeal.main_arg7) := by
  show StableHlo.after Cert.Proof.Ref.segB0 Wr (Proc.devRef .tc Cert.ReferenceIdeal.main_v68) = _
  after_results_simp
  simp only [StableHlo.TRef.ofBuf, StableHlo.TRef.toBuf, cast_eq]
  unfold bnHost bnAffine rowsOf colMean colVar varCount varDev
  rfl

end Cert.Proof.Val

end
-- ==== Proof.Val.Stage2.lean ====
import proofs.«431052_j82222853914919_1_alg».proof.Proof.Val.Stage2_Arr
import proofs.«431052_j82222853914919_1_alg».proof.Proof.Val.Stage2_Host
import proofs.«431052_j82222853914919_1_alg».proof.Proof.Val.Stage2_Ref
import proofs.«431052_j82222853914919_1_alg».proof.Proof.Val.BnHost

noncomputable section

namespace Cert.Proof.Val

open Idealize.ShloMosaic Idealize.ShloMosaic.TcCoe Idealize.ShloMosaic.ValueIdx Idealize.SL.Sem

theorem stage2 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (hh : Wk c Cert.KernelIdeal.main_v21 = Wr Cert.Proof.Ref.h0_ref)
    (hw : Wk c Cert.KernelIdeal.main_arg6 = Wr Cert.ReferenceIdeal.main_arg6)
    (hb : Wk c Cert.KernelIdeal.main_arg7 = Wr Cert.ReferenceIdeal.main_arg7) :
    (Cert.Proof.KI.dat2 (F := Ideal) (fun c b => StableHlo.after Cert.KernelIdeal.Gen.hostOps2_2
        (StableHlo.after Cert.KernelIdeal.Gen.hostOps2_1 (StableHlo.after Cert.KernelIdeal.Gen.hostOps2 (Wk c))) b) c).arrAt 5 Cert.KernelIdeal.cfg2.N
      = StableHlo.after Cert.Proof.Ref.segB0 Wr Cert.Proof.Ref.z1_ref := by
  refine (bnOut2 (Vk2 Wk) c).trans ?_
  rw [host2, ref2, hh, hw, hb]

end Cert.Proof.Val

end
-- ==== Proof.Val.Stage3_Pay.lean ====
import proofs.«431052_j82222853914919_1_alg».proof.Proof.Gen.KernelIdeal.Skeleton
import proofs.«431052_j82222853914919_1_alg».proof.Proof.Val.MlpSpec
-- ==== Proof.Val.Stage3_Arr.lean ====
import proofs.«431052_j82222853914919_1_alg».proof.Proof.KI.Body3
import proofs.«431052_j82222853914919_1_alg».proof.Proof.Val.Stage3_Pay
import Idealize.ShloMosaic.Lib.Pipeline.Value

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz3 : (![0, 0] : Fin 2 → Nat) = fun _ => 0 := funext fun a => by fin_cases a <;> rfl

def G3 (c : Dev nD) : FVec Ideal S50000x64 .f32 :=
  mlp (V c main_v30) (V c main_v40) (V c main_v41) (V c main_v43) (V c main_v42) (V c main_v44)

theorem k3_pay1_eq (x0 x1 x2 x3 x4 x5) : k3_pay1 (F := Ideal) x0 x1 x2 x3 x4 x5 = mlp x0 x1 x2 x3 x4 x5 := pay_eq ..

theorem idx_facts3 : ∀ t : Fin cfg3.N,
    (∀ a : Fin 2, win3_0.index t a = ![t.val, 0] a) ∧ (∀ a : Fin 2, win3_1.index t a = ![t.val, 0] a)
    ∧ (∀ a : Fin 2, win3_2.index t a = ![0, 0] a) ∧ (∀ a : Fin 2, win3_3.index t a = ![0, 0] a)
    ∧ (∀ a : Fin 2, win3_4.index t a = ![0, 0] a) ∧ (∀ a : Fin 2, win3_5.index t a = ![0, 0] a)
    ∧ ∀ a : Fin 2, win3_6.index t a = ![t.val, 0] a :=
  (by decide +kernel : ∀ t : Fin grid3.N, _)

-- every operand block is a tile of its array, so the stored block is tile t of the layer
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S64x64) hz3, View.ld_unit_zero (S := S1x64) hz3,
    View.ld_unit_zero (S := S64x64) hz3, View.ld_unit_zero (S := S1x64) hz3]
  obtain ⟨i0, i1, i2, i3, i4, i5, i6⟩ := idx_facts3 t
  funext j
  show k3_pay1 (F := Ideal) _ _ _ _ _ _ j = G3 V c (((cfg3.win 6).blk t).view.emb j)
  rw [k3_pay1_eq]
  refine (mlp_block t.val ?_ ?_ ?_ ?_ ?_ ?_).at_emb ((cfg3.win 6).blk t).view.emb (fun _ _ => rfl) i6 j
  exacts [.of_emb (fun _ => rfl) (fun _ _ => rfl) i0, .of_emb (fun _ => rfl) (fun _ _ => rfl) i1,
    .of_emb (fun _ => rfl) (fun _ _ => rfl) i2, .of_emb (fun _ => rfl) (fun _ _ => rfl) i3,
    .of_emb (fun _ => rfl) (fun _ _ => rfl) i4, .of_emb (fun _ => rfl) (fun _ _ => rfl) i5]

theorem cover3 (i : S50000x64.Idx) :
    ∃ t : Fin cfg3.N, (cfg3.win 6).flush t = true ∧ i ∈ ((cfg3.win 6).blk t).view.set := by
  have h : (i 0).val < 50000 := (i 0).isLt
  have ht : (i 0).val / 5000 < cfg3.N := by rw [show cfg3.N = 10 from N_3]; omega
  refine ⟨⟨_, ht⟩, flush3_6 _, ?_⟩
  show i ∈ ((View.whole main_v45).slice (win3_6.rect ⟨_, ht⟩)).set
  rw [View.set_slice_whole, Rect.mem_set_unit]
  exact tile_bounds (by decide) i (idx_facts3 ⟨_, ht⟩).2.2.2.2.2.2

theorem final3 (c : Dev nD) : (dat3 V c).arrAt 6 cfg3.N = G3 V c :=
  (dat3 V c).arrAt_eq_of_cover 6 (G3 V c) (fun t _ => flushed3_eq V c t) cover3

end Cert.Proof.Val

end
-- ==== Proof.Val.Stage3_Ker.lean ====
import proofs.«431052_j82222853914919_1_alg».proof.Proof.Val.Stage3_Arr
import Idealize.ShloMosaic.Lib.StableHlo.Run

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem

def aggK3 (x : FVec Ideal S50000x64 .f32) (src dst : IVec S800000 32) : FVec Ideal S50000x64 .f32 :=
  agg scatter_S50000x64_S800000x1_S800000x64_1_0_0_1 gather_S50000x64_S800000x1_S800000x64_1_0_n_n_0_1_164
    bcast_S_S50000x64 bcast_S800000_S800000x1_0 bcast_S_S800000 50000#32 x src dst

variable (Wk : Dev nD → Valuation τ sig (Elt Ideal)) (c : Dev nD)

abbrev V3 : (c : Dev nD) → (b : Ref sig .tc) → Buf (Elt Ideal) ((c : Thread nD τ).loc b) :=
  fun c b => StableHlo.after hostOps3 (Wk c) b

set_option maxHeartbeats 4000000 in
theorem ker3_agg : StableHlo.after hostOps3 (Wk c) (Proc.devRef .tc main_v40)
    = aggK3 (Wk c main_v30) (Wk c main_v1) (Wk c main_v3) := by
  after_results
  try rfl

theorem ker3_eq : (dat3 (F := Ideal) (V3 Wk) c).arrAt 6 cfg3.N
    = mlp (Wk c main_v30) (aggK3 (Wk c main_v30) (Wk c main_v1) (Wk c main_v3))
      (transpose S64x64 [1, 0] (Wk c main_arg8) transposes_S64x64_S64x64_1_0)
      (shapeCast S1x64 (Wk c main_arg9) shapeCasts_S64_S1x64)
      (transpose S64x64 [1, 0] (Wk c main_arg10) transposes_S64x64_S64x64_1_0)
      (shapeCast S1x64 (Wk c main_arg11) shapeCasts_S64_S1x64) := by
  rw [final3]
  unfold G3
  refine mlp_congr ?_ (ker3_agg Wk c) ?_ ?_ ?_ ?_ <;>
    (show StableHlo.after hostOps3 (Wk c) _ = _; after_results; try rfl)

end Cert.Proof.Val

end
-- ==== Proof.Val.Stage3_Ref.lean ====
import proofs.«431052_j82222853914919_1_alg».proof.Proof.Ref.Run
import proofs.«431052_j82222853914919_1_alg».proof.Proof.Val.MlpSpec

noncomputable section

namespace Cert.Proof.Val

open Cert.ReferenceIdeal Cert.ReferenceIdeal.Gen Cert.Proof.Ref
open Idealize.ShloMosaic Idealize.ShloMosaic.TcCoe Idealize.ShloMosaic.ValueIdx

def aggR3 (x : FVec Ideal S50000x64 .f32) (src dst : IVec S800000 32) : FVec Ideal S50000x64 .f32 :=
  agg scatter_S50000x64_S800000x1_S800000x64_1_0_0_1 gather_S50000x64_S800000x1_S800000x64_1_0_n_n_0_1_164
    bcast_S_S50000x64 bcast_S800000_S800000x1_0 bcast_S_S800000 50000#32 x src dst

theorem ref3_eq (Wr : Valuation τ sig (Elt Ideal)) :
    (StableHlo.after segA1 Wr h1_ref : FVec Ideal S50000x64 .f32)
      = mlp (Wr main_v68) (aggR3 (Wr main_v68) (Wr main_v1) (Wr main_v3))
          (transpose S64x64 [1, 0] (Wr main_arg8) transposes_S64x64_S64x64_1_0)
          (broadcastInDim S1x64 ![1] bcast_S64_S1x64_1 (Wr main_arg9))
          (transpose S64x64 [1, 0] (Wr main_arg10) transposes_S64x64_S64x64_1_0)
          (broadcastInDim S1x64 ![1] bcast_S64_S1x64_1 (Wr main_arg11)) := by
  dsimp only [segA1, h1_ref]
  after_results_simp
  simp only [StableHlo.TRef.ofBuf, StableHlo.TRef.toBuf, cast_eq]
  exact host_eq ..

end Cert.Proof.Val

end
-- ==== Proof.Val.Stage3.lean ====
import proofs.«431052_j82222853914919_1_alg».proof.Proof.Val.Stage3_Ker
import proofs.«431052_j82222853914919_1_alg».proof.Proof.Val.Stage3_Ref

set_option maxRecDepth 16384

noncomputable section

namespace Cert.Proof.Val

open Idealize.ShloMosaic Idealize.ShloMosaic.TcCoe Idealize.SL.Sem

-- equal inputs: the two sides are the same layer, a bias reshaped to one row being its broadcast along axis 1
theorem stage3 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (hz : Wk c Cert.KernelIdeal.main_v30 = Wr Cert.Proof.Ref.z1_ref)
    (hsrc : Wk c Cert.KernelIdeal.main_v1 = Wr Cert.ReferenceIdeal.main_v1)
    (hdst : Wk c Cert.KernelIdeal.main_v3 = Wr Cert.ReferenceIdeal.main_v3)
    (hwa : Wk c Cert.KernelIdeal.main_arg8 = Wr Cert.ReferenceIdeal.main_arg8)
    (hba : Wk c Cert.KernelIdeal.main_arg9 = Wr Cert.ReferenceIdeal.main_arg9)
    (hwb : Wk c Cert.KernelIdeal.main_arg10 = Wr Cert.ReferenceIdeal.main_arg10)
    (hbb : Wk c Cert.KernelIdeal.main_arg11 = Wr Cert.ReferenceIdeal.main_arg11) :
    (Cert.Proof.KI.dat3 (F := Ideal) (fun c b => StableHlo.after Cert.KernelIdeal.Gen.hostOps3 (Wk c) b) c).arrAt 6
        Cert.KernelIdeal.cfg3.N
      = StableHlo.after Cert.Proof.Ref.segA1 Wr Cert.Proof.Ref.h1_ref := by
  refine (ker3_eq Wk c).trans ?_
  rw [hz, hsrc, hdst, hwa, hba, hwb, hbb, ref3_eq,
    shapeCast_row_eq_broadcastInDim _ _ Cert.ReferenceIdeal.Gen.bcast_S64_S1x64_1,
    shapeCast_row_eq_broadcastInDim _ _ Cert.ReferenceIdeal.Gen.bcast_S64_S1x64_1]
  rfl

end Cert.Proof.Val

end
-- ==== Proof.Val.Stage4_Pay.lean ====
import proofs.«431052_j82222853914919_1_alg».proof.Proof.Gen.KernelIdeal.Skeleton
import proofs.«431052_j82222853914919_1_alg».proof.Proof.Val.Stage2_Pay
import Idealize.ShloMosaic.Lib.ValueIdx
import Idealize.ShloMosaic.Lib.Pipeline.Value
-- ==== Proof.Val.Stage4_Arr.lean ====
import proofs.«431052_j82222853914919_1_alg».proof.Proof.KI.Body4
import proofs.«431052_j82222853914919_1_alg».proof.Proof.Val.Stage4_Pay
import Idealize.ShloMosaic.Lib.Pipeline.Value

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem tileIndex4 : ∀ t : Fin cfg4.N,
    win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem iblk4_rows (c : Dev nD) (t : Fin cfg4.N) :
    ((iblk4 V c 1 t : Vec Ideal S1x64 .f32) = V c main_v50 ∧ (iblk4 V c 2 t : Vec Ideal S1x64 .f32) = V c main_v51) ∧
    ((iblk4 V c 3 t : Vec Ideal S1x64 .f32) = V c main_v52 ∧ (iblk4 V c 4 t : Vec Ideal S1x64 .f32) = V c main_v53) := by
  obtain ⟨-, -, _, _, _, _, _, _, _, _⟩ := tileIndex4 t
  refine ⟨⟨?_, ?_⟩, ?_, ?_⟩ <;>
  · funext j
    unfold iblk4
    rw [View.read_apply]
    show V c _ _ = V c _ _
    exact congrArg _ (Shape.idx_ext₂ (Pipeline.Window.rect_emb_val_of_index_zero _ t 0 ‹_› j)
      (Pipeline.Window.rect_emb_val_of_index_zero _ t 1 ‹_› j))

theorem tiles_cover4 (i : S50000x64.Idx) : ∃ t : Fin cfg4.N, (cfg4.win 5).flush t = true ∧ i ∈ ((cfg4.win 5).blk t).view.set := by
  let t : Fin cfg4.N := ⟨(i 0).val / 5000, by have := idx2_lt0 i; rw [show cfg4.N = 10 from N_4]; omega⟩
  refine ⟨t, flush4_5 t, ?_⟩
  show i ∈ ((View.whole main_v54).slice (win4_5.rect t)).set
  rw [View.set_slice_whole, Rect.mem_set_unit]
  exact bnRow_mem _ i (tileIndex4 t).1 (tileIndex4 t).2.1

-- each tile written is the matching 5000 rows of one function of the five arrays, and the ten tiles cover the array
theorem bnOut4 (c : Dev nD) : (dat4 V c).arrAt 5 cfg4.N
    = bnArr (V c main_v45) (V c main_v50) (V c main_v51) (V c main_v52) (V c main_v53) := by
  refine (dat4 V c).arrAt_eq_of_cover 5 _ (fun t _ => ?_) tiles_cover4
  obtain ⟨⟨hm, hv⟩, hw, hb⟩ := iblk4_rows V c t
  have z : (![0, 0] : Fin 2 → Nat) = fun _ => 0 := funext fun a => by fin_cases a <;> rfl
  show (cfg4.win 5).cut (grid4.coords t) ((dat4 V c).after 5 t) = _
  rw [after4_5]
  unfold out4_5
  rw [View.canon_unit_zero z]
  simp only [View.ld_unit_zero (S := S5000x64) z, View.ld_unit_zero (S := S1x64) z]
  rw [hm, hv, hw, hb]
  funext j
  obtain ⟨p, q, rfl⟩ : ∃ (p : Fin 5000) (q : Fin 64), j = ix2 p q := ⟨j 0, j 1, eq_ix2 j⟩
  exact (bnPay_apply _ _ _ _ _ p q).trans (bnArr_apply _ _ _ _ _ _ q
    (Pipeline.Window.rect_emb_val_of_index_zero win4_5 t 1 (tileIndex4 t).2.1 (ix2 p q))).symm

end Cert.Proof.Val

end
-- ==== Proof.Val.Stage4_Host.lean ====
import proofs.«431052_j82222853914919_1_alg».proof.Proof.Gen.KernelIdeal.Launch
import proofs.«431052_j82222853914919_1_alg».proof.Proof.Val.BnHost
import Idealize.ShloMosaic.Lib.StableHlo.Run

noncomputable section

namespace Cert.Proof.Val

open Idealize.ShloMosaic Idealize.ShloMosaic.TcCoe Idealize.ShloMosaic.ValueIdx Idealize.SL.Sem
open Cert.KernelIdeal Cert.KernelIdeal.Gen

variable (Wk : Dev nD → Valuation τ sig (Elt Ideal))

abbrev Vk4 (c : Dev nD) (b : Ref sig .tc) : Buf (Elt Ideal) ((c : Thread nD τ).loc b) :=
  StableHlo.after hostOps4_2 (StableHlo.after hostOps4_1 (StableHlo.after hostOps4 (Wk c))) (Proc.devRef .tc b)

theorem host4 (c : Dev nD) :
    bnArr (Vk4 Wk c main_v45) (Vk4 Wk c main_v50) (Vk4 Wk c main_v51) (Vk4 Wk c main_v52) (Vk4 Wk c main_v53)
      = bnHost (F := Ideal) (Wk c main_v45) (colMean (F := Ideal) (Wk c main_v45)) (colVar (F := Ideal) (Wk c main_v45))
          (Wk c main_arg12) (Wk c main_arg13) := by
  rw [← bn_agree]
  congr 1 <;> unfold Vk4 <;> after_results_simp <;> rfl

end Cert.Proof.Val

end
-- ==== Proof.Val.Stage4_Ref.lean ====
import proofs.«431052_j82222853914919_1_alg».proof.Proof.Ref.Run
import proofs.«431052_j82222853914919_1_alg».proof.Proof.Val.BnHost

noncomputable section

namespace Cert.Proof.Val

open Idealize.ShloMosaic Idealize.ShloMosaic.TcCoe Idealize.SL.Sem

theorem ref4 (Wr : Valuation Cert.ReferenceIdeal.τ Cert.ReferenceIdeal.sig (Elt Ideal)) :
    StableHlo.after Cert.Proof.Ref.segB1 Wr Cert.Proof.Ref.z2_ref
      = bnHost (F := Ideal) (Wr Cert.Proof.Ref.h1_ref) (colMean (F := Ideal) (Wr Cert.Proof.Ref.h1_ref))
          (colVar (F := Ideal) (Wr Cert.Proof.Ref.h1_ref)) (Wr Cert.ReferenceIdeal.main_arg12) (Wr Cert.ReferenceIdeal.main_arg13) := by
  show StableHlo.after Cert.Proof.Ref.segB1 Wr (Proc.devRef .tc Cert.ReferenceIdeal.main_v118) = _
  after_results_simp
  simp only [StableHlo.TRef.ofBuf, StableHlo.TRef.toBuf, cast_eq]
  unfold bnHost bnAffine rowsOf colMean colVar varCount varDev
  rfl

end Cert.Proof.Val

end
-- ==== Proof.Val.Stage4.lean ====
import proofs.«431052_j82222853914919_1_alg».proof.Proof.Val.Stage4_Arr
import proofs.«431052_j82222853914919_1_alg».proof.Proof.Val.Stage4_Host
import proofs.«431052_j82222853914919_1_alg».proof.Proof.Val.Stage4_Ref
import proofs.«431052_j82222853914919_1_alg».proof.Proof.Val.BnHost

noncomputable section

namespace Cert.Proof.Val

open Idealize.ShloMosaic Idealize.ShloMosaic.TcCoe Idealize.ShloMosaic.ValueIdx Idealize.SL.Sem

theorem stage4 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (hh : Wk c Cert.KernelIdeal.main_v45 = Wr Cert.Proof.Ref.h1_ref)
    (hw : Wk c Cert.KernelIdeal.main_arg12 = Wr Cert.ReferenceIdeal.main_arg12)
    (hb : Wk c Cert.KernelIdeal.main_arg13 = Wr Cert.ReferenceIdeal.main_arg13) :
    (Cert.Proof.KI.dat4 (F := Ideal) (fun c b => StableHlo.after Cert.KernelIdeal.Gen.hostOps4_2
        (StableHlo.after Cert.KernelIdeal.Gen.hostOps4_1 (StableHlo.after Cert.KernelIdeal.Gen.hostOps4 (Wk c))) b) c).arrAt 5 Cert.KernelIdeal.cfg4.N
      = StableHlo.after Cert.Proof.Ref.segB1 Wr Cert.Proof.Ref.z2_ref := by
  refine (bnOut4 (Vk4 Wk) c).trans ?_
  rw [host4, ref4, hh, hw, hb]

end Cert.Proof.Val

end
-- ==== Proof.Val.Stage5_Pay.lean ====
import proofs.«431052_j82222853914919_1_alg».proof.Proof.Gen.KernelIdeal.Skeleton
import proofs.«431052_j82222853914919_1_alg».proof.Proof.Val.MlpSpec
-- ==== Proof.Val.Stage5_Arr.lean ====
import proofs.«431052_j82222853914919_1_alg».proof.Proof.KI.Body5
import proofs.«431052_j82222853914919_1_alg».proof.Proof.Val.Stage5_Pay
import Idealize.ShloMosaic.Lib.Pipeline.Value

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz5 : (![0, 0] : Fin 2 → Nat) = fun _ => 0 := funext fun a => by fin_cases a <;> rfl

def G5 (c : Dev nD) : FVec Ideal S50000x64 .f32 :=
  mlp (V c main_v54) (V c main_v64) (V c main_v65) (V c main_v67) (V c main_v66) (V c main_v68)

theorem k5_pay1_eq (x0 x1 x2 x3 x4 x5) : k5_pay1 (F := Ideal) x0 x1 x2 x3 x4 x5 = mlp x0 x1 x2 x3 x4 x5 := pay_eq ..

theorem idx_facts5 : ∀ t : Fin cfg5.N,
    (∀ a : Fin 2, win5_0.index t a = ![t.val, 0] a) ∧ (∀ a : Fin 2, win5_1.index t a = ![t.val, 0] a)
    ∧ (∀ a : Fin 2, win5_2.index t a = ![0, 0] a) ∧ (∀ a : Fin 2, win5_3.index t a = ![0, 0] a)
    ∧ (∀ a : Fin 2, win5_4.index t a = ![0, 0] a) ∧ (∀ a : Fin 2, win5_5.index t a = ![0, 0] a)
    ∧ ∀ a : Fin 2, win5_6.index t a = ![t.val, 0] a :=
  (by decide +kernel : ∀ t : Fin grid5.N, _)

-- every operand block is a tile of its array, so the stored block is tile t of the layer
theorem flushed5_eq (c : Dev nD) (t : Fin cfg5.N) :
    (dat5 V c).flushed 6 t = ((cfg5.win 6).blk t).view.read (Elt Ideal) (G5 V c) := by
  show (cfg5.win 6).cut (grid5.coords t) ((dat5 V c).after 6 t) = _
  rw [after5_6]
  unfold out5_6
  rw [View.canon_unit_zero hz5]
  simp only [View.ld_unit_zero (S := S5000x64) hz5, View.ld_unit_zero (S := S64x64) hz5, View.ld_unit_zero (S := S1x64) hz5,
    View.ld_unit_zero (S := S64x64) hz5, View.ld_unit_zero (S := S1x64) hz5]
  obtain ⟨i0, i1, i2, i3, i4, i5, i6⟩ := idx_facts5 t
  funext j
  show k5_pay1 (F := Ideal) _ _ _ _ _ _ j = G5 V c (((cfg5.win 6).blk t).view.emb j)
  rw [k5_pay1_eq]
  refine (mlp_block t.val ?_ ?_ ?_ ?_ ?_ ?_).at_emb ((cfg5.win 6).blk t).view.emb (fun _ _ => rfl) i6 j
  exacts [.of_emb (fun _ => rfl) (fun _ _ => rfl) i0, .of_emb (fun _ => rfl) (fun _ _ => rfl) i1,
    .of_emb (fun _ => rfl) (fun _ _ => rfl) i2, .of_emb (fun _ => rfl) (fun _ _ => rfl) i3,
    .of_emb (fun _ => rfl) (fun _ _ => rfl) i4, .of_emb (fun _ => rfl) (fun _ _ => rfl) i5]

theorem cover5 (i : S50000x64.Idx) :
    ∃ t : Fin cfg5.N, (cfg5.win 6).flush t = true ∧ i ∈ ((cfg5.win 6).blk t).view.set := by
  have h : (i 0).val < 50000 := (i 0).isLt
  have ht : (i 0).val / 5000 < cfg5.N := by rw [show cfg5.N = 10 from N_5]; omega
  refine ⟨⟨_, ht⟩, flush5_6 _, ?_⟩
  show i ∈ ((View.whole main_v69).slice (win5_6.rect ⟨_, ht⟩)).set
  rw [View.set_slice_whole, Rect.mem_set_unit]
  exact tile_bounds (by decide) i (idx_facts5 ⟨_, ht⟩).2.2.2.2.2.2

theorem final5 (c : Dev nD) : (dat5 V c).arrAt 6 cfg5.N = G5 V c :=
  (dat5 V c).arrAt_eq_of_cover 6 (G5 V c) (fun t _ => flushed5_eq V c t) cover5

end Cert.Proof.Val

end
-- ==== Proof.Val.Stage5_Ker.lean ====
import proofs.«431052_j82222853914919_1_alg».proof.Proof.Val.Stage5_Arr
import Idealize.ShloMosaic.Lib.StableHlo.Run

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem

def aggK5 (x : FVec Ideal S50000x64 .f32) (src dst : IVec S800000 32) : FVec Ideal S50000x64 .f32 :=
  agg scatter_S50000x64_S800000x1_S800000x64_1_0_0_1 gather_S50000x64_S800000x1_S800000x64_1_0_n_n_0_1_164
    bcast_S_S50000x64 bcast_S800000_S800000x1_0 bcast_S_S800000 50000#32 x src dst

variable (Wk : Dev nD → Valuation τ sig (Elt Ideal)) (c : Dev nD)

abbrev V5 : (c : Dev nD) → (b : Ref sig .tc) → Buf (Elt Ideal) ((c : Thread nD τ).loc b) :=
  fun c b => StableHlo.after hostOps5 (Wk c) b

set_option maxHeartbeats 4000000 in
theorem ker5_agg : StableHlo.after hostOps5 (Wk c) (Proc.devRef .tc main_v64)
    = aggK5 (Wk c main_v54) (Wk c main_v1) (Wk c main_v3) := by
  after_results
  try rfl

theorem ker5_eq : (dat5 (F := Ideal) (V5 Wk) c).arrAt 6 cfg5.N
    = mlp (Wk c main_v54) (aggK5 (Wk c main_v54) (Wk c main_v1) (Wk c main_v3))
      (transpose S64x64 [1, 0] (Wk c main_arg14) transposes_S64x64_S64x64_1_0)
      (shapeCast S1x64 (Wk c main_arg15) shapeCasts_S64_S1x64)
      (transpose S64x64 [1, 0] (Wk c main_arg16) transposes_S64x64_S64x64_1_0)
      (shapeCast S1x64 (Wk c main_arg17) shapeCasts_S64_S1x64) := by
  rw [final5]
  unfold G5
  refine mlp_congr ?_ (ker5_agg Wk c) ?_ ?_ ?_ ?_ <;>
    (show StableHlo.after hostOps5 (Wk c) _ = _; after_results; try rfl)

end Cert.Proof.Val

end
-- ==== Proof.Val.Stage5_Ref.lean ====
import proofs.«431052_j82222853914919_1_alg».proof.Proof.Ref.Run
import proofs.«431052_j82222853914919_1_alg».proof.Proof.Val.MlpSpec

noncomputable section

namespace Cert.Proof.Val

open Cert.ReferenceIdeal Cert.ReferenceIdeal.Gen Cert.Proof.Ref
open Idealize.ShloMosaic Idealize.ShloMosaic.TcCoe Idealize.ShloMosaic.ValueIdx

def aggR5 (x : FVec Ideal S50000x64 .f32) (src dst : IVec S800000 32) : FVec Ideal S50000x64 .f32 :=
  agg scatter_S50000x64_S800000x1_S800000x64_1_0_0_1 gather_S50000x64_S800000x1_S800000x64_1_0_n_n_0_1_164
    bcast_S_S50000x64 bcast_S800000_S800000x1_0 bcast_S_S800000 50000#32 x src dst

theorem ref5_eq (Wr : Valuation τ sig (Elt Ideal)) :
    (StableHlo.after segA2 Wr h2_ref : FVec Ideal S50000x64 .f32)
      = mlp (Wr main_v118) (aggR5 (Wr main_v118) (Wr main_v1) (Wr main_v3))
          (transpose S64x64 [1, 0] (Wr main_arg14) transposes_S64x64_S64x64_1_0)
          (broadcastInDim S1x64 ![1] bcast_S64_S1x64_1 (Wr main_arg15))
          (transpose S64x64 [1, 0] (Wr main_arg16) transposes_S64x64_S64x64_1_0)
          (broadcastInDim S1x64 ![1] bcast_S64_S1x64_1 (Wr main_arg17)) := by
  dsimp only [segA2, h2_ref]
  after_results_simp
  simp only [StableHlo.TRef.ofBuf, StableHlo.TRef.toBuf, cast_eq]
  exact host_eq ..

end Cert.Proof.Val

end
-- ==== Proof.Val.Stage5.lean ====
import proofs.«431052_j82222853914919_1_alg».proof.Proof.Val.Stage5_Ker
import proofs.«431052_j82222853914919_1_alg».proof.Proof.Val.Stage5_Ref

set_option maxRecDepth 16384

noncomputable section

namespace Cert.Proof.Val

open Idealize.ShloMosaic Idealize.ShloMosaic.TcCoe Idealize.SL.Sem

-- equal inputs: the two sides are the same layer, a bias reshaped to one row being its broadcast along axis 1
theorem stage5 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (hz : Wk c Cert.KernelIdeal.main_v54 = Wr Cert.Proof.Ref.z2_ref)
    (hsrc : Wk c Cert.KernelIdeal.main_v1 = Wr Cert.ReferenceIdeal.main_v1)
    (hdst : Wk c Cert.KernelIdeal.main_v3 = Wr Cert.ReferenceIdeal.main_v3)
    (hwa : Wk c Cert.KernelIdeal.main_arg14 = Wr Cert.ReferenceIdeal.main_arg14)
    (hba : Wk c Cert.KernelIdeal.main_arg15 = Wr Cert.ReferenceIdeal.main_arg15)
    (hwb : Wk c Cert.KernelIdeal.main_arg16 = Wr Cert.ReferenceIdeal.main_arg16)
    (hbb : Wk c Cert.KernelIdeal.main_arg17 = Wr Cert.ReferenceIdeal.main_arg17) :
    (Cert.Proof.KI.dat5 (F := Ideal) (fun c b => StableHlo.after Cert.KernelIdeal.Gen.hostOps5 (Wk c) b) c).arrAt 6
        Cert.KernelIdeal.cfg5.N
      = StableHlo.after Cert.Proof.Ref.segA2 Wr Cert.Proof.Ref.h2_ref := by
  refine (ker5_eq Wk c).trans ?_
  rw [hz, hsrc, hdst, hwa, hba, hwb, hbb, ref5_eq,
    shapeCast_row_eq_broadcastInDim _ _ Cert.ReferenceIdeal.Gen.bcast_S64_S1x64_1,
    shapeCast_row_eq_broadcastInDim _ _ Cert.ReferenceIdeal.Gen.bcast_S64_S1x64_1]
  rfl

end Cert.Proof.Val

end
-- ==== Proof.Val.Stage6_Pay.lean ====
import proofs.«431052_j82222853914919_1_alg».proof.Proof.Gen.KernelIdeal.Skeleton
import proofs.«431052_j82222853914919_1_alg».proof.Proof.Val.Stage2_Pay
import Idealize.ShloMosaic.Lib.ValueIdx
import Idealize.ShloMosaic.Lib.Pipeline.Value
-- ==== Proof.Val.Stage6_Arr.lean ====
import proofs.«431052_j82222853914919_1_alg».proof.Proof.KI.Body6
import proofs.«431052_j82222853914919_1_alg».proof.Proof.Val.Stage6_Pay
import Idealize.ShloMosaic.Lib.Pipeline.Value

set_option maxRecDepth 16384

noncomputable section

namespace Cert.Proof.Val

open Cert.KernelIdeal Cert.KernelIdeal.Gen Cert.Proof.KI
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem tileIndex6 : ∀ t : Fin cfg6.N,
    win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

theorem iblk6_rows (c : Dev nD) (t : Fin cfg6.N) :
    ((iblk6 V c 1 t : Vec Ideal S1x64 .f32) = V c main_v74 ∧ (iblk6 V c 2 t : Vec Ideal S1x64 .f32) = V c main_v75) ∧
    ((iblk6 V c 3 t : Vec Ideal S1x64 .f32) = V c main_v76 ∧ (iblk6 V c 4 t : Vec Ideal S1x64 .f32) = V c main_v77) := by
  obtain ⟨-, -, _, _, _, _, _, _, _, _⟩ := tileIndex6 t
  refine ⟨⟨?_, ?_⟩, ?_, ?_⟩ <;>
  · funext j
    unfold iblk6
    rw [View.read_apply]
    show V c _ _ = V c _ _
    exact congrArg _ (Shape.idx_ext₂ (Pipeline.Window.rect_emb_val_of_index_zero _ t 0 ‹_› j)
      (Pipeline.Window.rect_emb_val_of_index_zero _ t 1 ‹_› j))

theorem tiles_cover6 (i : S50000x64.Idx) : ∃ t : Fin cfg6.N, (cfg6.win 5).flush t = true ∧ i ∈ ((cfg6.win 5).blk t).view.set := by
  let t : Fin cfg6.N := ⟨(i 0).val / 5000, by have := idx2_lt0 i; rw [show cfg6.N = 10 from N_6]; omega⟩
  refine ⟨t, flush6_5 t, ?_⟩
  show i ∈ ((View.whole main_v78).slice (win6_5.rect t)).set
  rw [View.set_slice_whole, Rect.mem_set_unit]
  exact bnRow_mem _ i (tileIndex6 t).1 (tileIndex6 t).2.1

-- each tile written is the matching 5000 rows of one function of the five arrays, and the ten tiles cover the array
theorem bnOut6 (c : Dev nD) : (dat6 V c).arrAt 5 cfg6.N
    = bnArr (V c main_v69) (V c main_v74) (V c main_v75) (V c main_v76) (V c main_v77) := by
  refine (dat6 V c).arrAt_eq_of_cover 5 _ (fun t _ => ?_) tiles_cover6
  obtain ⟨⟨hm, hv⟩, hw, hb⟩ := iblk6_rows V c t
  have z : (![0, 0] : Fin 2 → Nat) = fun _ => 0 := funext fun a => by fin_cases a <;> rfl
  show (cfg6.win 5).cut (grid6.coords t) ((dat6 V c).after 5 t) = _
  rw [after6_5]
  unfold out6_5
  rw [View.canon_unit_zero z]
  simp only [View.ld_unit_zero (S := S5000x64) z, View.ld_unit_zero (S := S1x64) z]
  rw [hm, hv, hw, hb]
  funext j
  obtain ⟨p, q, rfl⟩ : ∃ (p : Fin 5000) (q : Fin 64), j = ix2 p q := ⟨j 0, j 1, eq_ix2 j⟩
  exact (bnPay_apply _ _ _ _ _ p q).trans (bnArr_apply _ _ _ _ _ _ q
    (Pipeline.Window.rect_emb_val_of_index_zero win6_5 t 1 (tileIndex6 t).2.1 (ix2 p q))).symm

end Cert.Proof.Val

end
-- ==== Proof.Val.Stage6_Host.lean ====
import proofs.«431052_j82222853914919_1_alg».proof.Proof.Gen.KernelIdeal.Launch
import proofs.«431052_j82222853914919_1_alg».proof.Proof.Val.BnHost
import Idealize.ShloMosaic.Lib.StableHlo.Run

noncomputable section

namespace Cert.Proof.Val

open Idealize.ShloMosaic Idealize.ShloMosaic.TcCoe Idealize.ShloMosaic.ValueIdx Idealize.SL.Sem
open Cert.KernelIdeal Cert.KernelIdeal.Gen

variable (Wk : Dev nD → Valuation τ sig (Elt Ideal))

abbrev Vk6 (c : Dev nD) (b : Ref sig .tc) : Buf (Elt Ideal) ((c : Thread nD τ).loc b) :=
  StableHlo.after hostOps6_2 (StableHlo.after hostOps6_1 (StableHlo.after hostOps6 (Wk c))) (Proc.devRef .tc b)

theorem host6 (c : Dev nD) :
    bnArr (Vk6 Wk c main_v69) (Vk6 Wk c main_v74) (Vk6 Wk c main_v75) (Vk6 Wk c main_v76) (Vk6 Wk c main_v77)
      = bnHost (F := Ideal) (Wk c main_v69) (colMean (F := Ideal) (Wk c main_v69)) (colVar (F := Ideal) (Wk c main_v69))
          (Wk c main_arg18) (Wk c main_arg19) := by
  rw [← bn_agree]
  congr 1 <;> unfold Vk6 <;> after_results_simp <;> rfl

end Cert.Proof.Val

end
-- ==== Proof.Val.Stage6_Ref.lean ====
import proofs.«431052_j82222853914919_1_alg».proof.Proof.Ref.Run
import proofs.«431052_j82222853914919_1_alg».proof.Proof.Val.BnHost

noncomputable section

namespace Cert.Proof.Val

open Idealize.ShloMosaic Idealize.ShloMosaic.TcCoe Idealize.SL.Sem

theorem ref6 (Wr : Valuation Cert.ReferenceIdeal.τ Cert.ReferenceIdeal.sig (Elt Ideal)) :
    StableHlo.after Cert.Proof.Ref.segB2 Wr Cert.Proof.Ref.z3_ref
      = bnHost (F := Ideal) (Wr Cert.Proof.Ref.h2_ref) (colMean (F := Ideal) (Wr Cert.Proof.Ref.h2_ref))
          (colVar (F := Ideal) (Wr Cert.Proof.Ref.h2_ref)) (Wr Cert.ReferenceIdeal.main_arg18) (Wr Cert.ReferenceIdeal.main_arg19) := by
  show StableHlo.after Cert.Proof.Ref.segB2 Wr (Proc.devRef .tc Cert.ReferenceIdeal.main_v168) = _
  after_results_simp
  simp only [StableHlo.TRef.ofBuf, StableHlo.TRef.toBuf, cast_eq]
  unfold bnHost bnAffine rowsOf colMean colVar varCount varDev
  rfl

end Cert.Proof.Val

end
-- ==== Proof.Val.Stage6.lean ====
import proofs.«431052_j82222853914919_1_alg».proof.Proof.Val.Stage6_Arr
import proofs.«431052_j82222853914919_1_alg».proof.Proof.Val.Stage6_Host
import proofs.«431052_j82222853914919_1_alg».proof.Proof.Val.Stage6_Ref
import proofs.«431052_j82222853914919_1_alg».proof.Proof.Val.BnHost

noncomputable section

namespace Cert.Proof.Val

open Idealize.ShloMosaic Idealize.ShloMosaic.TcCoe Idealize.ShloMosaic.ValueIdx Idealize.SL.Sem

theorem stage6 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (hh : Wk c Cert.KernelIdeal.main_v69 = Wr Cert.Proof.Ref.h2_ref)
    (hw : Wk c Cert.KernelIdeal.main_arg18 = Wr Cert.ReferenceIdeal.main_arg18)
    (hb : Wk c Cert.KernelIdeal.main_arg19 = Wr Cert.ReferenceIdeal.main_arg19) :
    (Cert.Proof.KI.dat6 (F := Ideal) (fun c b => StableHlo.after Cert.KernelIdeal.Gen.hostOps6_2
        (StableHlo.after Cert.KernelIdeal.Gen.hostOps6_1 (StableHlo.after Cert.KernelIdeal.Gen.hostOps6 (Wk c))) b) c).arrAt 5 Cert.KernelIdeal.cfg6.N
      = StableHlo.after Cert.Proof.Ref.segB2 Wr Cert.Proof.Ref.z3_ref := by
  refine (bnOut6 (Vk6 Wk) c).trans ?_
  rw [host6, ref6, hh, hw, hb]

end Cert.Proof.Val

end
-- ==== Proof.Val.Stage7_Pay.lean ====
import proofs.«431052_j82222853914919_1_alg».proof.Proof.Gen.KernelIdeal.Skeleton
import Idealize.ShloMosaic.Lib.ValueLayout
import Idealize.ShloMosaic.Lib.StackMember

namespace Cert.Proof.Val

open Idealize.ShloMosaic Idealize.ShloMosaic.ValueIdx Idealize.ShloMosaic.StackMember
open Cert.KernelIdeal Cert.KernelIdeal.Gen

theorem k7_pay1_apply (x : Vec Ideal S5000x320 .f32) (w : Vec Ideal S320x64 .f32) (b : Vec Ideal S1x64 .f32)
    (p : Fin 5000) (q : Fin 64) :
    k7_pay1 (F := Ideal) x w b (ix2 p q) = (∑ k : Fin 320, x (ix2 p k) * w (ix2 k q)) + b (ix2 (0 : Fin 1) q) := by
  unfold k7_pay1
  simp only [shapeCast_self]
  rw [addf_apply, matmul_zero_eq_dotGeneral, broadcastTo_1b_ab_apply]
  exact congrArg (· + b (ix2 (0 : Fin 1) q)) (dotGeneral_plain_apply none _ _ p q)

end Cert.Proof.Val
-- ==== Proof.Val.Stage7_Arr.lean ====
import proofs.«431052_j82222853914919_1_alg».proof.Proof.KI.Body7
import proofs.«431052_j82222853914919_1_alg».proof.Proof.Val.Stage7_Pay
import Idealize.ShloMosaic.Lib.Pipeline.Value

noncomputable section

namespace Cert.Proof.Val

open Idealize.ShloMosaic Idealize.ShloMosaic.TcCoe Idealize.ShloMosaic.ValueIdx Idealize.SL.Sem
open Cert.KernelIdeal Cert.KernelIdeal.Gen Cert.Proof.KI

-- row r, column q: the inner product of row r of X with column q of W, plus entry q of the one-row B
def lin (X : S50000x320.Idx → EReal) (W : S320x64.Idx → EReal) (B : S1x64.Idx → EReal) : S50000x64.Idx → EReal :=
  fun i => (∑ k : Fin 320, X (ix2 (i 0) k) * W (ix2 k (i 1))) + B (ix2 (0 : Fin 1) (i 1))

theorem hz7 : (![0, 0] : Fin 2 → Nat) = fun _ => 0 := by decide

theorem pay_eq_lin (X : S50000x320.Idx → EReal) (W : S320x64.Idx → EReal) (B : S1x64.Idx → EReal)
    (x : Vec Ideal S5000x320 .f32) (y : S5000x64.Idx) (i : S50000x64.Idx)
    (hx : ∀ k : Fin 320, x (ix2 (y 0) k) = X (ix2 (i 0) k)) (hi1 : i 1 = y 1) :
    k7_pay1 (F := Ideal) x W B y = lin X W B i := by
  obtain ⟨p, q, rfl⟩ : ∃ (p : Fin 5000) (q : Fin 64), y = ix2 p q := ⟨y 0, y 1, eq_ix2 y⟩
  rw [k7_pay1_apply, lin, hi1]
  exact congrArg (· + _) (Finset.sum_congr rfl fun k _ => by rw [hx k])

variable (V : (c : Dev nD) → (b : Ref sig .tc) → Buf (Elt Ideal) ((c : Thread nD τ).loc b))

theorem idx_facts7 : ∀ t : Fin cfg7.N,
    (∀ a, win7_1.index t a = 0) ∧ (∀ a, win7_2.index t a = 0) ∧ win7_0.index t 1 = 0
    ∧ win7_0.index t 0 = win7_3.index t 0 ∧ win7_3.index t 1 = 0 ∧ win7_3.index t 0 = t.val :=
  (by decide +kernel : ∀ t : Fin grid7.N, _)

theorem iblk7_1_eq (c : Dev nD) (t : Fin cfg7.N) :
    iblk7 V c 1 t = V c main_v80 :=
  funext fun x => congrArg (V c main_v80) (funext fun a => Fin.ext (win7_1.rect_emb_val_of_index_zero t a ((idx_facts7 t).1 a) x))

theorem iblk7_2_eq (c : Dev nD) (t : Fin cfg7.N) :
    iblk7 V c 2 t = V c main_v81 :=
  funext fun x => congrArg (V c main_v81) (funext fun a => Fin.ext (win7_2.rect_emb_val_of_index_zero t a ((idx_facts7 t).2.1 a) x))

theorem flushed7_eq (c : Dev nD) (t : Fin cfg7.N) :
    (dat7 V c).flushed 3 t = ((cfg7.win 3).blk t).view.read (Elt Ideal)
      (lin (V c main_v79) (V c main_v80) (V c main_v81)) := by
  show (cfg7.win 3).cut (grid7.coords t) ((dat7 V c).after 3 t) = _
  rw [after7_3]
  unfold out7_3
  rw [View.canon_unit_zero hz7]
  simp only [View.ld_unit_zero (S := S5000x320) hz7, View.ld_unit_zero (S := S320x64) hz7, View.ld_unit_zero (S := S1x64) hz7]
  obtain ⟨-, -, e1, e03, e31, -⟩ := idx_facts7 t
  funext j
  rw [View.read_apply, iblk7_1_eq, iblk7_2_eq]
  exact pay_eq_lin _ _ _ _ _ _ (fun k => congrArg (V c main_v79) (Shape.idx_ext₂
      (congrArg (· * 5000 + 1 * (j 0).val) e03) (win7_0.rect_emb_val_of_index_zero t 1 e1 _)))
    (Fin.ext (win7_3.rect_emb_val_of_index_zero t 1 e31 j))

-- row r lies in the row tile of point r / 5000
theorem cover7 (i : S50000x64.Idx) : ∃ t : Fin cfg7.N, (cfg7.win 3).flush t = true ∧ i ∈ ((cfg7.win 3).blk t).view.set := by
  have hi0 : (i 0).val < 50000 := (i 0).isLt
  let t : Fin cfg7.N := ⟨(i 0).val / 5000, Nat.lt_of_lt_of_eq (by omega) N_7.symm⟩
  obtain ⟨-, -, -, -, e1, e0⟩ := idx_facts7 t
  have h : ((cfg7.win 3).blk t).view.emb (ix2 ⟨(i 0).val % 5000, Nat.mod_lt _ (by decide)⟩ (i 1)) = i :=
    Shape.idx_ext₂ ((win7_3.rect_emb_val t _ 0).trans (by rw [e0]; exact Nat.div_add_mod' _ 5000))
      (win7_3.rect_emb_val_of_index_zero t 1 e1 _)
  exact ⟨t, flush7_3 t, h ▸ View.emb_mem_set _ _⟩

theorem final7 (c : Dev nD) :
    (dat7 V c).arrAt 3 cfg7.N = lin (V c main_v79) (V c main_v80) (V c main_v81) :=
  (dat7 V c).arrAt_eq_of_cover 3 _ (fun t _ => flushed7_eq V c t) cover7

end Cert.Proof.Val

end
-- ==== Proof.Val.Stage7_Spec.lean ====
import Idealize.ShloMosaic.Lib.ValueIdx
-- ==== Proof.Val.Stage7_K.lean ====
import proofs.«431052_j82222853914919_1_alg».proof.Proof.Val.Stage7_Arr
import proofs.«431052_j82222853914919_1_alg».proof.Proof.Val.Stage7_Spec
-- ==== Proof.Val.Stage7_R.lean ====
import proofs.«431052_j82222853914919_1_alg».proof.Proof.Ref.Run
import proofs.«431052_j82222853914919_1_alg».proof.Proof.Val.Stage7_Spec
import Idealize.ShloMosaic.Lib.Pipeline.Value

namespace Cert.Proof.Val

open Idealize.ShloMosaic Idealize.ShloMosaic.ValueIdx
open Cert.ReferenceIdeal Cert.ReferenceIdeal.Gen

theorem bias_r7_apply (b : S64.Idx → EReal) (p : Fin 50000) (q : Fin 64) :
    broadcastInDim S50000x64 ![0, 1] bcast_S1x64_S50000x64_0_1 (broadcastInDim S1x64 ![1] bcast_S64_S1x64_1 b) (ix2 p q) = b (ix1 q) :=
  (broadcastInDim_apply _ _ _ (ix2 p q) (ix2 (0 : Fin 1) q) fun | ⟨0, _⟩ | ⟨1, _⟩ => rfl).trans
    (broadcastInDim_apply _ _ _ (ix2 (0 : Fin 1) q) (ix1 q) fun | ⟨0, _⟩ => rfl)

end Cert.Proof.Val
-- ==== Proof.Val.Stage7.lean ====
import proofs.«431052_j82222853914919_1_alg».proof.Proof.Val.Stage7_K
import proofs.«431052_j82222853914919_1_alg».proof.Proof.Val.Stage7_R
import Idealize.ShloMosaic.Lib.StackMember
import Idealize.ShloMosaic.Lib.StableHlo.Run

namespace Cert.Proof.Val

open Idealize.ShloMosaic Idealize.ShloMosaic.TcCoe Idealize.ShloMosaic.ValueIdx Idealize.ShloMosaic.StackMember Idealize.SL.Sem

-- both sides at (p, q) are ∑ k, x[p, k] * w[k, q] + b[q] of the same concatenated features, transposed weight and bias
theorem stage7 (c : Dev Cert.KernelIdeal.nD)
    (Wk : Dev Cert.KernelIdeal.nD → Valuation Cert.KernelIdeal.τ Cert.KernelIdeal.sig (Elt Ideal))
    (Wr : Valuation Cert.ReferenceIdeal.τ Cert.ReferenceIdeal.sig (Elt Ideal))
    (h0 : Wk c Cert.KernelIdeal.main_v6 = Wr Cert.ReferenceIdeal.main_v18)
    (h1 : Wk c Cert.KernelIdeal.main_v30 = Wr Cert.Proof.Ref.z1_ref)
    (h2 : Wk c Cert.KernelIdeal.main_v54 = Wr Cert.Proof.Ref.z2_ref)
    (h3 : Wk c Cert.KernelIdeal.main_v78 = Wr Cert.Proof.Ref.z3_ref)
    (hw : Wk c Cert.KernelIdeal.main_arg20 = Wr Cert.ReferenceIdeal.main_arg20)
    (hb : Wk c Cert.KernelIdeal.main_arg21 = Wr Cert.ReferenceIdeal.main_arg21) :
    (Cert.Proof.KI.dat7 (F := Ideal) (fun c b => StableHlo.after Cert.KernelIdeal.Gen.hostOps7 (Wk c) b) c).arrAt 3 Cert.KernelIdeal.cfg7.N
      = StableHlo.after Cert.Proof.Ref.seg_fc1 Wr Cert.Proof.Ref.hfc_ref := by
  rw [final7]
  show _ = StableHlo.after Cert.Proof.Ref.seg_fc1 Wr (Proc.devRef .tc Cert.ReferenceIdeal.main_v174)
  after_results
  dsimp only
  rw (config := {transparency := .default}) [h0, h1, h2, h3, hw, hb]
  funext i
  obtain ⟨p, q, rfl⟩ : ∃ (p : Fin 50000) (q : Fin 64), i = ix2 p q := ⟨i 0, i 1, eq_ix2 i⟩
  rw [addf_apply, bias_r7_apply]
  exact (congrArg (_ + ·) (shapeCast_a_1a_apply _ _ (0 : Fin 1) q)).trans
    (congrArg (· + _) (dotGeneral_plain_apply none _ _ p q)).symm

end Cert.Proof.Val
-- ==== Proof.Val.Stage8_Pay.lean ====
import proofs.«431052_j82222853914919_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Cert.Proof.Val.S8

open Idealize.ShloMosaic Idealize.ShloMosaic.ValueIdx
open scoped BigOperators

def bnLeaky (x m v g s : EReal) : EReal :=
  Scalar.select
    (FloatOps.cmpf (F := Ideal) (φ := .f32) .ogt ((x - m) * Ideal.rsqrt (v + Ideal.ofBits .f32 0x3727C5AC#32) * g + s) (Ideal.ofBits .f32 0x00000000#32))
    ((x - m) * Ideal.rsqrt (v + Ideal.ofBits .f32 0x3727C5AC#32) * g + s)
    (Ideal.ofBits .f32 0x3C23D70A#32 * ((x - m) * Ideal.rsqrt (v + Ideal.ofBits .f32 0x3727C5AC#32) * g + s))

def headRow (X m v g s w : Fin 64 → EReal) (b : EReal) : EReal :=
  Ideal.logistic ((∑ k : Fin 64, bnLeaky (X k) (m k) (v k) (g k) (s k) * w k) + b)

/-- Into a zero accumulator the product of a 5000×64 by a 64×1 matrix is, at an entry, the sum over the 64 contracted coordinates. -/
theorem matmul8_apply (A : FVec Ideal (⟨2, ![5000, 64]⟩ : Shape) .bf16) (B : FVec Ideal (⟨2, ![64, 1]⟩ : Shape) .bf16) (p : Fin 5000) (q : Fin 1) :
    matmul Cert.KernelIdeal.dot_S5000x64_S64x1_S5000x1_1_0_0_1_n_n none A B (constant (F := Ideal) (⟨2, ![5000, 1]⟩ : Shape) .f32 0x00000000#32) (ix2 p q)
      = ∑ k : Fin 64, A (ix2 p k) * B (ix2 k q) := by
  simp only [matmul]
  rw [Ideal.matmul_constant_zero_apply]
  exact (Ideal.dotGeneral_apply _ none _ A B _).symm.trans (StackMember.dotGeneral_plain_apply none A B p q)

theorem pay8_apply (v0 : Vec Ideal Cert.KernelIdeal.S5000x64 .f32) (v2 v6 v13 v17 : Vec Ideal Cert.KernelIdeal.S1x64 .f32)
    (v27 : Vec Ideal Cert.KernelIdeal.S64x1 .f32) (v31 : Vec Ideal Cert.KernelIdeal.S1x1 .f32) (p : Fin 5000) (q : Fin 1) :
    Cert.KernelIdeal.Gen.k8_pay1 (F := Ideal) v0 v2 v6 v13 v17 v27 v31 (ix2 p q)
      = headRow (fun k => v0 (ix2 p k)) (fun k => v2 (ix2 (0 : Fin 1) k)) (fun k => v6 (ix2 (0 : Fin 1) k))
          (fun k => v13 (ix2 (0 : Fin 1) k)) (fun k => v17 (ix2 (0 : Fin 1) k)) (fun k => v27 (ix2 k q)) (v31 (ix2 (0 : Fin 1) q)) := by
  unfold Cert.KernelIdeal.Gen.k8_pay1 headRow
  dsimp only
  simp only [shapeCast_self]
  refine congrArg Ideal.logistic ?_
  rw [addf_apply, matmul8_apply, broadcastTo_1b_ab_apply]
  refine congrArg₂ (· + ·) (Finset.sum_congr rfl fun k _ => ?_) rfl
  rw [truncf_apply, truncf_apply]
  simp only [select_apply, cmpf_apply, addf_apply, mulf_apply, subf_apply, broadcast_apply, broadcastTo_1b_ab_apply]
  rfl

end Cert.Proof.Val.S8

end
-- ==== Proof.Val.Stage8_Arr.lean ====
import proofs.«431052_j82222853914919_1_alg».proof.Proof.KI.Body8
import proofs.«431052_j82222853914919_1_alg».proof.Proof.Val.Stage8_Pay
import Idealize.ShloMosaic.Lib.Pipeline.Value

set_option maxRecDepth 16384

noncomputable section

namespace Cert.Proof.Val.S8

open Cert.KernelIdeal Cert.KernelIdeal.Gen Cert.Proof.KI
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

def G8 (h : Vec Ideal S50000x64 .f32) (mean var gw gb : Vec Ideal S1x64 .f32) (w : Vec Ideal S64x1 .f32) (b : Vec Ideal S1x1 .f32) :
    Vec Ideal S50000x1 .f32 :=
  fun i => headRow (fun k => h (ix2 (i 0) k)) (fun k => mean (ix2 (0 : Fin 1) k)) (fun k => var (ix2 (0 : Fin 1) k))
    (fun k => gw (ix2 (0 : Fin 1) k)) (fun k => gb (ix2 (0 : Fin 1) k)) (fun k => w (ix2 k (i 1))) (b (ix2 (0 : Fin 1) (i 1)))

theorem idx_facts8 : ∀ t : Fin cfg8.N, win8_0.index t (0 : Fin 2) = t.val ∧ win8_0.index t (1 : Fin 2) = 0
    ∧ win8_7.index t (0 : Fin 2) = t.val ∧ win8_7.index t (1 : Fin 2) = 0 :=
  (by decide +kernel : ∀ t : Fin grid8.N, _)

theorem whole8 : ∀ (t : Fin cfg8.N) (a : Fin 2), win8_1.index t a = 0 ∧ win8_2.index t a = 0 ∧ win8_3.index t a = 0
    ∧ win8_4.index t a = 0 ∧ win8_5.index t a = 0 ∧ win8_6.index t a = 0 :=
  (by decide +kernel : ∀ t : Fin grid8.N, _)

theorem iblk8_0_apply (c : Dev nD) (t : Fin cfg8.N) (p : Fin 5000) (k : Fin 64) (r : Fin 50000) (hr : r.val = t.val * 5000 + p.val) :
    (iblk8 V c 0 t : Vec Ideal S5000x64 .f32) (ix2 p k) = (V c main_v82 : Vec Ideal S50000x64 .f32) (ix2 r k) := by
  obtain ⟨e0, e1, -⟩ := idx_facts8 t
  unfold iblk8
  rw [View.read_apply]
  show V c main_v82 _ = V c main_v82 _
  congr 1
  funext a
  apply Fin.ext
  match a with
  | ⟨0, _⟩ => show win8_0.index t (0 : Fin 2) * 5000 + 1 * p.val = r.val; rw [e0, hr]; omega
  | ⟨1, _⟩ => show win8_0.index t (1 : Fin 2) * 64 + 1 * k.val = k.val; rw [e1]; omega

theorem iblk8_1_eq (c : Dev nD) (t : Fin cfg8.N) : (iblk8 V c 1 t : Vec Ideal S1x64 .f32) = V c main_v88 := by
  funext y
  unfold iblk8
  rw [View.read_apply]
  show V c main_v88 _ = V c main_v88 _
  congr 1
  funext a
  apply Fin.ext
  show win8_1.index t a * _ + 1 * (y a).val = (y a).val
  rw [(whole8 t a).1, Nat.zero_mul, Nat.zero_add, Nat.one_mul]

theorem iblk8_2_eq (c : Dev nD) (t : Fin cfg8.N) : (iblk8 V c 2 t : Vec Ideal S1x64 .f32) = V c main_v89 := by
  funext y
  unfold iblk8
  rw [View.read_apply]
  show V c main_v89 _ = V c main_v89 _
  congr 1
  funext a
  apply Fin.ext
  show win8_2.index t a * _ + 1 * (y a).val = (y a).val
  rw [(whole8 t a).2.1, Nat.zero_mul, Nat.zero_add, Nat.one_mul]

theorem iblk8_3_eq (c : Dev nD) (t : Fin cfg8.N) : (iblk8 V c 3 t : Vec Ideal S1x64 .f32) = V c main_v90 := by
  funext y
  unfold iblk8
  rw [View.read_apply]
  show V c main_v90 _ = V c main_v90 _
  congr 1
  funext a
  apply Fin.ext
  show win8_3.index t a * _ + 1 * (y a).val = (y a).val
  rw [(whole8 t a).2.2.1, Nat.zero_mul, Nat.zero_add, Nat.one_mul]

theorem iblk8_4_eq (c : Dev nD) (t : Fin cfg8.N) : (iblk8 V c 4 t : Vec Ideal S1x64 .f32) = V c main_v91 := by
  funext y
  unfold iblk8
  rw [View.read_apply]
  show V c main_v91 _ = V c main_v91 _
  congr 1
  funext a
  apply Fin.ext
  show win8_4.index t a * _ + 1 * (y a).val = (y a).val
  rw [(whole8 t a).2.2.2.1, Nat.zero_mul, Nat.zero_add, Nat.one_mul]

theorem iblk8_5_eq (c : Dev nD) (t : Fin cfg8.N) : (iblk8 V c 5 t : Vec Ideal S64x1 .f32) = V c main_v87 := by
  funext y
  unfold iblk8
  rw [View.read_apply]
  show V c main_v87 _ = V c main_v87 _
  congr 1
  funext a
  apply Fin.ext
  show win8_5.index t a * _ + 1 * (y a).val = (y a).val
  rw [(whole8 t a).2.2.2.2.1, Nat.zero_mul, Nat.zero_add, Nat.one_mul]

theorem iblk8_6_eq (c : Dev nD) (t : Fin cfg8.N) : (iblk8 V c 6 t : Vec Ideal S1x1 .f32) = V c main_v92 := by
  funext y
  unfold iblk8
  rw [View.read_apply]
  show V c main_v92 _ = V c main_v92 _
  congr 1
  funext a
  apply Fin.ext
  show win8_6.index t a * _ + 1 * (y a).val = (y a).val
  rw [(whole8 t a).2.2.2.2.2, Nat.zero_mul, Nat.zero_add, Nat.one_mul]

theorem emb8_7 (t : Fin cfg8.N) (p : Fin 5000) (q : Fin 1) (r : Fin 50000) (hr : r.val = t.val * 5000 + p.val) :
    ((cfg8.win 7).blk t).view.emb (ix2 p q) = (ix2 r q : S50000x1.Idx) := by
  obtain ⟨-, -, e2, e3⟩ := idx_facts8 t
  funext a
  apply Fin.ext
  match a with
  | ⟨0, _⟩ => show win8_7.index t (0 : Fin 2) * 5000 + 1 * p.val = r.val; rw [e2, hr]; omega
  | ⟨1, _⟩ => show win8_7.index t (1 : Fin 2) * 1 + 1 * q.val = q.val; rw [e3]; omega

theorem flushed8 (c : Dev nD) (t : Fin cfg8.N) :
    (dat8 V c).flushed 7 t = ((cfg8.win 7).blk t).view.read (Elt Ideal)
      (G8 (V c main_v82) (V c main_v88) (V c main_v89) (V c main_v90) (V c main_v91) (V c main_v87) (V c main_v92)) := by
  show (cfg8.win 7).cut (grid8.coords t) ((dat8 V c).after 7 t) = _
  rw [after8_7]
  unfold out8_7
  rw [View.canon_unit_zero hz8]
  simp only [View.ld_unit_zero (S := S5000x64) hz8, View.ld_unit_zero (S := S1x64) hz8, View.ld_unit_zero (S := S64x1) hz8, View.ld_unit_zero (S := S1x1) hz8]
  rw [iblk8_1_eq, iblk8_2_eq, iblk8_3_eq, iblk8_4_eq, iblk8_5_eq, iblk8_6_eq]
  funext j
  obtain ⟨p, q, rfl⟩ : ∃ (p : Fin 5000) (q : Fin 1), j = ix2 p q := ⟨j 0, j 1, eq_ix2 j⟩
  have hN : cfg8.N = 10 := N_8
  have ht : t.val < 10 := hN ▸ t.isLt
  have hp : p.val < 5000 := p.isLt
  rw [View.read_apply, emb8_7 t p q ⟨t.val * 5000 + p.val, by omega⟩ rfl]
  show k8_pay1 (F := Ideal) (iblk8 V c 0 t) (V c main_v88) (V c main_v89) (V c main_v90) (V c main_v91) (V c main_v87) (V c main_v92) (ix2 p q)
    = G8 (V c main_v82) (V c main_v88) (V c main_v89) (V c main_v90) (V c main_v91) (V c main_v87) (V c main_v92) (ix2 ⟨t.val * 5000 + p.val, by omega⟩ q)
  rw [pay8_apply]
  have h0 : (fun k : Fin 64 => (iblk8 V c 0 t : Vec Ideal S5000x64 .f32) (ix2 p k))
      = fun k => (V c main_v82 : Vec Ideal S50000x64 .f32) (ix2 ⟨t.val * 5000 + p.val, by omega⟩ k) :=
    funext fun k => iblk8_0_apply V c t p k _ rfl
  rw [h0]
  rfl

theorem mem_blk8 (t : Fin cfg8.N) (i : S50000x1.Idx) :
    i ∈ ((cfg8.win 7).blk t).view.set ↔ ∀ a : Fin 2, win8_7.index t a * S5000x1.size a ≤ (i a).val ∧ (i a).val < win8_7.index t a * S5000x1.size a + S5000x1.size a := by
  show i ∈ ((View.whole main_v93).slice (win8_7.rect t)).set ↔ _
  rw [View.set_slice_whole, Rect.mem_set_unit]
  exact Iff.rfl

theorem cover8 (i : S50000x1.Idx) : ∃ t : Fin cfg8.N, (cfg8.win 7).flush t = true ∧ i ∈ ((cfg8.win 7).blk t).view.set := by
  have hi0 : (i 0).val < 50000 := (i 0).isLt
  have hi1 : (i 1).val < 1 := (i 1).isLt
  have hN : cfg8.N = 10 := N_8
  have hlt : (i 0).val / 5000 < cfg8.N := by rw [hN]; omega
  obtain ⟨-, -, e2, e3⟩ := idx_facts8 ⟨(i 0).val / 5000, hlt⟩
  refine ⟨⟨(i 0).val / 5000, hlt⟩, flush8_7 _, ?_⟩
  rw [mem_blk8]
  intro a
  match a with
  | ⟨0, _⟩ =>
    show win8_7.index ⟨(i 0).val / 5000, hlt⟩ (0 : Fin 2) * 5000 ≤ (i 0).val ∧ (i 0).val < win8_7.index ⟨(i 0).val / 5000, hlt⟩ (0 : Fin 2) * 5000 + 5000
    rw [e2]
    show (i 0).val / 5000 * 5000 ≤ (i 0).val ∧ (i 0).val < (i 0).val / 5000 * 5000 + 5000
    omega
  | ⟨1, _⟩ =>
    show win8_7.index ⟨(i 0).val / 5000, hlt⟩ (1 : Fin 2) * 1 ≤ (i 1).val ∧ (i 1).val < win8_7.index ⟨(i 0).val / 5000, hlt⟩ (1 : Fin 2) * 1 + 1
    rw [e3]
    omega

theorem final8 (c : Dev nD) :
    (dat8 V c).arrAt 7 cfg8.N
      = G8 (V c main_v82) (V c main_v88) (V c main_v89) (V c main_v90) (V c main_v91) (V c main_v87) (V c main_v92) :=
  (dat8 V c).arrAt_eq_of_cover 7 _ (fun t _ => flushed8 V c t) cover8

end Cert.Proof.Val.S8

end
-- ==== Proof.Val.Stage8_Spec.lean ====
import proofs.«431052_j82222853914919_1_alg».proof.Proof.Val.Stage8_Pay

noncomputable section

namespace Cert.Proof.Val.S8

open Idealize.ShloMosaic Idealize.ShloMosaic.ValueIdx
open Cert.KernelIdeal Cert.KernelIdeal.Gen

def colMean (x : FVec Ideal S50000x64 .f32) : FVec Ideal S64 .f32 :=
  Host.divf (Host.reduceAdd x (constant (F := Ideal) S_ .f32 0x00000000#32) reducesTo_S50000x64_S64_d0 h_S_)
    (broadcastInDim S64 ![] bcast_S_S64 (constant (F := Ideal) S_ .f32 0x47435000#32))

def colVar (x : FVec Ideal S50000x64 .f32) (c : IVec S_ 32) : FVec Ideal S64 .f32 :=
  select
    (broadcastInDim S64 ![] bcast_S_S64
      (cmpf .ogt (subf (constant (F := Ideal) S_ .f32 0x47435000#32) (sitofp .f32 c)) (constant (F := Ideal) S_ .f32 0x00000000#32)))
    (Host.divf
      (Host.reduceAdd
        (mulf
          (subf x (broadcastInDim S50000x64 ![0, 1] bcast_S1x64_S50000x64_0_1
            (Host.divf
              (broadcastInDim S1x64 ![1] bcast_S64_S1x64_1
                (Host.reduceAdd x (constant (F := Ideal) S_ .f32 0x00000000#32) reducesTo_S50000x64_S64_d0 h_S_))
              (broadcastInDim S1x64 ![] bcast_S_S1x64 (constant (F := Ideal) S_ .f32 0x47435000#32)))))
          (subf x (broadcastInDim S50000x64 ![0, 1] bcast_S1x64_S50000x64_0_1
            (Host.divf
              (broadcastInDim S1x64 ![1] bcast_S64_S1x64_1
                (Host.reduceAdd x (constant (F := Ideal) S_ .f32 0x00000000#32) reducesTo_S50000x64_S64_d0 h_S_))
              (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64 (subf (constant (F := Ideal) S_ .f32 0x47435000#32) (sitofp .f32 c))))
    (broadcastInDim S64 ![] bcast_S_S64 (id (constant (F := Ideal) S_ .f32 0x7FC00000#32)))

def headArr (x : FVec Ideal S50000x64 .f32) (m v g s : FVec Ideal S64 .f32) (w : FVec Ideal S64x1 .f32) (b : FVec Ideal S1 .f32) :
    FVec Ideal S50000x1 .f32 :=
  fun i => headRow (fun k => x (ix2 (i 0) k)) (fun k => m (ix1 k)) (fun k => v (ix1 k)) (fun k => g (ix1 k)) (fun k => s (ix1 k))
    (fun k => w (ix2 k (i 1))) (b (ix1 (i 1)))

theorem headArr_apply (x : FVec Ideal S50000x64 .f32) (m v g s : FVec Ideal S64 .f32) (w : FVec Ideal S64x1 .f32) (b : FVec Ideal S1 .f32)
    (r : Fin 50000) (q : Fin 1) :
    headArr x m v g s w b (ix2 r q) = headRow (fun k => x (ix2 r k)) (fun k => m (ix1 k)) (fun k => v (ix1 k)) (fun k => g (ix1 k))
      (fun k => s (ix1 k)) (fun k => w (ix2 k q)) (b (ix1 q)) := rfl

end Cert.Proof.Val.S8

end
-- ==== Proof.Val.Stage8_Ref.lean ====
import proofs.«431052_j82222853914919_1_alg».proof.Proof.Ref.Run
import proofs.«431052_j82222853914919_1_alg».proof.Proof.Val.Stage8_Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Proof.Val.S8

open Idealize.ShloMosaic Idealize.ShloMosaic.TcCoe Idealize.ShloMosaic.ValueIdx
open Cert.ReferenceIdeal Cert.ReferenceIdeal.Gen
open scoped BigOperators

theorem bcast_scalar_apply {α : Type} {t : Shape} (h : S_.BroadcastsInDim t ![]) (x : S_.Idx → α) (j : t.Idx) :
    broadcastInDim t ![] h x j = x ix0 :=
  broadcastInDim_apply _ h x j ix0 fun a => a.elim0

theorem bcast_row_apply {α : Type} (b : S64.Idx → α) (p : Fin 50000) (k : Fin 64) :
    broadcastInDim S50000x64 ![0, 1] bcast_S1x64_S50000x64_0_1 (broadcastInDim S1x64 ![1] bcast_S64_S1x64_1 b) (ix2 p k) = b (ix1 k) := by
  refine (broadcastInDim_apply _ _ _ (ix2 p k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

theorem bcast_bias_apply {α : Type} (b : S1.Idx → α) (p : Fin 50000) :
    broadcastInDim S50000x1 ![0, 1] bcast_S1x1_S50000x1_0_1 (broadcastInDim S1x1 ![1] bcast_S1_S1x1_1 b) (ix2 p (0 : Fin 1)) = b (ix1 (0 : Fin 1)) := by
  refine (broadcastInDim_apply _ _ _ (ix2 p (0 : Fin 1)) (ix2 (0 : Fin 1) (0 : Fin 1)) fun a => ?_).trans
    (broadcastInDim_apply _ _ _ (ix2 (0 : Fin 1) (0 : Fin 1)) (ix1 (0 : Fin 1)) fun a => ?_)
  · match a with
    | ⟨0, _⟩ => rfl
    | ⟨1, _⟩ => rfl
  · match a with
    | ⟨0, _⟩ => rfl

/-- The dimension numbers are those of the plain product of a 50000×64 by a 64×1 matrix. -/
theorem dot_r8_apply {φ₁ φ₂ : FTy} (l : FVec Ideal S50000x64 φ₁) (w : FVec Ideal S64x1 φ₂) (p : Fin 50000) (q : Fin 1) :
    Host.dotGeneral dot_S50000x64_S64x1_S50000x1_1_0_0_1_n_n none l w (ix2 p q) = ∑ k : Fin 64, l (ix2 p k) * w (ix2 k q) :=
  StackMember.dotGeneral_plain_apply none l w p q

def bnArr (x : FVec Ideal S50000x64 .f32) (m v g s : FVec Ideal S64 .f32) : FVec Ideal S50000x64 .f32 :=
  addf (mulf (mulf (subf x (broadcastInDim S50000x64 ![0, 1] bcast_S1x64_S50000x64_0_1 (broadcastInDim S1x64 ![1] bcast_S64_S1x64_1 m)))
      (broadcastInDim S50000x64 ![0, 1] bcast_S1x64_S50000x64_0_1 (broadcastInDim S1x64 ![1] bcast_S64_S1x64_1
        (Host.rsqrt (addf v (broadcastInDim S64 ![] bcast_S_S64 (constant (F := Ideal) S_ .f32 0x3727C5AC#32)))))))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 s))

theorem bnArr_apply (x : FVec Ideal S50000x64 .f32) (m v g s : FVec Ideal S64 .f32) (p : Fin 50000) (k : Fin 64) :
    bnArr x m v g s (ix2 p k)
      = (x (ix2 p k) - m (ix1 k)) * Ideal.rsqrt (v (ix1 k) + Ideal.ofBits .f32 0x3727C5AC#32) * g (ix1 k) + s (ix1 k) := by
  unfold bnArr
  rw [addf_apply, mulf_apply, mulf_apply, subf_apply, bcast_row_apply, bcast_row_apply, bcast_row_apply, bcast_row_apply]
  show _ * Ideal.rsqrt (v (ix1 k) + broadcastInDim S64 ![] bcast_S_S64 (constant (F := Ideal) S_ .f32 0x3727C5AC#32) (ix1 k)) * _ + _ = _
  rw [bcast_scalar_apply, constant_apply]

theorem leaky_entry (x : FVec Ideal S50000x64 .f32) (m v g s : FVec Ideal S64 .f32) (p : Fin 50000) (k : Fin 64) :
    select (cmpf .ogt (bnArr x m v g s) (broadcastInDim S50000x64 ![] bcast_S_S50000x64 (constant (F := Ideal) S_ .f32 0x00000000#32)))
        (bnArr x m v g s)
        (mulf (broadcastInDim S50000x64 ![] bcast_S_S50000x64 (constant (F := Ideal) S_ .f32 0x3C23D70A#32)) (bnArr x m v g s))
        (ix2 p k)
      = bnLeaky (x (ix2 p k)) (m (ix1 k)) (v (ix1 k)) (g (ix1 k)) (s (ix1 k)) := by
  rw [select_apply, cmpf_apply, mulf_apply, bnArr_apply, bcast_scalar_apply, bcast_scalar_apply, constant_apply, constant_apply]
  rfl

/-- Read at an entry, the stretch's result is the logistic function, spelled `1 / (1 + exp (-t))`, of the row's inner product plus the bias. -/
theorem ref8 (Wr : Valuation τ sig (Elt Ideal)) :
    StableHlo.after Cert.Proof.Ref.seg_fin Wr main_v210
      = shapeCast S50000
          (headArr (Wr main_v174) (colMean (Wr main_v174)) (colVar (Wr main_v174) (constantI S_ 32 0#32)) (Wr main_arg22) (Wr main_arg23)
            (transpose S64x1 [1, 0] (Wr main_arg24) transposes_S1x64_S64x1_1_0) (Wr main_arg25))
          shapeCasts_S50000x1_S50000 := by
  show StableHlo.after Cert.Proof.Ref.seg_fin Wr (Proc.devRef .tc main_v210) = _
  after_results_simp
  refine congrArg (fun A => shapeCast S50000 A shapeCasts_S50000x1_S50000) ?_
  funext i
  obtain ⟨p, q, rfl⟩ : ∃ (p : Fin 50000) (q : Fin 1), i = ix2 p q := ⟨i 0, i 1, eq_ix2 i⟩
  obtain rfl : q = 0 := Fin.eq_zero q
  rw [headArr_apply]
  unfold headRow Ideal.logistic
  show Ideal.div _ (_ + Ideal.exp (-(_ + _))) = _
  rw [bcast_scalar_apply, dot_r8_apply, bcast_bias_apply, constant_apply,
    show Ideal.ofBits .f32 0x3F800000#32 = 1 from IdealRules.sign_bit.ideal_onePat .f32]
  refine congrArg (fun t => Ideal.div 1 (1 + Ideal.exp (-(t + _)))) (Finset.sum_congr rfl fun k _ => ?_)
  exact congrArg (· * _) (leaky_entry (Wr main_v174) (colMean (Wr main_v174)) (colVar (Wr main_v174) (constantI S_ 32 0#32))
    (Wr main_arg22) (Wr main_arg23) p k)

end Cert.Proof.Val.S8

end
-- ==== Proof.Val.Stage8.lean ====
import proofs.«431052_j82222853914919_1_alg».proof.Proof.Val.Stage8_Arr
import proofs.«431052_j82222853914919_1_alg».proof.Proof.Val.Stage8_Spec
import proofs.«431052_j82222853914919_1_alg».proof.Proof.Val.Stage8_Ref
import Idealize.ShloMosaic.Lib.StableHlo.Run
import Idealize.ShloMosaic.Lib.ValueLayout
import Idealize.ShloMosaic.PureOps.Ideal

set_option maxRecDepth 16384

noncomputable section

namespace Cert.Proof.Val

open Idealize.ShloMosaic Idealize.ShloMosaic.TcCoe Idealize.ShloMosaic.ValueIdx Idealize.ShloMosaic.StableHlo
open Cert.KernelIdeal Cert.KernelIdeal.Gen

namespace S8

abbrev Vk (W : Valuation τ sig (Elt Ideal)) : Valuation τ sig (Elt Ideal) :=
  StableHlo.after (hostOps8_2 (F := Ideal)) (StableHlo.after hostOps8_1 (StableHlo.after hostOps8 W))

/-- The three host stretches keep the hidden array and leave its column statistics and the reshaped parameters. -/
theorem Vk_vals (W : Valuation τ sig (Elt Ideal)) :
    Vk W main_v82 = W main_v82
    ∧ Vk W main_v88 = shapeCast S1x64 (colMean (W main_v82)) shapeCasts_S64_S1x64
    ∧ Vk W main_v89 = shapeCast S1x64 (colVar (W main_v82) (constantI S_ 32 0#32)) shapeCasts_S64_S1x64
    ∧ Vk W main_v90 = shapeCast S1x64 (W main_arg22) shapeCasts_S64_S1x64
    ∧ Vk W main_v91 = shapeCast S1x64 (W main_arg23) shapeCasts_S64_S1x64
    ∧ Vk W main_v87 = transpose S64x1 [1, 0] (W main_arg24) transposes_S1x64_S64x1_1_0
    ∧ Vk W main_v92 = shapeCast S1x1 (W main_arg25) shapeCasts_S1_S1x1 := by
  refine ⟨?_, ?_, ?_, ?_, ?_, ?_, ?_⟩ <;>
    (show StableHlo.after hostOps8_2 (StableHlo.after hostOps8_1 (StableHlo.after hostOps8 W)) (Proc.devRef .tc _) = _
     after_results_simp) <;> rfl

theorem G8_rows (x : FVec Ideal S50000x64 .f32) (m v g s : FVec Ideal S64 .f32) (w : FVec Ideal S64x1 .f32) (b : FVec Ideal S1 .f32) :
    G8 x (shapeCast S1x64 m shapeCasts_S64_S1x64) (shapeCast S1x64 v shapeCasts_S64_S1x64) (shapeCast S1x64 g shapeCasts_S64_S1x64)
        (shapeCast S1x64 s shapeCasts_S64_S1x64) w (shapeCast S1x1 b shapeCasts_S1_S1x1)
      = headArr x m v g s w b := by
  funext i
  obtain ⟨r, q, rfl⟩ : ∃ (r : Fin 50000) (q : Fin 1), i = ix2 r q := ⟨i 0, i 1, eq_ix2 i⟩
  rw [headArr_apply]
  show headRow (fun k => x (ix2 r k)) (fun k => shapeCast S1x64 m shapeCasts_S64_S1x64 (ix2 (0 : Fin 1) k))
      (fun k => shapeCast S1x64 v shapeCasts_S64_S1x64 (ix2 (0 : Fin 1) k)) (fun k => shapeCast S1x64 g shapeCasts_S64_S1x64 (ix2 (0 : Fin 1) k))
      (fun k => shapeCast S1x64 s shapeCasts_S64_S1x64 (ix2 (0 : Fin 1) k)) (fun k => w (ix2 k q)) (shapeCast S1x1 b shapeCasts_S1_S1x1 (ix2 (0 : Fin 1) q)) = _
  simp only [shapeCast_a_1a_apply]

end S8

/-- Both sides are the reshape of one score column: the same column statistics of the same array, and the same logistic function. -/
theorem stage8 (c : Dev nD) (Wk : Dev nD → Valuation τ sig (Elt Ideal))
    (Wr : Valuation Cert.ReferenceIdeal.τ Cert.ReferenceIdeal.sig (Elt Ideal))
    (h82 : Wk c main_v82 = Wr Cert.Proof.Ref.hfc_ref)
    (h22 : Wk c main_arg22 = Wr Cert.ReferenceIdeal.main_arg22)
    (h23 : Wk c main_arg23 = Wr Cert.ReferenceIdeal.main_arg23)
    (h24 : Wk c main_arg24 = Wr Cert.ReferenceIdeal.main_arg24)
    (h25 : Wk c main_arg25 = Wr Cert.ReferenceIdeal.main_arg25) :
    StableHlo.after hostOps9
        (Function.update (S8.Vk (Wk c)) main_v93 ((Cert.Proof.KI.dat8 (F := Ideal) (fun c b => S8.Vk (Wk c) b) c).arrAt 7 cfg8.N)) main_v94
      = StableHlo.after Cert.Proof.Ref.seg_fin Wr Cert.ReferenceIdeal.main_v210 := by
  obtain ⟨e82, e88, e89, e90, e91, e87, e92⟩ := S8.Vk_vals (Wk c)
  rw [S8.final8, e82, e88, e89, e90, e91, e87, e92, S8.G8_rows, S8.ref8 Wr, ← h82, ← h22, ← h23, ← h24, ← h25]
  generalize S8.headArr (Wk c main_v82) (S8.colMean (Wk c main_v82)) (S8.colVar (Wk c main_v82) (constantI S_ 32 0#32))
    (Wk c main_arg22) (Wk c main_arg23) (transpose S64x1 [1, 0] (Wk c main_arg24) transposes_S1x64_S64x1_1_0) (Wk c main_arg25) = A
  generalize S8.Vk (Wk c) = U
  after_results
  rw [Function.update_self]
  rfl

end Cert.Proof.Val

end
-- ==== Proof.Val.Chain.lean ====
import proofs.«431052_j82222853914919_1_alg».proof.Proof.Gen.KernelIdeal.Regions
import proofs.«431052_j82222853914919_1_alg».proof.Proof.KI.Run
import proofs.«431052_j82222853914919_1_alg».proof.Proof.Ref.Run
import proofs.«431052_j82222853914919_1_alg».proof.Proof.Val.Stage0
import proofs.«431052_j82222853914919_1_alg».proof.Proof.Val.Stage1
import proofs.«431052_j82222853914919_1_alg».proof.Proof.Val.Stage2
import proofs.«431052_j82222853914919_1_alg».proof.Proof.Val.Stage3
import proofs.«431052_j82222853914919_1_alg».proof.Proof.Val.Stage4
import proofs.«431052_j82222853914919_1_alg».proof.Proof.Val.Stage5
import proofs.«431052_j82222853914919_1_alg».proof.Proof.Val.Stage6
import proofs.«431052_j82222853914919_1_alg».proof.Proof.Val.Stage7
import proofs.«431052_j82222853914919_1_alg».proof.Proof.Val.Stage8
import Idealize.ShloMosaic.PureOps.Ideal

noncomputable section

namespace Cert.Proof.Val

open Idealize.ShloMosaic Idealize.ShloMosaic.TcCoe Idealize.SL.Sem

/-- If step `n` changes nothing outside the lists `W n`, then what no step from `i` to `j` lists is at `j` what it was at `i`. -/
theorem kept {ρ : Type} {β : ρ → Type} {X : ℕ → (r : ρ) → β r} {W : ℕ → List (List ρ)}
    (hs : ∀ n r, (∀ w ∈ W n, r ∉ w) → X (n + 1) r = X n r) {r : ρ} {i j : ℕ} (hij : i ≤ j)
    (h : ∀ n < j, i ≤ n → ∀ w ∈ W n, r ∉ w) : X j r = X i r := by
  induction j, hij using Nat.le_induction with
  | base => rfl
  | succ j hij ih => exact (hs j r (h j j.lt_succ_self hij)).trans (ih fun n hn => h n (hn.trans j.lt_succ_self))

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

section Kernel

open KernelIdeal KernelIdeal.Gen

/-- The kernel program's contents at launch and after each of its first eight regions. -/
@[reducible] def K : ℕ → Dev nD → Valuation τ sig (Elt Ideal)
  | 0 => V0 m | 1 => V2 m (KI.outs m) | 2 => V4 m (KI.outs m) | 3 => V8 m (KI.outs m) | 4 => V10 m (KI.outs m)
  | 5 => V14 m (KI.outs m) | 6 => V16 m (KI.outs m) | 7 => V20 m (KI.outs m) | _ => V22 m (KI.outs m)

/-- The references written between contents `n` and contents `n + 1`. -/
noncomputable def WK : ℕ → List (List (Ref sig .tc))
  | 0 => [[main_v6], hostOps0_W]
  | 1 => [[main_v21], hostOps1_W]
  | 2 => [[main_v30], hostOps2_2_W, hostOps2_1_W, hostOps2_W]
  | 3 => [[main_v45], hostOps3_W]
  | 4 => [[main_v54], hostOps4_2_W, hostOps4_1_W, hostOps4_W]
  | 5 => [[main_v69], hostOps5_W]
  | 6 => [[main_v78], hostOps6_2_W, hostOps6_1_W, hostOps6_W]
  | 7 => [[main_v82], hostOps7_W]
  | _ => []

theorem K_succ : ∀ (n : ℕ) (r : Ref sig .tc), (∀ w ∈ WK n, r ∉ w) → K m (n + 1) c r = K m n c r
  | 0, r, h => (V2_of m _ c r (h _ (.head _))).trans (V1_of m c r (h _ (.tail _ (.head _))))
  | 1, r, h => (V4_of m _ c r (h _ (.head _))).trans (V3_of m _ c r (h _ (.tail _ (.head _))))
  | 2, r, h => (V8_of m _ c r (h _ (.head _))).trans <| (V7_of m _ c r (h _ (.tail _ (.head _)))).trans <|
      (V6_of m _ c r (h _ (.tail _ (.tail _ (.head _))))).trans (V5_of m _ c r (h _ (.tail _ (.tail _ (.tail _ (.head _))))))
  | 3, r, h => (V10_of m _ c r (h _ (.head _))).trans (V9_of m _ c r (h _ (.tail _ (.head _))))
  | 4, r, h => (V14_of m _ c r (h _ (.head _))).trans <| (V13_of m _ c r (h _ (.tail _ (.head _)))).trans <|
      (V12_of m _ c r (h _ (.tail _ (.tail _ (.head _))))).trans (V11_of m _ c r (h _ (.tail _ (.tail _ (.tail _ (.head _))))))
  | 5, r, h => (V16_of m _ c r (h _ (.head _))).trans (V15_of m _ c r (h _ (.tail _ (.head _))))
  | 6, r, h => (V20_of m _ c r (h _ (.head _))).trans <| (V19_of m _ c r (h _ (.tail _ (.head _)))).trans <|
      (V18_of m _ c r (h _ (.tail _ (.tail _ (.head _))))).trans (V17_of m _ c r (h _ (.tail _ (.tail _ (.tail _ (.head _))))))
  | 7, r, h => (V22_of m _ c r (h _ (.head _))).trans (V21_of m _ c r (h _ (.tail _ (.head _))))
  | _ + 8, _, _ => rfl

variable {m c} in
theorem K_kept {r : Ref sig .tc} (i j : ℕ) (hij : i ≤ j := by decide)
    (h : ∀ n < j, i ≤ n → ∀ w ∈ WK n, r ∉ w := by decide +kernel) : K m j c r = K m i c r :=
  kept (X := fun n (r : Ref sig .tc) => K m n c r) (K_succ m c) hij h

end Kernel

section Reference

open ReferenceIdeal Cert.Proof.Ref

/-- The reference's nine stretches in order. -/
def seg : ℕ → List (HloOp τ sig (Elt Ideal))
  | 0 => seg_emb | 1 => segA0 | 2 => segB0 | 3 => segA1 | 4 => segB1 | 5 => segA2 | 6 => segB2 | 7 => seg_fc1 | _ => seg_fin

/-- The reference's contents at launch and after each stretch in turn. -/
@[reducible] def R : ℕ → Valuation τ sig (Elt Ideal)
  | 0 => W0 m' c
  | n + 1 => StableHlo.after (seg n) (R n)

noncomputable def WR : ℕ → List (List (Ref sig .tc))
  | 0 => [seg_emb_W] | 1 => [segA0_W] | 2 => [segB0_W] | 3 => [segA1_W] | 4 => [segB1_W] | 5 => [segA2_W] | 6 => [segB2_W]
  | 7 => [seg_fc1_W] | _ => [seg_fin_W]

theorem R_succ : ∀ (n : ℕ) (r : Ref sig .tc), (∀ w ∈ WR n, r ∉ w) → R m' c (n + 1) r = R m' c n r
  | 0, r, h => seg_emb_of _ r (h _ (.head _))
  | 1, r, h => segA0_of _ r (h _ (.head _))
  | 2, r, h => segB0_of _ r (h _ (.head _))
  | 3, r, h => segA1_of _ r (h _ (.head _))
  | 4, r, h => segB1_of _ r (h _ (.head _))
  | 5, r, h => segA2_of _ r (h _ (.head _))
  | 6, r, h => segB2_of _ r (h _ (.head _))
  | 7, r, h => seg_fc1_of _ r (h _ (.head _))
  | _ + 8, r, h => seg_fin_of _ r (h _ (.head _))

variable {m' c} in
theorem R_kept {r : Ref sig .tc} (i j : ℕ) (hij : i ≤ j := by decide)
    (h : ∀ n < j, i ≤ n → ∀ w ∈ WR n, r ∉ w := by decide +kernel) : R m' c j r = R m' c i r :=
  kept (X := fun n (r : Ref sig .tc) => R m' c n r) (R_succ m' c) hij h

end Reference

/-- The launch agreement, argument by argument. -/
structure Launch : Prop where
  a0 : K m 0 c KernelIdeal.main_arg0 = R m' c 0 ReferenceIdeal.main_arg0
  a1 : K m 0 c KernelIdeal.main_arg1 = R m' c 0 ReferenceIdeal.main_arg1
  a2 : K m 0 c KernelIdeal.main_arg2 = R m' c 0 ReferenceIdeal.main_arg2
  a3 : K m 0 c KernelIdeal.main_arg3 = R m' c 0 ReferenceIdeal.main_arg3
  a4 : K m 0 c KernelIdeal.main_arg4 = R m' c 0 ReferenceIdeal.main_arg4
  a5 : K m 0 c KernelIdeal.main_arg5 = R m' c 0 ReferenceIdeal.main_arg5
  a6 : K m 0 c KernelIdeal.main_arg6 = R m' c 0 ReferenceIdeal.main_arg6
  a7 : K m 0 c KernelIdeal.main_arg7 = R m' c 0 ReferenceIdeal.main_arg7
  a8 : K m 0 c KernelIdeal.main_arg8 = R m' c 0 ReferenceIdeal.main_arg8
  a9 : K m 0 c KernelIdeal.main_arg9 = R m' c 0 ReferenceIdeal.main_arg9
  a10 : K m 0 c KernelIdeal.main_arg10 = R m' c 0 ReferenceIdeal.main_arg10
  a11 : K m 0 c KernelIdeal.main_arg11 = R m' c 0 ReferenceIdeal.main_arg11
  a12 : K m 0 c KernelIdeal.main_arg12 = R m' c 0 ReferenceIdeal.main_arg12
  a13 : K m 0 c KernelIdeal.main_arg13 = R m' c 0 ReferenceIdeal.main_arg13
  a14 : K m 0 c KernelIdeal.main_arg14 = R m' c 0 ReferenceIdeal.main_arg14
  a15 : K m 0 c KernelIdeal.main_arg15 = R m' c 0 ReferenceIdeal.main_arg15
  a16 : K m 0 c KernelIdeal.main_arg16 = R m' c 0 ReferenceIdeal.main_arg16
  a17 : K m 0 c KernelIdeal.main_arg17 = R m' c 0 ReferenceIdeal.main_arg17
  a18 : K m 0 c KernelIdeal.main_arg18 = R m' c 0 ReferenceIdeal.main_arg18
  a19 : K m 0 c KernelIdeal.main_arg19 = R m' c 0 ReferenceIdeal.main_arg19
  a20 : K m 0 c KernelIdeal.main_arg20 = R m' c 0 ReferenceIdeal.main_arg20
  a21 : K m 0 c KernelIdeal.main_arg21 = R m' c 0 ReferenceIdeal.main_arg21
  a22 : K m 0 c KernelIdeal.main_arg22 = R m' c 0 ReferenceIdeal.main_arg22
  a23 : K m 0 c KernelIdeal.main_arg23 = R m' c 0 ReferenceIdeal.main_arg23
  a24 : K m 0 c KernelIdeal.main_arg24 = R m' c 0 ReferenceIdeal.main_arg24
  a25 : K m 0 c KernelIdeal.main_arg25 = R m' c 0 ReferenceIdeal.main_arg25
  a26 : K m 0 c KernelIdeal.main_arg26 = R m' c 0 ReferenceIdeal.main_arg26
  a27 : K m 0 c KernelIdeal.main_arg27 = R m' c 0 ReferenceIdeal.main_arg27
  a28 : K m 0 c KernelIdeal.main_arg28 = R m' c 0 ReferenceIdeal.main_arg28

variable {m m' c}

theorem walk0 (L : Launch m m' c)
    (hdeg : ∀ i, 0 ≤ (R m' c 0 ReferenceIdeal.main_arg26 i).toInt ∧ (R m' c 0 ReferenceIdeal.main_arg26 i).toInt < 64)
    (hlab : ∀ i, 0 ≤ (R m' c 0 ReferenceIdeal.main_arg27 i).toInt ∧ (R m' c 0 ReferenceIdeal.main_arg27 i).toInt < 16) :
    K m 1 c KernelIdeal.main_v6 = R m' c 1 Ref.x0_ref ∧ K m 1 c KernelIdeal.main_v1 = R m' c 1 Ref.src_ref
      ∧ K m 1 c KernelIdeal.main_v3 = R m' c 1 ReferenceIdeal.main_v3 :=
  ⟨(Function.update_self _ _ _).trans <| (KI.outs_2 m c).trans <| stage0 c (K m 0) (R m' c 0) L.a0 L.a1 L.a26 L.a27 hdeg hlab,
    (KernelIdeal.Gen.V2_of m _ c _ (by decide)).trans (stage0_src c (K m 0) (R m' c 0) L.a28),
    (KernelIdeal.Gen.V2_of m _ c _ (by decide)).trans (stage0_dst c (K m 0) (R m' c 0) L.a28)⟩

theorem walk1 (L : Launch m m' c) (hx : K m 1 c KernelIdeal.main_v6 = R m' c 1 Ref.x0_ref)
    (hs : K m 1 c KernelIdeal.main_v1 = R m' c 1 Ref.src_ref) (hd : K m 1 c KernelIdeal.main_v3 = R m' c 1 ReferenceIdeal.main_v3) :
    K m 2 c KernelIdeal.main_v21 = R m' c 2 Ref.h0_ref :=
  (Function.update_self _ _ _).trans <| (KI.outs_4 m c).trans <| stage1 c (K m 1) (R m' c 1) hx hs hd ((K_kept 0 1).trans (L.a2.trans (R_kept 0 1).symm)) ((K_kept 0 1).trans (L.a3.trans (R_kept 0 1).symm))
    ((K_kept 0 1).trans (L.a4.trans (R_kept 0 1).symm)) ((K_kept 0 1).trans (L.a5.trans (R_kept 0 1).symm))

theorem walk5 (L : Launch m m' c) (hs : K m 1 c KernelIdeal.main_v1 = R m' c 1 Ref.src_ref)
    (hd : K m 1 c KernelIdeal.main_v3 = R m' c 1 ReferenceIdeal.main_v3) (o1 : K m 2 c KernelIdeal.main_v21 = R m' c 2 Ref.h0_ref) :
    K m 3 c KernelIdeal.main_v30 = R m' c 3 Ref.z1_ref ∧ K m 5 c KernelIdeal.main_v54 = R m' c 5 Ref.z2_ref
      ∧ K m 6 c KernelIdeal.main_v69 = R m' c 6 Ref.h2_ref := by
  have o2 : K m 3 c KernelIdeal.main_v30 = R m' c 3 Ref.z1_ref := (Function.update_self _ _ _).trans <| (KI.outs_8 m c).trans <|
    stage2 c (K m 2) (R m' c 2) o1 ((K_kept 0 2).trans (L.a6.trans (R_kept 0 2).symm)) ((K_kept 0 2).trans (L.a7.trans (R_kept 0 2).symm))
  have o3 : K m 4 c KernelIdeal.main_v45 = R m' c 4 Ref.h1_ref := (Function.update_self _ _ _).trans <| (KI.outs_10 m c).trans <|
    stage3 c (K m 3) (R m' c 3) o2 ((K_kept 1 3).trans (hs.trans (R_kept 1 3).symm)) ((K_kept 1 3).trans (hd.trans (R_kept 1 3).symm))
      ((K_kept 0 3).trans (L.a8.trans (R_kept 0 3).symm)) ((K_kept 0 3).trans (L.a9.trans (R_kept 0 3).symm))
      ((K_kept 0 3).trans (L.a10.trans (R_kept 0 3).symm)) ((K_kept 0 3).trans (L.a11.trans (R_kept 0 3).symm))
  have o4 : K m 5 c KernelIdeal.main_v54 = R m' c 5 Ref.z2_ref := (Function.update_self _ _ _).trans <| (KI.outs_14 m c).trans <|
    stage4 c (K m 4) (R m' c 4) o3 ((K_kept 0 4).trans (L.a12.trans (R_kept 0 4).symm)) ((K_kept 0 4).trans (L.a13.trans (R_kept 0 4).symm))
  exact ⟨o2, o4, (Function.update_self _ _ _).trans <| (KI.outs_16 m c).trans <|
    stage5 c (K m 5) (R m' c 5) o4 ((K_kept 1 5).trans (hs.trans (R_kept 1 5).symm)) ((K_kept 1 5).trans (hd.trans (R_kept 1 5).symm))
      ((K_kept 0 5).trans (L.a14.trans (R_kept 0 5).symm)) ((K_kept 0 5).trans (L.a15.trans (R_kept 0 5).symm))
      ((K_kept 0 5).trans (L.a16.trans (R_kept 0 5).symm)) ((K_kept 0 5).trans (L.a17.trans (R_kept 0 5).symm))⟩

variable (m m' c)

/-- Stage by stage: what a stage reads agrees on the two sides, being an argument or an earlier output that nothing since has written. -/
theorem result_eq
    (hdeg : ∀ i, 0 ≤ (m ((c.tc : Thread KernelIdeal.nD KernelIdeal.τ).loc KernelIdeal.main_arg26) i).toInt
      ∧ (m ((c.tc : Thread KernelIdeal.nD KernelIdeal.τ).loc KernelIdeal.main_arg26) i).toInt < 64)
    (hlab : ∀ i, 0 ≤ (m ((c.tc : Thread KernelIdeal.nD KernelIdeal.τ).loc KernelIdeal.main_arg27) i).toInt
      ∧ (m ((c.tc : Thread KernelIdeal.nD KernelIdeal.τ).loc KernelIdeal.main_arg27) i).toInt < 16)
    (hagree : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)
      ∧ m' ((c.tc : Thread ReferenceIdeal.nD ReferenceIdeal.τ).loc ReferenceIdeal.main_arg14) = m ((c.tc : Thread KernelIdeal.nD KernelIdeal.τ).loc KernelIdeal.main_arg14)
      ∧ m' ((c.tc : Thread ReferenceIdeal.nD ReferenceIdeal.τ).loc ReferenceIdeal.main_arg15) = m ((c.tc : Thread KernelIdeal.nD KernelIdeal.τ).loc KernelIdeal.main_arg15)
      ∧ m' ((c.tc : Thread ReferenceIdeal.nD ReferenceIdeal.τ).loc ReferenceIdeal.main_arg16) = m ((c.tc : Thread KernelIdeal.nD KernelIdeal.τ).loc KernelIdeal.main_arg16)
      ∧ m' ((c.tc : Thread ReferenceIdeal.nD ReferenceIdeal.τ).loc ReferenceIdeal.main_arg17) = m ((c.tc : Thread KernelIdeal.nD KernelIdeal.τ).loc KernelIdeal.main_arg17)
      ∧ m' ((c.tc : Thread ReferenceIdeal.nD ReferenceIdeal.τ).loc ReferenceIdeal.main_arg18) = m ((c.tc : Thread KernelIdeal.nD KernelIdeal.τ).loc KernelIdeal.main_arg18)
      ∧ m' ((c.tc : Thread ReferenceIdeal.nD ReferenceIdeal.τ).loc ReferenceIdeal.main_arg19) = m ((c.tc : Thread KernelIdeal.nD KernelIdeal.τ).loc KernelIdeal.main_arg19)
      ∧ m' ((c.tc : Thread ReferenceIdeal.nD ReferenceIdeal.τ).loc ReferenceIdeal.main_arg20) = m ((c.tc : Thread KernelIdeal.nD KernelIdeal.τ).loc KernelIdeal.main_arg20)
      ∧ m' ((c.tc : Thread ReferenceIdeal.nD ReferenceIdeal.τ).loc ReferenceIdeal.main_arg21) = m ((c.tc : Thread KernelIdeal.nD KernelIdeal.τ).loc KernelIdeal.main_arg21)
      ∧ m' ((c.tc : Thread ReferenceIdeal.nD ReferenceIdeal.τ).loc ReferenceIdeal.main_arg22) = m ((c.tc : Thread KernelIdeal.nD KernelIdeal.τ).loc KernelIdeal.main_arg22)
      ∧ m' ((c.tc : Thread ReferenceIdeal.nD ReferenceIdeal.τ).loc ReferenceIdeal.main_arg23) = m ((c.tc : Thread KernelIdeal.nD KernelIdeal.τ).loc KernelIdeal.main_arg23)
      ∧ m' ((c.tc : Thread ReferenceIdeal.nD ReferenceIdeal.τ).loc ReferenceIdeal.main_arg24) = m ((c.tc : Thread KernelIdeal.nD KernelIdeal.τ).loc KernelIdeal.main_arg24)
      ∧ m' ((c.tc : Thread ReferenceIdeal.nD ReferenceIdeal.τ).loc ReferenceIdeal.main_arg25) = m ((c.tc : Thread KernelIdeal.nD KernelIdeal.τ).loc KernelIdeal.main_arg25)
      ∧ m' ((c.tc : Thread ReferenceIdeal.nD ReferenceIdeal.τ).loc ReferenceIdeal.main_arg26) = m ((c.tc : Thread KernelIdeal.nD KernelIdeal.τ).loc KernelIdeal.main_arg26)
      ∧ m' ((c.tc : Thread ReferenceIdeal.nD ReferenceIdeal.τ).loc ReferenceIdeal.main_arg27) = m ((c.tc : Thread KernelIdeal.nD KernelIdeal.τ).loc KernelIdeal.main_arg27)
      ∧ m' ((c.tc : Thread ReferenceIdeal.nD ReferenceIdeal.τ).loc ReferenceIdeal.main_arg28) = m ((c.tc : Thread KernelIdeal.nD KernelIdeal.τ).loc KernelIdeal.main_arg28)) :
    KernelIdeal.Gen.V27 m (KI.outs m) c KernelIdeal.main_v94 = StableHlo.after Ref.ops (Ref.W0 m' c) ReferenceIdeal.main_v210 := by
  obtain ⟨g0, g1, g2, g3, g4, g5, g6, g7, g8, g9, g10, g11, g12, g13, g14, g15, g16, g17, g18, g19, g20, g21, g22, g23, g24, g25, g26, g27, g28⟩ := hagree
  have L : Launch m m' c := ⟨g0.symm, g1.symm, g2.symm, g3.symm, g4.symm, g5.symm, g6.symm, g7.symm, g8.symm, g9.symm, g10.symm, g11.symm, g12.symm,
    g13.symm, g14.symm, g15.symm, g16.symm, g17.symm, g18.symm, g19.symm, g20.symm, g21.symm, g22.symm, g23.symm, g24.symm, g25.symm, g26.symm, g27.symm, g28.symm⟩
  obtain ⟨hx, hs, hd⟩ := walk0 L (by rw [show R m' c 0 ReferenceIdeal.main_arg26 = _ from g26]; exact hdeg)
    (by rw [show R m' c 0 ReferenceIdeal.main_arg27 = _ from g27]; exact hlab)
  obtain ⟨o2, o4, o5⟩ := walk5 L hs hd (walk1 L hx hs hd)
  have o6 : K m 7 c KernelIdeal.main_v78 = R m' c 7 Ref.z3_ref := (Function.update_self _ _ _).trans <| (KI.outs_20 m c).trans <|
    stage6 c (K m 6) (R m' c 6) o5 ((K_kept 0 6).trans (L.a18.trans (R_kept 0 6).symm)) ((K_kept 0 6).trans (L.a19.trans (R_kept 0 6).symm))
  have o7 : K m 8 c KernelIdeal.main_v82 = R m' c 8 Ref.hfc_ref := (Function.update_self _ _ _).trans <| (KI.outs_22 m c).trans <|
    stage7 c (K m 7) (R m' c 7) ((K_kept 1 7).trans (hx.trans (R_kept 1 7).symm)) ((K_kept 3 7).trans (o2.trans (R_kept 3 7).symm))
      ((K_kept 5 7).trans (o4.trans (R_kept 5 7).symm)) o6 ((K_kept 0 7).trans (L.a20.trans (R_kept 0 7).symm)) ((K_kept 0 7).trans (L.a21.trans (R_kept 0 7).symm))
  have e : KernelIdeal.Gen.V27 m (KI.outs m) c KernelIdeal.main_v94 = StableHlo.after KernelIdeal.Gen.hostOps9 (Function.update (KernelIdeal.Gen.V25 m (KI.outs m) c) KernelIdeal.main_v93
      ((KI.dat8 (fun c b => KernelIdeal.Gen.V25 m (KI.outs m) c b) c).arrAt 7 KernelIdeal.cfg8.N)) KernelIdeal.main_v94 := by
    rw [← KI.outs_26 m c]
  exact e.trans <| (stage8 c (K m 8) (R m' c 8) o7 ((K_kept 0 8).trans (L.a22.trans (R_kept 0 8).symm)) ((K_kept 0 8).trans (L.a23.trans (R_kept 0 8).symm))
    ((K_kept 0 8).trans (L.a24.trans (R_kept 0 8).symm)) ((K_kept 0 8).trans (L.a25.trans (R_kept 0 8).symm))).trans (congrFun (Ref.after_ops _).symm _)

end Cert.Proof.Val
-- ==== Proof.lean ====
import proofs.«431052_j82222853914919_1_alg».proof.Defs
import proofs.«431052_j82222853914919_1_alg».proof.Proof.Gen.Kernel
import proofs.«431052_j82222853914919_1_alg».proof.Proof.Gen.KernelIdeal
import proofs.«431052_j82222853914919_1_alg».proof.Proof.Gen.ReferenceIdeal
import proofs.«431052_j82222853914919_1_alg».proof.Proof.Gen.Pre_finite_inputs
import proofs.«431052_j82222853914919_1_alg».proof.Proof.PreFacts
import proofs.«431052_j82222853914919_1_alg».proof.Proof.KB.Run
import proofs.«431052_j82222853914919_1_alg».proof.Proof.KI.Run
import proofs.«431052_j82222853914919_1_alg».proof.Proof.Ref.Run
import proofs.«431052_j82222853914919_1_alg».proof.Proof.Val.Chain

noncomputable section

namespace Cert.Proof

open Idealize.ShloMosaic Idealize.ShloMosaic.TcCoe Idealize.SL.Sem

namespace Claims

theorem frame_k : Cert.frame_Kernel := fun m ρ _ =>
  (θ_run Cert.Kernel.defs _ _).mono (fun _ h c => (h c).2) (Cert.Proof.KB.run m ρ)

theorem frame_ki : Cert.frame_KernelIdeal := fun m ρ _ =>
  (θ_run Cert.KernelIdeal.defs _ _).mono (fun _ h c => (h c).2) (Cert.Proof.KI.run m ρ)

theorem frame_ri : Cert.frame_ReferenceIdeal := fun m ρ _ =>
  (θ_run Cert.ReferenceIdeal.defs _ _).mono (fun _ h c => (h c).2) (Cert.Proof.Ref.run (F := Ideal) m ρ)

theorem preserves : Cert.preserves_Kernel_KernelIdeal := trivial

-- Both programs end at one result: the kernel program's last boundary's contents equal the reference's composed term, given the precondition's index ranges.
theorem algebraic : Cert.algebraic_KernelIdeal_ReferenceIdeal := fun m g m' g' hpre hagree =>
  ⟨fun c => Cert.KernelIdeal.Gen.V27 m (Cert.Proof.KI.outs m) c Cert.KernelIdeal.main_v94, Cert.Proof.KI.run m g,
    (θ_run (Cert.ReferenceIdeal.defs (F := Ideal)) _ _).mono (fun r h c => by
      obtain ⟨hdeg, hlab⟩ := Cert.Proof.PreFacts.ranges _ _ _ _ _ _ _ _ _ _ _ _ _ _ _ _ _ _ _ _ _ _ _ _ _ _ _ _ _ (hpre c)
      exact ⟨(h c).1.trans (Cert.Proof.Val.result_eq m m' c hdeg hlab (hagree c)).symm, (h c).2⟩)
      (Cert.Proof.Ref.run (F := Ideal) m' g')⟩

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
